-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v317)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v317) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v345) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S800000x1 : Shape := ⟨2, ![800000, 1]⟩
abbrev S50000x3 : Shape := ⟨2, ![50000, 3]⟩
abbrev S50000 : Shape := ⟨1, ![50000]⟩
abbrev S119x32 : Shape := ⟨2, ![119, 32]⟩
abbrev S11x8 : Shape := ⟨2, ![11, 8]⟩
abbrev S12x8 : Shape := ⟨2, ![12, 8]⟩
abbrev S8x8 : Shape := ⟨2, ![8, 8]⟩
abbrev S2x8 : Shape := ⟨2, ![2, 8]⟩
abbrev S9x8 : Shape := ⟨2, ![9, 8]⟩
abbrev S5x8 : Shape := ⟨2, ![5, 8]⟩
abbrev S7x8 : Shape := ⟨2, ![7, 8]⟩
abbrev S2x222x128 : Shape := ⟨3, ![2, 222, 128]⟩
abbrev S2x128 : Shape := ⟨2, ![2, 128]⟩
abbrev S2x128x32 : Shape := ⟨3, ![2, 128, 32]⟩
abbrev S2x32 : Shape := ⟨2, ![2, 32]⟩
abbrev S2x142x128 : Shape := ⟨3, ![2, 142, 128]⟩
abbrev S2x128x110 : Shape := ⟨3, ![2, 128, 110]⟩
abbrev S2x110 : Shape := ⟨2, ![2, 110]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S50000x3 : S_.BroadcastsInDim S50000x3 (![] : Fin 0 → Fin S50000x3.rank)
  reducesTo_S50000x3_S_d0_1 : S50000x3.ReducesTo [0, 1] S_
  bcast_S_S119x32 : S_.BroadcastsInDim S119x32 (![] : Fin 0 → Fin S119x32.rank)
  reducesTo_S119x32_S_d0_1 : S119x32.ReducesTo [0, 1] S_
  bcast_S_S11x8 : S_.BroadcastsInDim S11x8 (![] : Fin 0 → Fin S11x8.rank)
  reducesTo_S11x8_S_d0_1 : S11x8.ReducesTo [0, 1] S_
  bcast_S_S12x8 : S_.BroadcastsInDim S12x8 (![] : Fin 0 → Fin S12x8.rank)
  reducesTo_S12x8_S_d0_1 : S12x8.ReducesTo [0, 1] S_
  bcast_S_S8x8 : S_.BroadcastsInDim S8x8 (![] : Fin 0 → Fin S8x8.rank)
  reducesTo_S8x8_S_d0_1 : S8x8.ReducesTo [0, 1] S_
  bcast_S_S2x8 : S_.BroadcastsInDim S2x8 (![] : Fin 0 → Fin S2x8.rank)
  reducesTo_S2x8_S_d0_1 : S2x8.ReducesTo [0, 1] S_
  bcast_S_S9x8 : S_.BroadcastsInDim S9x8 (![] : Fin 0 → Fin S9x8.rank)
  reducesTo_S9x8_S_d0_1 : S9x8.ReducesTo [0, 1] S_
  bcast_S_S5x8 : S_.BroadcastsInDim S5x8 (![] : Fin 0 → Fin S5x8.rank)
  reducesTo_S5x8_S_d0_1 : S5x8.ReducesTo [0, 1] S_
  bcast_S_S7x8 : S_.BroadcastsInDim S7x8 (![] : Fin 0 → Fin S7x8.rank)
  reducesTo_S7x8_S_d0_1 : S7x8.ReducesTo [0, 1] S_
  bcast_S_S2x222x128 : S_.BroadcastsInDim S2x222x128 (![] : Fin 0 → Fin S2x222x128.rank)
  reducesTo_S2x222x128_S_d0_1_2 : S2x222x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x32 : S_.BroadcastsInDim S2x128x32 (![] : Fin 0 → Fin S2x128x32.rank)
  reducesTo_S2x128x32_S_d0_1_2 : S2x128x32.ReducesTo [0, 1, 2] S_
  bcast_S_S2x32 : S_.BroadcastsInDim S2x32 (![] : Fin 0 → Fin S2x32.rank)
  reducesTo_S2x32_S_d0_1 : S2x32.ReducesTo [0, 1] S_
  bcast_S_S2x142x128 : S_.BroadcastsInDim S2x142x128 (![] : Fin 0 → Fin S2x142x128.rank)
  reducesTo_S2x142x128_S_d0_1_2 : S2x142x128.ReducesTo [0, 1, 2] S_
  bcast_S_S2x128x110 : S_.BroadcastsInDim S2x128x110 (![] : Fin 0 → Fin S2x128x110.rank)
  reducesTo_S2x128x110_S_d0_1_2 : S2x128x110.ReducesTo [0, 1, 2] S_
  bcast_S_S2x110 : S_.BroadcastsInDim S2x110 (![] : Fin 0 → Fin S2x110.rank)
  reducesTo_S2x110_S_d0_1 : S2x110.ReducesTo [0, 1] S_

variable [Facts]

def fn_part6 {F : FTy → Type} [FloatOps F] (main_arg23 : FVec F S2x110 .f32) (main_arg24 : FVec F S2x110 .f32) (main_v98 : IVec S_ 1) (main_v101 : IVec S2x110 1) (main_c_39 : IVec S_ 1) : IVec S_ 1 :=
  let main_v102 : IVec S_ 1 := (fun x v => Host.reduce IntOp.andi x v reducesTo_S2x110_S_d0_1 h_S_) main_v101 main_c_39
  let main_v103 : IVec S_ 1 := andi main_v98 main_v102
  let main_v104 : FVec F S2x110 .f32 := Host.absf main_arg23
  let main_cst_40 : FVec F S_ .f32 := constant S_ .f32 0x7F800000#32
  let main_v105 : FVec F S2x110 .f32 := broadcastInDim S2x110 ![] bcast_S_S2x110 main_cst_40
  let main_v106 : IVec S2x110 1 := cmpf .olt main_v104 main_v105
  let main_c_41 : IVec S_ 1 := constantI S_ 1 1#1
  let main_v107 : IVec S_ 1 := (fun x v => Host.reduce IntOp.andi x v reducesTo_S2x110_S_d0_1 h_S_) main_v106 main_c_41
  let main_v108 : IVec S_ 1 := andi main_v103 main_v107
  let main_v109 : FVec F S2x110 .f32 := Host.absf main_arg24
  let main_cst_42 : FVec F S_ .f32 := constant S_ .f32 0x7F800000#32
  let main_v110 : FVec F S2x110 .f32 := broadcastInDim S2x110 ![] bcast_S_S2x110 main_cst_42
  let main_v111 : IVec S2x110 1 := cmpf .olt main_v109 main_v110
  let main_c_43 : IVec S_ 1 := constantI S_ 1 1#1
  let main_v112 : IVec S_ 1 := (fun x v => Host.reduce IntOp.andi x v reducesTo_S2x110_S_d0_1 h_S_) main_v111 main_c_43
  let main_v113 : IVec S_ 1 := andi main_v108 main_v112
  main_v113

def fn_part5 {F : FTy → Type} [FloatOps F] (main_arg20 : FVec F S2x128 .f32) (main_arg21 : FVec F S2x128x110 .f32) (main_arg22 : FVec F S2x110 .f32) (main_arg23 : FVec F S2x110 .f32) (main_arg24 : FVec F S2x110 .f32) (main_v83 : IVec S_ 1) (main_v84 : FVec F S2x142x128 .f32) (main_cst_32 : FVec F S_ .f32) : IVec S_ 1 :=
  let main_v85 : FVec F S2x142x128 .f32 := broadcastInDim S2x142x128 ![] bcast_S_S2x142x128 main_cst_32
  let main_v86 : IVec S2x142x128 1 := cmpf .olt main_v84 main_v85
  let main_c_33 : IVec S_ 1 := constantI S_ 1 1#1
  let main_v87 : IVec S_ 1 := (fun x v => Host.reduce IntOp.andi x v reducesTo_S2x142x128_S_d0_1_2 h_S_) main_v86 main_c_33
  let main_v88 : IVec S_ 1 := andi main_v83 main_v87
  let main_v89 : FVec F S2x128 .f32 := Host.absf main_arg20
  let main_cst_34 : FVec F S_ .f32 := constant S_ .f32 0x7F800000#32
  let main_v90 : FVec F S2x128 .f32 := broadcastInDim S2x128 ![] bcast_S_S2x128 main_cst_34
  let main_v91 : IVec S2x128 1 := cmpf .olt main_v89 main_v90
  let main_c_35 : IVec S_ 1 := constantI S_ 1 1#1
  let main_v92 : IVec S_ 1 := (fun x v => Host.reduce IntOp.andi x v reducesTo_S2x128_S_d0_1 h_S_) main_v91 main_c_35
  let main_v93 : IVec S_ 1 := andi main_v88 main_v92
  let main_v94 : FVec F S2x128x110 .f32 := Host.absf main_arg21
  let main_cst_36 : FVec F S_ .f32 := constant S_ .f32 0x7F800000#32
  let main_v95 : FVec F S2x128x110 .f32 := broadcastInDim S2x128x110 ![] bcast_S_S2x128x110 main_cst_36
  let main_v96 : IVec S2x128x110 1 := cmpf .olt main_v94 main_v95
  let main_c_37 : IVec S_ 1 := constantI S_ 1 1#1
  let main_v97 : IVec S_ 1 := (fun x v => Host.reduce IntOp.andi x v reducesTo_S2x128x110_S_d0_1_2 h_S_) main_v96 main_c_37
  let main_v98 : IVec S_ 1 := andi main_v93 main_v97
  let main_v99 : FVec F S2x110 .f32 := Host.absf main_arg22
  let main_cst_38 : FVec F S_ .f32 := constant S_ .f32 0x7F800000#32
  let main_v100 : FVec F S2x110 .f32 := broadcastInDim S2x110 ![] bcast_S_S2x110 main_cst_38
  let main_v101 : IVec S2x110 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S2x128 .f32) (main_arg17 : FVec F S2x128x32 .f32) (main_arg18 : FVec F S2x32 .f32) (main_arg19 : FVec F S2x142x128 .f32) (main_arg20 : FVec F S2x128 .f32) (main_arg21 : FVec F S2x128x110 .f32) (main_arg22 : FVec F S2x110 .f32) (main_arg23 : FVec F S2x110 .f32) (main_arg24 : FVec F S2x110 .f32) (main_v63 : IVec S_ 1) (main_v67 : IVec S_ 1) : IVec S_ 1 :=
  let main_v68 : IVec S_ 1 := andi main_v63 main_v67
  let main_v69 : FVec F S2x128 .f32 := Host.absf main_arg16
  let main_cst_26 : FVec F S_ .f32 := constant S_ .f32 0x7F800000#32
  let main_v70 : FVec F S2x128 .f32 := broadcastInDim S2x128 ![] bcast_S_S2x128 main_cst_26
  let main_v71 : IVec S2x128 1 := cmpf .olt main_v69 main_v70
  let main_c_27 : IVec S_ 1 := constantI S_ 1 1#1
  let main_v72 : IVec S_ 1 := (fun x v => Host.reduce IntOp.andi x v reducesTo_S2x128_S_d0_1 h_S_) main_v71 main_c_27
  let main_v73 : IVec S_ 1 := andi main_v68 main_v72
  let main_v74 : FVec F S2x128x32 .f32 := Host.absf main_arg17
  let main_cst_28 : FVec F S_ .f32 := constant S_ .f32 0x7F800000#32
  let main_v75 : FVec F S2x128x32 .f32 := broadcastInDim S2x128x32 ![] bcast_S_S2x128x32 main_cst_28
  let main_v76 : IVec S2x128x32 1 := cmpf .olt main_v74 main_v75
  let main_c_29 : IVec S_ 1 := constantI S_ 1 1#1
  let main_v77 : IVec S_ 1 := (fun x v => Host.reduce IntOp.andi x v reducesTo_S2x128x32_S_d0_1_2 h_S_) main_v76 main_c_29
  let main_v78 : IVec S_ 1 := andi main_v73 main_v77
  let main_v79 : FVec F S2x32 .f32 := Host.absf main_arg18
  let main_cst_30 : FVec F S_ .f32 := constant S_ .f32 0x7F800000#32
  let main_v80 : FVec F S2x32 .f32 := broadcastInDim S2x32 ![] bcast_S_S2x32 main_cst_30
  let main_v81 : IVec S2x32 1 := cmpf .olt main_v79 main_v80
  let main_c_31 : IVec S_ 1 := constantI S_ 1 1#1
  let main_v82 : IVec S_ 1 := (fun x v => Host.reduce IntOp.andi x v reducesTo_S2x32_S_d0_1 h_S_) main_v81 main_c_31
  let main_v83 : IVec S_ 1 := andi main_v78 main_v82
  let main_v84 : FVec F S2x142x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S5x8 .f32) (main_arg14 : FVec F S7x8 .f32) (main_arg15 : FVec F S2x222x128 .f32) (main_arg16 : FVec F S2x128 .f32) (main_arg17 : FVec F S2x128x32 .f32) (main_arg18 : FVec F S2x32 .f32) (main_arg19 : FVec F S2x142x128 .f32) (main_arg20 : FVec F S2x128 .f32) (main_arg21 : FVec F S2x128x110 .f32) (main_arg22 : FVec F S2x110 .f32) (main_arg23 : FVec F S2x110 .f32) (main_arg24 : FVec F S2x110 .f32) (main_v48 : IVec S_ 1) (main_v49 : FVec F S9x8 .f32) (main_v50 : FVec F S9x8 .f32) : IVec S_ 1 :=
  let main_v51 : IVec S9x8 1 := cmpf .olt main_v49 main_v50
  let main_c_19 : IVec S_ 1 := constantI S_ 1 1#1
  let main_v52 : IVec S_ 1 := (fun x v => Host.reduce IntOp.andi x v reducesTo_S9x8_S_d0_1 h_S_) main_v51 main_c_19
  let main_v53 : IVec S_ 1 := andi main_v48 main_v52
  let main_v54 : FVec F S5x8 .f32 := Host.absf main_arg13
  let main_cst_20 : FVec F S_ .f32 := constant S_ .f32 0x7F800000#32
  let main_v55 : FVec F S5x8 .f32 := broadcastInDim S5x8 ![] bcast_S_S5x8 main_cst_20
  let main_v56 : IVec S5x8 1 := cmpf .olt main_v54 main_v55
  let main_c_21 : IVec S_ 1 := constantI S_ 1 1#1
  let main_v57 : IVec S_ 1 := (fun x v => Host.reduce IntOp.andi x v reducesTo_S5x8_S_d0_1 h_S_) main_v56 main_c_21
  let main_v58 : IVec S_ 1 := andi main_v53 main_v57
  let main_v59 : FVec F S7x8 .f32 := Host.absf main_arg14
  let main_cst_22 : FVec F S_ .f32 := constant S_ .f32 0x7F800000#32
  let main_v60 : FVec F S7x8 .f32 := broadcastInDim S7x8 ![] bcast_S_S7x8 main_cst_22
  let main_v61 : IVec S7x8 1 := cmpf .olt main_v59 main_v60
  let main_c_23 : IVec S_ 1 := constantI S_ 1 1#1
  let main_v62 : IVec S_ 1 := (fun x v => Host.reduce IntOp.andi x v reducesTo_S7x8_S_d0_1 h_S_) main_v61 main_c_23
  let main_v63 : IVec S_ 1 := andi main_v58 main_v62
  let main_v64 : FVec F S2x222x128 .f32 := Host.absf main_arg15
  let main_cst_24 : FVec F S_ .f32 := constant S_ .f32 0x7F800000#32
  let main_v65 : FVec F S2x222x128 .f32 := broadcastInDim S2x222x128 ![] bcast_S_S2x222x128 main_cst_24
  let main_v66 : IVec S2x222x128 1 := cmpf .olt main_v64 main_v65
  let main_c_25 : IVec S_ 1 := constantI S_ 1 1#1
  let main_v67 : IVec S_ 1 := (fun x v => Host.reduce IntOp.andi x v reducesTo_S2x222x128_S_d0_1_2 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S2x8 .f32) (main_arg10 : FVec F S9x8 .f32) (main_arg11 : FVec F S2x8 .f32) (main_arg12 : FVec F S9x8 .f32) (main_arg13 : FVec F S5x8 .f32) (main_arg14 : FVec F S7x8 .f32) (main_arg15 : FVec F S2x222x128 .f32) (main_arg16 : FVec F S2x128 .f32) (main_arg17 : FVec F S2x128x32 .f32) (main_arg18 : FVec F S2x32 .f32) (main_arg19 : FVec F S2x142x128 .f32) (main_arg20 : FVec F S2x128 .f32) (main_arg21 : FVec F S2x128x110 .f32) (main_arg22 : FVec F S2x110 .f32) (main_arg23 : FVec F S2x110 .f32) (main_arg24 : FVec F S2x110 .f32) (main_v33 : IVec S_ 1) : IVec S_ 1 :=
  let main_v34 : FVec F S2x8 .f32 := Host.absf main_arg9
  let main_cst_12 : FVec F S_ .f32 := constant S_ .f32 0x7F800000#32
  let main_v35 : FVec F S2x8 .f32 := broadcastInDim S2x8 ![] bcast_S_S2x8 main_cst_12
  let main_v36 : IVec S2x8 1 := cmpf .olt main_v34 main_v35
  let main_c_13 : IVec S_ 1 := constantI S_ 1 1#1
  let main_v37 : IVec S_ 1 := (fun x v => Host.reduce IntOp.andi x v reducesTo_S2x8_S_d0_1 h_S_) main_v36 main_c_13
  let main_v38 : IVec S_ 1 := andi main_v33 main_v37
  let main_v39 : FVec F S9x8 .f32 := Host.absf main_arg10
  let main_cst_14 : FVec F S_ .f32 := constant S_ .f32 0x7F800000#32
  let main_v40 : FVec F S9x8 .f32 := broadcastInDim S9x8 ![] bcast_S_S9x8 main_cst_14
  let main_v41 : IVec S9x8 1 := cmpf .olt main_v39 main_v40
  let main_c_15 : IVec S_ 1 := constantI S_ 1 1#1
  let main_v42 : IVec S_ 1 := (fun x v => Host.reduce IntOp.andi x v reducesTo_S9x8_S_d0_1 h_S_) main_v41 main_c_15
  let main_v43 : IVec S_ 1 := andi main_v38 main_v42
  let main_v44 : FVec F S2x8 .f32 := Host.absf main_arg11
  let main_cst_16 : FVec F S_ .f32 := constant S_ .f32 0x7F800000#32
  let main_v45 : FVec F S2x8 .f32 := broadcastInDim S2x8 ![] bcast_S_S2x8 main_cst_16
  let main_v46 : IVec S2x8 1 := cmpf .olt main_v44 main_v45
  let main_c_17 : IVec S_ 1 := constantI S_ 1 1#1
  let main_v47 : IVec S_ 1 := (fun x v => Host.reduce IntOp.andi x v reducesTo_S2x8_S_d0_1 h_S_) main_v46 main_c_17
  let main_v48 : IVec S_ 1 := andi main_v43 main_v47
  let main_v49 : FVec F S9x8 .f32 := Host.absf main_arg12
  let main_cst_18 : FVec F S_ .f32 := constant S_ .f32 0x7F800000#32
  let main_v50 : FVec F S9x8 .f32 := broadcastInDim S9x8 ![] bcast_S_S9x8 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S11x8 .f32) (main_arg7 : FVec F S12x8 .f32) (main_arg8 : FVec F S8x8 .f32) (main_arg9 : FVec F S2x8 .f32) (main_arg10 : FVec F S9x8 .f32) (main_arg11 : FVec F S2x8 .f32) (main_arg12 : FVec F S9x8 .f32) (main_arg13 : FVec F S5x8 .f32) (main_arg14 : FVec F S7x8 .f32) (main_arg15 : FVec F S2x222x128 .f32) (main_arg16 : FVec F S2x128 .f32) (main_arg17 : FVec F S2x128x32 .f32) (main_arg18 : FVec F S2x32 .f32) (main_arg19 : FVec F S2x142x128 .f32) (main_arg20 : FVec F S2x128 .f32) (main_arg21 : FVec F S2x128x110 .f32) (main_arg22 : FVec F S2x110 .f32) (main_arg23 : FVec F S2x110 .f32) (main_arg24 : FVec F S2x110 .f32) (main_v13 : IVec S_ 1) (main_v16 : IVec S119x32 1) : IVec S_ 1 :=
  let main_c_5 : IVec S_ 1 := constantI S_ 1 1#1
  let main_v17 : IVec S_ 1 := (fun x v => Host.reduce IntOp.andi x v reducesTo_S119x32_S_d0_1 h_S_) main_v16 main_c_5
  let main_v18 : IVec S_ 1 := andi main_v13 main_v17
  let main_v19 : FVec F S11x8 .f32 := Host.absf main_arg6
  let main_cst_6 : FVec F S_ .f32 := constant S_ .f32 0x7F800000#32
  let main_v20 : FVec F S11x8 .f32 := broadcastInDim S11x8 ![] bcast_S_S11x8 main_cst_6
  let main_v21 : IVec S11x8 1 := cmpf .olt main_v19 main_v20
  let main_c_7 : IVec S_ 1 := constantI S_ 1 1#1
  let main_v22 : IVec S_ 1 := (fun x v => Host.reduce IntOp.andi x v reducesTo_S11x8_S_d0_1 h_S_) main_v21 main_c_7
  let main_v23 : IVec S_ 1 := andi main_v18 main_v22
  let main_v24 : FVec F S12x8 .f32 := Host.absf main_arg7
  let main_cst_8 : FVec F S_ .f32 := constant S_ .f32 0x7F800000#32
  let main_v25 : FVec F S12x8 .f32 := broadcastInDim S12x8 ![] bcast_S_S12x8 main_cst_8
  let main_v26 : IVec S12x8 1 := cmpf .olt main_v24 main_v25
  let main_c_9 : IVec S_ 1 := constantI S_ 1 1#1
  let main_v27 : IVec S_ 1 := (fun x v => Host.reduce IntOp.andi x v reducesTo_S12x8_S_d0_1 h_S_) main_v26 main_c_9
  let main_v28 : IVec S_ 1 := andi main_v23 main_v27
  let main_v29 : FVec F S8x8 .f32 := Host.absf main_arg8
  let main_cst_10 : FVec F S_ .f32 := constant S_ .f32 0x7F800000#32
  let main_v30 : FVec F S8x8 .f32 := broadcastInDim S8x8 ![] bcast_S_S8x8 main_cst_10
  let main_v31 : IVec S8x8 1 := cmpf .olt main_v29 main_v30
  let main_c_11 : IVec S_ 1 := constantI S_ 1 1#1
  let main_v32 : IVec S_ 1 := (fun x v => Host.reduce IntOp.andi x v reducesTo_S8x8_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x16 .f32) (main_arg1 : IVec S2x800000 32) (main_arg2 : FVec F S800000x1 .f32) (main_arg3 : FVec F S50000x3 .f32) (main_arg4 : IVec S50000 32) (main_arg5 : FVec F S119x32 .f32) (main_arg6 : FVec F S11x8 .f32) (main_arg7 : FVec F S12x8 .f32) (main_arg8 : FVec F S8x8 .f32) (main_arg9 : FVec F S2x8 .f32) (main_arg10 : FVec F S9x8 .f32) (main_arg11 : FVec F S2x8 .f32) (main_arg12 : FVec F S9x8 .f32) (main_arg13 : FVec F S5x8 .f32) (main_arg14 : FVec F S7x8 .f32) (main_arg15 : FVec F S2x222x128 .f32) (main_arg16 : FVec F S2x128 .f32) (main_arg17 : FVec F S2x128x32 .f32) (main_arg18 : FVec F S2x32 .f32) (main_arg19 : FVec F S2x142x128 .f32) (main_arg20 : FVec F S2x128 .f32) (main_arg21 : FVec F S2x128x110 .f32) (main_arg22 : FVec F S2x110 .f32) (main_arg23 : FVec F S2x110 .f32) (main_arg24 : FVec F S2x110 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S50000x3 .f32 := Host.absf main_arg3
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S119x32 .f32 := Host.absf main_arg5
  let main_cst_4 : FVec F S_ .f32 := constant S_ .f32 0x7F800000#32
  let main_v15 : FVec F S119x32 .f32 := broadcastInDim S119x32 ![] bcast_S_S119x32 main_cst_4
  let main_v16 : IVec S119x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x16 : Shape := ⟨2, ![50000, 16]⟩
abbrev S2x800000 : Shape := ⟨2, ![2, 800000]⟩
abbrev S800000x1 : Shape := ⟨2, ![800000, 1]⟩
abbrev S50000x3 : Shape := ⟨2, ![50000, 3]⟩
abbrev S50000 : Shape := ⟨1, ![50000]⟩
abbrev S119x32 : Shape := ⟨2, ![119, 32]⟩
abbrev S11x8 : Shape := ⟨2, ![11, 8]⟩
abbrev S12x8 : Shape := ⟨2, ![12, 8]⟩
abbrev S8x8 : Shape := ⟨2, ![8, 8]⟩
abbrev S2x8 : Shape := ⟨2, ![2, 8]⟩
abbrev S9x8 : Shape := ⟨2, ![9, 8]⟩
abbrev S5x8 : Shape := ⟨2, ![5, 8]⟩
abbrev S7x8 : Shape := ⟨2, ![7, 8]⟩
abbrev S2x222x128 : Shape := ⟨3, ![2, 222, 128]⟩
abbrev S2x128 : Shape := ⟨2, ![2, 128]⟩
abbrev S2x128x32 : Shape := ⟨3, ![2, 128, 32]⟩
abbrev S2x32 : Shape := ⟨2, ![2, 32]⟩
abbrev S2x142x128 : Shape := ⟨3, ![2, 142, 128]⟩
abbrev S2x128x110 : Shape := ⟨3, ![2, 128, 110]⟩
abbrev S2x110 : Shape := ⟨2, ![2, 110]⟩
abbrev S6 : Shape := ⟨1, ![6]⟩
abbrev S_ : Shape := ⟨0, ![]⟩
abbrev S6x1 : Shape := ⟨2, ![6, 1]⟩
abbrev S50000x6 : Shape := ⟨2, ![50000, 6]⟩
abbrev S50000x1 : Shape := ⟨2, ![50000, 1]⟩
abbrev S50000x32 : Shape := ⟨2, ![50000, 32]⟩
abbrev S50000x8 : Shape := ⟨2, ![50000, 8]⟩
abbrev S50000x110 : Shape := ⟨2, ![50000, 110]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x3 : Shape := ⟨2, ![850000, 3]⟩
abbrev S850000x2 : Shape := ⟨2, ![850000, 2]⟩
abbrev S64 : Shape := ⟨1, ![64]⟩
abbrev S850000x110 : Shape := ⟨2, ![850000, 110]⟩
abbrev S850000x222 : Shape := ⟨2, ![850000, 222]⟩
abbrev S1x222x128 : Shape := ⟨3, ![1, 222, 128]⟩
abbrev S222x128 : Shape := ⟨2, ![222, 128]⟩
abbrev S1x128 : Shape := ⟨2, ![1, 128]⟩
abbrev S128 : Shape := ⟨1, ![128]⟩
abbrev S1x128x32 : Shape := ⟨3, ![1, 128, 32]⟩
abbrev S128x32 : Shape := ⟨2, ![128, 32]⟩
abbrev S1x32 : Shape := ⟨2, ![1, 32]⟩
abbrev S32 : Shape := ⟨1, ![32]⟩
abbrev S850000x32 : Shape := ⟨2, ![850000, 32]⟩
abbrev S5000x222 : Shape := ⟨2, ![5000, 222]⟩
abbrev S5000x32 : Shape := ⟨2, ![5000, 32]⟩
abbrev S5000x128 : Shape := ⟨2, ![5000, 128]⟩
abbrev S1x110 : Shape := ⟨2, ![1, 110]⟩
abbrev S110 : Shape := ⟨1, ![110]⟩
abbrev S50000x142 : Shape := ⟨2, ![50000, 142]⟩
abbrev S1x142x128 : Shape := ⟨3, ![1, 142, 128]⟩
abbrev S142x128 : Shape := ⟨2, ![142, 128]⟩
abbrev S1x128x110 : Shape := ⟨3, ![1, 128, 110]⟩
abbrev S128x110 : Shape := ⟨2, ![128, 110]⟩
abbrev S5000x142 : Shape := ⟨2, ![5000, 142]⟩
abbrev S5000x110 : Shape := ⟨2, ![5000, 110]⟩
abbrev S64x110 : Shape := ⟨2, ![64, 110]⟩
abbrev S64x1 : Shape := ⟨2, ![64, 1]⟩

abbrev nBuf : Space → Nat
  | .hbm => 405
  | .vmem => 36
  | .smem => 0
  | _ => 0

abbrev hbmTy0_0 (i : Nat) : BufTy := match i % 128 with
  | 0 => ⟨S50000x16, .f32⟩
  | 1 => ⟨S2x800000, .i32⟩
  | 2 => ⟨S800000x1, .f32⟩
  | 3 => ⟨S50000x3, .f32⟩
  | 4 => ⟨S50000, .i32⟩
  | 5 => ⟨S119x32, .f32⟩
  | 6 => ⟨S11x8, .f32⟩
  | 7 => ⟨S12x8, .f32⟩
  | 8 => ⟨S8x8, .f32⟩
  | 9 => ⟨S2x8, .f32⟩
  | 10 => ⟨S9x8, .f32⟩
  | 11 => ⟨S2x8, .f32⟩
  | 12 => ⟨S9x8, .f32⟩
  | 13 => ⟨S5x8, .f32⟩
  | 14 => ⟨S7x8, .f32⟩
  | 15 => ⟨S2x222x128, .f32⟩
  | 16 => ⟨S2x128, .f32⟩
  | 17 => ⟨S2x128x32, .f32⟩
  | 18 => ⟨S2x32, .f32⟩
  | 19 => ⟨S2x142x128, .f32⟩
  | 20 => ⟨S2x128, .f32⟩
  | 21 => ⟨S2x128x110, .f32⟩
  | 22 => ⟨S2x110, .f32⟩
  | 23 => ⟨S2x110, .f32⟩
  | 24 => ⟨S2x110, .f32⟩
  | 25 => ⟨S6, .i32⟩
  | 26 => ⟨S6, .i1⟩
  | 27 => ⟨S_, .i32⟩
  | 28 => ⟨S6, .i32⟩
  | 29 => ⟨S6, .i32⟩
  | 30 => ⟨S6, .i32⟩
  | 31 => ⟨S6x1, .i32⟩
  | 32 => ⟨S50000x6, .f32⟩
  | 33 => ⟨S50000x1, .f32⟩
  | 34 => ⟨S50000, .f32⟩
  | 35 => ⟨S50000, .i32⟩
  | 36 => ⟨S_, .i32⟩
  | 37 => ⟨S50000, .i32⟩
  | 38 => ⟨S50000, .i1⟩
  | 39 => ⟨S_, .i32⟩
  | 40 => ⟨S50000, .i32⟩
  | 41 => ⟨S50000, .i32⟩
  | 42 => ⟨S50000, .i32⟩
  | 43 => ⟨S50000x1, .i32⟩
  | 44 => ⟨S50000x32, .f32⟩
  | 45 => ⟨S50000x1, .f32⟩
  | 46 => ⟨S50000, .f32⟩
  | 47 => ⟨S50000, .i32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x8, .f32⟩
  | 57 => ⟨S50000x1, .f32⟩
  | 58 => ⟨S50000, .f32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000x8, .f32⟩
  | 69 => ⟨S50000x1, .f32⟩
  | 70 => ⟨S50000, .f32⟩
  | 71 => ⟨S50000, .i32⟩
  | 72 => ⟨S_, .i32⟩
  | 73 => ⟨S50000, .i32⟩
  | 74 => ⟨S50000, .i1⟩
  | 75 => ⟨S_, .i32⟩
  | 76 => ⟨S50000, .i32⟩
  | 77 => ⟨S50000, .i32⟩
  | 78 => ⟨S50000, .i32⟩
  | 79 => ⟨S50000x1, .i32⟩
  | 80 => ⟨S50000x8, .f32⟩
  | 81 => ⟨S50000x1, .f32⟩
  | 82 => ⟨S50000, .f32⟩
  | 83 => ⟨S50000, .i32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000x8, .f32⟩
  | 93 => ⟨S50000x1, .f32⟩
  | 94 => ⟨S50000, .f32⟩
  | 95 => ⟨S50000, .i32⟩
  | 96 => ⟨S_, .i32⟩
  | 97 => ⟨S50000, .i32⟩
  | 98 => ⟨S50000, .i1⟩
  | 99 => ⟨S_, .i32⟩
  | 100 => ⟨S50000, .i32⟩
  | 101 => ⟨S50000, .i32⟩
  | 102 => ⟨S50000, .i32⟩
  | 103 => ⟨S50000x1, .i32⟩
  | 104 => ⟨S50000x8, .f32⟩
  | 105 => ⟨S50000x1, .f32⟩
  | 106 => ⟨S50000, .f32⟩
  | 107 => ⟨S50000, .i32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S50000x8, .f32⟩
  | 117 => ⟨S50000x1, .f32⟩
  | 118 => ⟨S50000, .f32⟩
  | 119 => ⟨S50000, .i32⟩
  | 120 => ⟨S_, .i32⟩
  | 121 => ⟨S50000, .i32⟩
  | 122 => ⟨S50000, .i1⟩
  | 123 => ⟨S_, .i32⟩
  | 124 => ⟨S50000, .i32⟩
  | 125 => ⟨S50000, .i32⟩
  | 126 => ⟨S50000, .i32⟩
  | 127 => ⟨S50000x1, .i32⟩
  | _ => ⟨S50000x16, .f32⟩

abbrev hbmTy0_1 (i : Nat) : BufTy := match i % 128 with
  | 0 => ⟨S50000x8, .f32⟩
  | 1 => ⟨S50000x1, .f32⟩
  | 2 => ⟨S50000, .f32⟩
  | 3 => ⟨S50000, .i32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x8, .f32⟩
  | 13 => ⟨S50000x1, .f32⟩
  | 14 => ⟨S50000, .f32⟩
  | 15 => ⟨S50000, .i32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x8, .f32⟩
  | 25 => ⟨S50000x110, .f32⟩
  | 26 => ⟨S50000, .i32⟩
  | 27 => ⟨S1x800000, .i32⟩
  | 28 => ⟨S800000, .i32⟩
  | 29 => ⟨S850000, .i32⟩
  | 30 => ⟨S1x800000, .i32⟩
  | 31 => ⟨S800000, .i32⟩
  | 32 => ⟨S850000, .i32⟩
  | 33 => ⟨S_, .f32⟩
  | 34 => ⟨S50000x1, .f32⟩
  | 35 => ⟨S850000x1, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x3, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x3, .f32⟩
  | 54 => ⟨S850000x3, .f32⟩
  | 55 => ⟨S850000x3, .f32⟩
  | 56 => ⟨S_, .f32⟩
  | 57 => ⟨S850000, .f32⟩
  | 58 => ⟨S850000x1, .f32⟩
  | 59 => ⟨S850000x2, .f32⟩
  | 60 => ⟨S_, .f32⟩
  | 61 => ⟨S50000, .f32⟩
  | 62 => ⟨S_, .f32⟩
  | 63 => ⟨S64, .f32⟩
  | 64 => ⟨S50000x1, .i32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x110, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x110, .f32⟩
  | 90 => ⟨S850000x222, .f32⟩
  | 91 => ⟨S1x222x128, .f32⟩
  | 92 => ⟨S222x128, .f32⟩
  | 93 => ⟨S1x128, .f32⟩
  | 94 => ⟨S128, .f32⟩
  | 95 => ⟨S1x128x32, .f32⟩
  | 96 => ⟨S128x32, .f32⟩
  | 97 => ⟨S1x32, .f32⟩
  | 98 => ⟨S32, .f32⟩
  | 99 => ⟨S1x128, .f32⟩
  | 100 => ⟨S1x32, .f32⟩
  | 101 => ⟨S850000x32, .f32⟩
  | 102 => ⟨S_, .f32⟩
  | 103 => ⟨S50000x32, .f32⟩
  | 104 => ⟨S850000x1, .i32⟩
  | 105 => ⟨S50000x32, .f32⟩
  | 106 => ⟨S_, .f32⟩
  | 107 => ⟨S50000, .f32⟩
  | 108 => ⟨S_, .f32⟩
  | 109 => ⟨S64, .f32⟩
  | 110 => ⟨S50000x1, .i32⟩
  | 111 => ⟨S64, .f32⟩
  | 112 => ⟨S64, .f32⟩
  | 113 => ⟨S_, .i32⟩
  | 114 => ⟨S50000, .i32⟩
  | 115 => ⟨S50000, .i1⟩
  | 116 => ⟨S_, .i32⟩
  | 117 => ⟨S50000, .i32⟩
  | 118 => ⟨S50000, .i32⟩
  | 119 => ⟨S50000, .i32⟩
  | 120 => ⟨S50000x1, .i32⟩
  | 121 => ⟨S50000, .f32⟩
  | 122 => ⟨S50000x1, .f32⟩
  | 123 => ⟨S50000x110, .f32⟩
  | 124 => ⟨S50000x110, .f32⟩
  | 125 => ⟨S50000x110, .f32⟩
  | 126 => ⟨S_, .f32⟩
  | 127 => ⟨S50000, .f32⟩
  | _ => ⟨S50000x16, .f32⟩

abbrev hbmTy0_2 (i : Nat) : BufTy := match i % 128 with
  | 0 => ⟨S_, .f32⟩
  | 1 => ⟨S64, .f32⟩
  | 2 => ⟨S50000x1, .i32⟩
  | 3 => ⟨S64, .f32⟩
  | 4 => ⟨S64, .f32⟩
  | 5 => ⟨S_, .i32⟩
  | 6 => ⟨S50000, .i32⟩
  | 7 => ⟨S50000, .i1⟩
  | 8 => ⟨S_, .i32⟩
  | 9 => ⟨S50000, .i32⟩
  | 10 => ⟨S50000, .i32⟩
  | 11 => ⟨S50000, .i32⟩
  | 12 => ⟨S50000x1, .i32⟩
  | 13 => ⟨S50000, .f32⟩
  | 14 => ⟨S50000x1, .f32⟩
  | 15 => ⟨S1x110, .f32⟩
  | 16 => ⟨S110, .f32⟩
  | 17 => ⟨S_, .f32⟩
  | 18 => ⟨S50000x1, .f32⟩
  | 19 => ⟨S50000x1, .f32⟩
  | 20 => ⟨S50000x1, .f32⟩
  | 21 => ⟨S50000x110, .f32⟩
  | 22 => ⟨S50000x110, .f32⟩
  | 23 => ⟨S1x110, .f32⟩
  | 24 => ⟨S50000x110, .f32⟩
  | 25 => ⟨S50000x110, .f32⟩
  | 26 => ⟨S1x110, .f32⟩
  | 27 => ⟨S110, .f32⟩
  | 28 => ⟨S1x110, .f32⟩
  | 29 => ⟨S50000x110, .f32⟩
  | 30 => ⟨S50000x110, .f32⟩
  | 31 => ⟨S50000x142, .f32⟩
  | 32 => ⟨S1x142x128, .f32⟩
  | 33 => ⟨S142x128, .f32⟩
  | 34 => ⟨S1x128, .f32⟩
  | 35 => ⟨S128, .f32⟩
  | 36 => ⟨S1x128x110, .f32⟩
  | 37 => ⟨S128x110, .f32⟩
  | 38 => ⟨S1x110, .f32⟩
  | 39 => ⟨S110, .f32⟩
  | 40 => ⟨S1x128, .f32⟩
  | 41 => ⟨S1x110, .f32⟩
  | 42 => ⟨S50000x110, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x110, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x110, .f32⟩
  | 61 => ⟨S850000x222, .f32⟩
  | 62 => ⟨S1x222x128, .f32⟩
  | 63 => ⟨S222x128, .f32⟩
  | 64 => ⟨S1x128, .f32⟩
  | 65 => ⟨S128, .f32⟩
  | 66 => ⟨S1x128x32, .f32⟩
  | 67 => ⟨S128x32, .f32⟩
  | 68 => ⟨S1x32, .f32⟩
  | 69 => ⟨S32, .f32⟩
  | 70 => ⟨S1x128, .f32⟩
  | 71 => ⟨S1x32, .f32⟩
  | 72 => ⟨S850000x32, .f32⟩
  | 73 => ⟨S_, .f32⟩
  | 74 => ⟨S50000x32, .f32⟩
  | 75 => ⟨S850000x1, .i32⟩
  | 76 => ⟨S50000x32, .f32⟩
  | 77 => ⟨S_, .f32⟩
  | 78 => ⟨S50000, .f32⟩
  | 79 => ⟨S_, .f32⟩
  | 80 => ⟨S64, .f32⟩
  | 81 => ⟨S50000x1, .i32⟩
  | 82 => ⟨S64, .f32⟩
  | 83 => ⟨S64, .f32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000, .f32⟩
  | 93 => ⟨S50000x1, .f32⟩
  | 94 => ⟨S50000x110, .f32⟩
  | 95 => ⟨S50000x110, .f32⟩
  | 96 => ⟨S50000x110, .f32⟩
  | 97 => ⟨S_, .f32⟩
  | 98 => ⟨S50000, .f32⟩
  | 99 => ⟨S_, .f32⟩
  | 100 => ⟨S64, .f32⟩
  | 101 => ⟨S50000x1, .i32⟩
  | 102 => ⟨S64, .f32⟩
  | 103 => ⟨S64, .f32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S50000, .f32⟩
  | 113 => ⟨S50000x1, .f32⟩
  | 114 => ⟨S1x110, .f32⟩
  | 115 => ⟨S110, .f32⟩
  | 116 => ⟨S_, .f32⟩
  | 117 => ⟨S50000x1, .f32⟩
  | 118 => ⟨S50000x1, .f32⟩
  | 119 => ⟨S50000x1, .f32⟩
  | 120 => ⟨S50000x110, .f32⟩
  | 121 => ⟨S50000x110, .f32⟩
  | 122 => ⟨S1x110, .f32⟩
  | 123 => ⟨S50000x110, .f32⟩
  | 124 => ⟨S50000x110, .f32⟩
  | 125 => ⟨S1x110, .f32⟩
  | 126 => ⟨S110, .f32⟩
  | 127 => ⟨S1x110, .f32⟩
  | _ => ⟨S50000x16, .f32⟩

abbrev hbmTy0_3 (i : Nat) : BufTy := match i % 128 with
  | 0 => ⟨S50000x110, .f32⟩
  | 1 => ⟨S50000x110, .f32⟩
  | 2 => ⟨S50000x142, .f32⟩
  | 3 => ⟨S1x142x128, .f32⟩
  | 4 => ⟨S142x128, .f32⟩
  | 5 => ⟨S1x128, .f32⟩
  | 6 => ⟨S128, .f32⟩
  | 7 => ⟨S1x128x110, .f32⟩
  | 8 => ⟨S128x110, .f32⟩
  | 9 => ⟨S1x110, .f32⟩
  | 10 => ⟨S110, .f32⟩
  | 11 => ⟨S1x128, .f32⟩
  | 12 => ⟨S1x110, .f32⟩
  | 13 => ⟨S50000x110, .f32⟩
  | 14 => ⟨S_, .f32⟩
  | 15 => ⟨S64x110, .f32⟩
  | 16 => ⟨S50000x1, .i32⟩
  | 17 => ⟨S64x110, .f32⟩
  | 18 => ⟨S64x1, .f32⟩
  | 19 => ⟨S64x110, .f32⟩
  | 20 => ⟨S64x110, .f32⟩
  | _ => ⟨S50000x16, .f32⟩

abbrev hbmTy (i : Nat) : BufTy := match i / 128 with
  | 0 => hbmTy0_0 i
  | 1 => hbmTy0_1 i
  | 2 => hbmTy0_2 i
  | 3 => hbmTy0_3 i
  | _ => ⟨S50000x16, .f32⟩

abbrev bufTy : (tb : Table) → Fin (tcTables nBuf tb) → BufTy
  | .hbm, ⟨i, _⟩ => hbmTy i
  | .local _ .vmem, ⟨0, _⟩ => ⟨S5000x222, .f32⟩
  | .local _ .vmem, ⟨1, _⟩ => ⟨S5000x222, .f32⟩
  | .local _ .vmem, ⟨2, _⟩ => ⟨S222x128, .f32⟩
  | .local _ .vmem, ⟨3, _⟩ => ⟨S1x128, .f32⟩
  | .local _ .vmem, ⟨4, _⟩ => ⟨S128x32, .f32⟩
  | .local _ .vmem, ⟨5, _⟩ => ⟨S1x32, .f32⟩
  | .local _ .vmem, ⟨6, _⟩ => ⟨S5000x32, .f32⟩
  | .local _ .vmem, ⟨7, _⟩ => ⟨S5000x32, .f32⟩
  | .local _ .vmem, ⟨8, _⟩ => ⟨S5000x142, .f32⟩
  | .local _ .vmem, ⟨9, _⟩ => ⟨S5000x142, .f32⟩
  | .local _ .vmem, ⟨10, _⟩ => ⟨S5000x110, .f32⟩
  | .local _ .vmem, ⟨11, _⟩ => ⟨S5000x110, .f32⟩
  | .local _ .vmem, ⟨12, _⟩ => ⟨S142x128, .f32⟩
  | .local _ .vmem, ⟨13, _⟩ => ⟨S1x128, .f32⟩
  | .local _ .vmem, ⟨14, _⟩ => ⟨S128x110, .f32⟩
  | .local _ .vmem, ⟨15, _⟩ => ⟨S1x110, .f32⟩
  | .local _ .vmem, ⟨16, _⟩ => ⟨S5000x110, .f32⟩
  | .local _ .vmem, ⟨17, _⟩ => ⟨S5000x110, .f32⟩
  | .local _ .vmem, ⟨18, _⟩ => ⟨S5000x222, .f32⟩
  | .local _ .vmem, ⟨19, _⟩ => ⟨S5000x222, .f32⟩
  | .local _ .vmem, ⟨20, _⟩ => ⟨S222x128, .f32⟩
  | .local _ .vmem, ⟨21, _⟩ => ⟨S1x128, .f32⟩
  | .local _ .vmem, ⟨22, _⟩ => ⟨S128x32, .f32⟩
  | .local _ .vmem, ⟨23, _⟩ => ⟨S1x32, .f32⟩
  | .local _ .vmem, ⟨24, _⟩ => ⟨S5000x32, .f32⟩
  | .local _ .vmem, ⟨25, _⟩ => ⟨S5000x32, .f32⟩
  | .local _ .vmem, ⟨26, _⟩ => ⟨S5000x142, .f32⟩
  | .local _ .vmem, ⟨27, _⟩ => ⟨S5000x142, .f32⟩
  | .local _ .vmem, ⟨28, _⟩ => ⟨S5000x110, .f32⟩
  | .local _ .vmem, ⟨29, _⟩ => ⟨S5000x110, .f32⟩
  | .local _ .vmem, ⟨30, _⟩ => ⟨S142x128, .f32⟩
  | .local _ .vmem, ⟨31, _⟩ => ⟨S1x128, .f32⟩
  | .local _ .vmem, ⟨32, _⟩ => ⟨S128x110, .f32⟩
  | .local _ .vmem, ⟨33, _⟩ => ⟨S1x110, .f32⟩
  | .local _ .vmem, ⟨34, _⟩ => ⟨S5000x110, .f32⟩
  | .local _ .vmem, ⟨35, _⟩ => ⟨S5000x110, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_c_0 : Ref sig .tc := ⟨.hbm, 26, rfl⟩
abbrev main_c_1 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_2 : Ref sig .tc := ⟨.hbm, 36, rfl⟩
abbrev main_v8 : Ref sig .tc := ⟨.hbm, 37, rfl⟩
abbrev main_v9 : Ref sig .tc := ⟨.hbm, 38, rfl⟩
abbrev main_c_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_c_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_6 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_v38 : Ref sig .tc := ⟨.hbm, 73, rfl⟩
abbrev main_v39 : Ref sig .tc := ⟨.hbm, 74, rfl⟩
abbrev main_c_9 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_10 : Ref sig .tc := ⟨.hbm, 84, rfl⟩
abbrev main_v48 : Ref sig .tc := ⟨.hbm, 85, rfl⟩
abbrev main_v49 : Ref sig .tc := ⟨.hbm, 86, rfl⟩
abbrev main_c_11 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_12 : Ref sig .tc := ⟨.hbm, 96, rfl⟩
abbrev main_v58 : Ref sig .tc := ⟨.hbm, 97, rfl⟩
abbrev main_v59 : Ref sig .tc := ⟨.hbm, 98, rfl⟩
abbrev main_c_13 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_16 : Ref sig .tc := ⟨.hbm, 120, rfl⟩
abbrev main_v78 : Ref sig .tc := ⟨.hbm, 121, rfl⟩
abbrev main_v79 : Ref sig .tc := ⟨.hbm, 122, rfl⟩
abbrev main_c_17 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_18 : Ref sig .tc := ⟨.hbm, 132, rfl⟩
abbrev main_v88 : Ref sig .tc := ⟨.hbm, 133, rfl⟩
abbrev main_v89 : Ref sig .tc := ⟨.hbm, 134, rfl⟩
abbrev main_c_19 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_20 : Ref sig .tc := ⟨.hbm, 144, rfl⟩
abbrev main_v98 : Ref sig .tc := ⟨.hbm, 145, rfl⟩
abbrev main_v99 : Ref sig .tc := ⟨.hbm, 146, rfl⟩
abbrev main_c_21 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst : Ref sig .tc := ⟨.hbm, 161, rfl⟩
abbrev main_v113 : Ref sig .tc := ⟨.hbm, 162, rfl⟩
abbrev main_v114 : Ref sig .tc := ⟨.hbm, 163, rfl⟩
abbrev main_c_22 : Ref sig .tc := ⟨.hbm, 164, rfl⟩
abbrev main_v115 : Ref sig .tc := ⟨.hbm, 165, rfl⟩
abbrev main_v116 : Ref sig .tc := ⟨.hbm, 166, rfl⟩
abbrev main_c_23 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_c_24 : Ref sig .tc := ⟨.hbm, 173, rfl⟩
abbrev main_v122 : Ref sig .tc := ⟨.hbm, 174, rfl⟩
abbrev main_v123 : Ref sig .tc := ⟨.hbm, 175, rfl⟩
abbrev main_c_25 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_26 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_27 : Ref sig .tc := ⟨.hbm, 188, rfl⟩
abbrev main_v134 : Ref sig .tc := ⟨.hbm, 189, rfl⟩
abbrev main_cst_28 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_29 : Ref sig .tc := ⟨.hbm, 194, rfl⟩
abbrev main_v138 : Ref sig .tc := ⟨.hbm, 195, rfl⟩
abbrev main_v139 : Ref sig .tc := ⟨.hbm, 196, rfl⟩
abbrev main_cst_30 : Ref sig .tc := ⟨.hbm, 197, rfl⟩
abbrev main_v140 : Ref sig .tc := ⟨.hbm, 198, rfl⟩
abbrev main_v141 : Ref sig .tc := ⟨.hbm, 199, rfl⟩
abbrev main_c_31 : Ref sig .tc := ⟨.hbm, 200, rfl⟩
abbrev main_v142 : Ref sig .tc := ⟨.hbm, 201, rfl⟩
abbrev main_v143 : Ref sig .tc := ⟨.hbm, 202, rfl⟩
abbrev main_c_32 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_33 : Ref sig .tc := ⟨.hbm, 209, rfl⟩
abbrev main_v149 : Ref sig .tc := ⟨.hbm, 210, rfl⟩
abbrev main_v150 : Ref sig .tc := ⟨.hbm, 211, rfl⟩
abbrev main_c_34 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_35 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_36 : Ref sig .tc := ⟨.hbm, 234, rfl⟩
abbrev main_v171 : Ref sig .tc := ⟨.hbm, 235, rfl⟩
abbrev main_cst_37 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_c_38 : Ref sig .tc := ⟨.hbm, 241, rfl⟩
abbrev main_v176 : Ref sig .tc := ⟨.hbm, 242, rfl⟩
abbrev main_v177 : Ref sig .tc := ⟨.hbm, 243, rfl⟩
abbrev main_c_39 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_cst_40 : Ref sig .tc := ⟨.hbm, 254, rfl⟩
abbrev main_v187 : Ref sig .tc := ⟨.hbm, 255, rfl⟩
abbrev main_cst_41 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_c_42 : Ref sig .tc := ⟨.hbm, 261, rfl⟩
abbrev main_v192 : Ref sig .tc := ⟨.hbm, 262, rfl⟩
abbrev main_v193 : Ref sig .tc := ⟨.hbm, 263, rfl⟩
abbrev main_c_43 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_cst_44 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_c_45 : Ref sig .tc := ⟨.hbm, 299, rfl⟩
abbrev main_v227 : Ref sig .tc := ⟨.hbm, 300, rfl⟩
abbrev main_v228 : Ref sig .tc := ⟨.hbm, 301, rfl⟩
abbrev main_c_46 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_c_47 : Ref sig .tc := ⟨.hbm, 308, rfl⟩
abbrev main_v234 : Ref sig .tc := ⟨.hbm, 309, rfl⟩
abbrev main_v235 : Ref sig .tc := ⟨.hbm, 310, rfl⟩
abbrev main_c_48 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_cst_49 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_cst_50 : Ref sig .tc := ⟨.hbm, 333, rfl⟩
abbrev main_v256 : Ref sig .tc := ⟨.hbm, 334, rfl⟩
abbrev main_cst_51 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_c_52 : Ref sig .tc := ⟨.hbm, 340, rfl⟩
abbrev main_v261 : Ref sig .tc := ⟨.hbm, 341, rfl⟩
abbrev main_v262 : Ref sig .tc := ⟨.hbm, 342, rfl⟩
abbrev main_c_53 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_cst_54 : Ref sig .tc := ⟨.hbm, 353, rfl⟩
abbrev main_v272 : Ref sig .tc := ⟨.hbm, 354, rfl⟩
abbrev main_cst_55 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_c_56 : Ref sig .tc := ⟨.hbm, 360, rfl⟩
abbrev main_v277 : Ref sig .tc := ⟨.hbm, 361, rfl⟩
abbrev main_v278 : Ref sig .tc := ⟨.hbm, 362, rfl⟩
abbrev main_c_57 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_cst_58 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_v290 : Ref sig .tc := ⟨.hbm, 376, rfl⟩
abbrev main_v291 : Ref sig .tc := ⟨.hbm, 377, rfl⟩
abbrev main_v292 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_cst_59 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![170], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x222 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S222x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x142 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x110 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S142x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x110 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x110 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x110 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![170], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x222 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S222x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x142 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x110 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S142x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x110 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x110 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x110 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S6 : S_.BroadcastsInDim S6 (![] : Fin 0 → Fin S6.rank)
  bcast_S6_S6x1_0 : S6.BroadcastsInDim S6x1 (![0] : Fin 1 → Fin S6x1.rank)
  slices_S50000x16_S50000x1_0_1 : S50000x16.Slices ![0, 1] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x16_S50000x1_0_2 : S50000x16.Slices ![0, 2] S50000x1
  slices_S50000x16_S50000x1_0_3 : S50000x16.Slices ![0, 3] S50000x1
  slices_S50000x16_S50000x1_0_4 : S50000x16.Slices ![0, 4] S50000x1
  slices_S50000x16_S50000x1_0_5 : S50000x16.Slices ![0, 5] S50000x1
  slices_S50000x16_S50000x1_0_6 : S50000x16.Slices ![0, 6] S50000x1
  slices_S50000x16_S50000x1_0_7 : S50000x16.Slices ![0, 7] S50000x1
  slices_S50000x16_S50000x1_0_8 : S50000x16.Slices ![0, 8] S50000x1
  slices_S50000x16_S50000x1_0_9 : S50000x16.Slices ![0, 9] S50000x1
  slices_S50000x16_S50000x1_0_10 : S50000x16.Slices ![0, 10] S50000x1
  concatenates_S50000x6_S50000x32_S50000x8_S50000x8_S50000x8_S50000x8_S50000x8_S50000x8_S50000x8_S50000x8_S50000x8_S50000x110_d1 : Shape.Concatenates [S50000x6, S50000x32, S50000x8, S50000x8, S50000x8, S50000x8, S50000x8, S50000x8, S50000x8, S50000x8, S50000x8] S50000x110 1
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000x1 : S_.BroadcastsInDim S50000x1 (![] : Fin 0 → Fin S50000x1.rank)
  concatenates_S800000x1_S50000x1_S850000x1_d0 : Shape.Concatenates [S800000x1, S50000x1] S850000x1 0
  bcast_S_S850000 : S_.BroadcastsInDim S850000 (![] : Fin 0 → Fin S850000.rank)
  bcast_S850000_S850000x1_0 : S850000.BroadcastsInDim S850000x1 (![0] : Fin 1 → Fin S850000x1.rank)
  reducesTo_S850000x3_S850000_d1 : S850000x3.ReducesTo [1] S850000
  h_S_ : 0 < S_.numel
  concatenates_S850000x1_S850000x1_S850000x2_d1 : Shape.Concatenates [S850000x1, S850000x1] S850000x2 1
  bcast_S_S64 : S_.BroadcastsInDim S64 (![] : Fin 0 → Fin S64.rank)
  concatenates_S850000x110_S850000x110_S850000x2_S850000x222_d1 : Shape.Concatenates [S850000x110, S850000x110, S850000x2] S850000x222 1
  slices_S2x222x128_S1x222x128_0_0_0 : S2x222x128.Slices ![0, 0, 0] S1x222x128
  shapeCasts_S1x222x128_S222x128 : S1x222x128.ShapeCasts S222x128
  slices_S2x128_S1x128_0_0 : S2x128.Slices ![0, 0] S1x128
  shapeCasts_S1x128_S128 : S1x128.ShapeCasts S128
  slices_S2x128x32_S1x128x32_0_0_0 : S2x128x32.Slices ![0, 0, 0] S1x128x32
  shapeCasts_S1x128x32_S128x32 : S1x128x32.ShapeCasts S128x32
  slices_S2x32_S1x32_0_0 : S2x32.Slices ![0, 0] S1x32
  shapeCasts_S1x32_S32 : S1x32.ShapeCasts S32
  shapeCasts_S128_S1x128 : S128.ShapeCasts S1x128
  shapeCasts_S32_S1x32 : S32.ShapeCasts S1x32
  inb_S5000x222_S5000x222_0_0 : ∀ a, (![0, 0] : Fin 2 → Nat) a + S5000x222.size a ≤ S5000x222.size a
  h_S5000x222 : 0 < S5000x222.numel
  shapeCasts_S5000x222_S5000x222 : S5000x222.ShapeCasts S5000x222
  bitsLt_bf16_f32 : FTy.bits .bf16 < FTy.bits .f32
  inb_S222x128_S222x128_0_0 : ∀ a, (![0, 0] : Fin 2 → Nat) a + S222x128.size a ≤ S222x128.size a
  h_S222x128 : 0 < S222x128.numel
  shapeCasts_S222x128_S222x128 : S222x128.ShapeCasts S222x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  reducesTo_S50000x110_S50000_d1 : S50000x110.ReducesTo [1] S50000
  bcast_S50000x1_S50000x110_0_1 : S50000x1.BroadcastsInDim S50000x110 (![0, 1] : Fin 2 → Fin S50000x110.rank)
  slices_S2x110_S1x110_0_0 : S2x110.Slices ![0, 0] S1x110
  shapeCasts_S1x110_S110 : S1x110.ShapeCasts S110
  bcast_S110_S1x110_1 : S110.BroadcastsInDim S1x110 (![1] : Fin 1 → Fin S1x110.rank)
  bcast_S1x110_S50000x110_0_1 : S1x110.BroadcastsInDim S50000x110 (![0, 1] : Fin 2 → Fin S50000x110.rank)
  concatenates_S50000x110_S50000x32_S50000x142_d1 : Shape.Concatenates [S50000x110, S50000x32] S50000x142 1
  slices_S2x142x128_S1x142x128_0_0_0 : S2x142x128.Slices ![0, 0, 0] S1x142x128
  shapeCasts_S1x142x128_S142x128 : S1x142x128.ShapeCasts S142x128
  slices_S2x128x110_S1x128x110_0_0_0 : S2x128x110.Slices ![0, 0, 0] S1x128x110
  shapeCasts_S1x128x110_S128x110 : S1x128x110.ShapeCasts S128x110
  shapeCasts_S110_S1x110 : S110.ShapeCasts S1x110
  inb_S5000x142_S5000x142_0_0 : ∀ a, (![0, 0] : Fin 2 → Nat) a + S5000x142.size a ≤ S5000x142.size a
  h_S5000x142 : 0 < S5000x142.numel
  shapeCasts_S5000x142_S5000x142 : S5000x142.ShapeCasts S5000x142
  inb_S142x128_S142x128_0_0 : ∀ a, (![0, 0] : Fin 2 → Nat) a + S142x128.size a ≤ S142x128.size a
  h_S142x128 : 0 < S142x128.numel
  shapeCasts_S142x128_S142x128 : S142x128.ShapeCasts S142x128
  inb_S128x110_S128x110_0_0 : ∀ a, (![0, 0] : Fin 2 → Nat) a + S128x110.size a ≤ S128x110.size a
  h_S128x110 : 0 < S128x110.numel
  shapeCasts_S128x110_S128x110 : S128x110.ShapeCasts S128x110
  inb_S1x110_S1x110_0_0 : ∀ a, (![0, 0] : Fin 2 → Nat) a + S1x110.size a ≤ S1x110.size a
  h_S1x110 : 0 < S1x110.numel
  shapeCasts_S1x110_S1x110 : S1x110.ShapeCasts S1x110
  broadcasts_S1x110_S5000x110 : S1x110.Broadcasts S5000x110
  inb_S5000x110_S5000x110_0_0 : ∀ a, (![0, 0] : Fin 2 → Nat) a + S5000x110.size a ≤ S5000x110.size a
  h_S5000x110 : 0 < S5000x110.numel
  shapeCasts_S5000x110_S5000x110 : S5000x110.ShapeCasts S5000x110
  slices_S2x222x128_S1x222x128_1_0_0 : S2x222x128.Slices ![1, 0, 0] S1x222x128
  slices_S2x128_S1x128_1_0 : S2x128.Slices ![1, 0] S1x128
  slices_S2x128x32_S1x128x32_1_0_0 : S2x128x32.Slices ![1, 0, 0] S1x128x32
  slices_S2x32_S1x32_1_0 : S2x32.Slices ![1, 0] S1x32
  slices_S2x110_S1x110_1_0 : S2x110.Slices ![1, 0] S1x110
  slices_S2x142x128_S1x142x128_1_0_0 : S2x142x128.Slices ![1, 0, 0] S1x142x128
  slices_S2x128x110_S1x128x110_1_0_0 : S2x128x110.Slices ![1, 0, 0] S1x128x110
  bcast_S_S64x110 : S_.BroadcastsInDim S64x110 (![] : Fin 0 → Fin S64x110.rank)
  bcast_S64_S64x1_0 : S64.BroadcastsInDim S64x1 (![0] : Fin 1 → Fin S64x1.rank)
  bcast_S64x1_S64x110_0_1 : S64x1.BroadcastsInDim S64x110 (![0, 1] : Fin 2 → Fin S64x110.rank)
  gather_S50000x16_S6x1_S50000x6_0_1_n_n_1_1_500001_wf : GatherDims.WF S50000x16 S6x1 S50000x6 [0] [1] [] [1] [] 1 ![50000, 1]
  gather_S119x32_S50000x1_S50000x32_1_0_n_n_0_1_132_wf : GatherDims.WF S119x32 S50000x1 S50000x32 [1] [0] [] [0] [] 1 ![1, 32]
  gather_S11x8_S50000x1_S50000x8_1_0_n_n_0_1_18_wf : GatherDims.WF S11x8 S50000x1 S50000x8 [1] [0] [] [0] [] 1 ![1, 8]
  gather_S12x8_S50000x1_S50000x8_1_0_n_n_0_1_18_wf : GatherDims.WF S12x8 S50000x1 S50000x8 [1] [0] [] [0] [] 1 ![1, 8]
  gather_S8x8_S50000x1_S50000x8_1_0_n_n_0_1_18_wf : GatherDims.WF S8x8 S50000x1 S50000x8 [1] [0] [] [0] [] 1 ![1, 8]
  gather_S2x8_S50000x1_S50000x8_1_0_n_n_0_1_18_wf : GatherDims.WF S2x8 S50000x1 S50000x8 [1] [0] [] [0] [] 1 ![1, 8]
  gather_S9x8_S50000x1_S50000x8_1_0_n_n_0_1_18_wf : GatherDims.WF S9x8 S50000x1 S50000x8 [1] [0] [] [0] [] 1 ![1, 8]
  gather_S5x8_S50000x1_S50000x8_1_0_n_n_0_1_18_wf : GatherDims.WF S5x8 S50000x1 S50000x8 [1] [0] [] [0] [] 1 ![1, 8]
  gather_S7x8_S50000x1_S50000x8_1_0_n_n_0_1_18_wf : GatherDims.WF S7x8 S50000x1 S50000x8 [1] [0] [] [0] [] 1 ![1, 8]
  gather_S50000x3_S850000x1_S850000x3_1_0_n_n_0_1_13_wf : GatherDims.WF S50000x3 S850000x1 S850000x3 [1] [0] [] [0] [] 1 ![1, 3]
  scatter_S64_S50000x1_S50000_n_0_0_1_wf : ScatterDims.WF S64 S50000x1 S50000 [] [0] [0] 1
  gather_S50000x110_S850000x1_S850000x110_1_0_n_n_0_1_1110_wf : GatherDims.WF S50000x110 S850000x1 S850000x110 [1] [0] [] [0] [] 1 ![1, 110]
  dot_S5000x222_S222x128_S5000x128_1_0_0_1_n_n_wf : DotDims.WF S5000x222 S222x128 S5000x128 [1] [0] [0] [1] [] []
  dot_S5000x128_S128x32_S5000x32_1_0_0_1_n_n_wf : DotDims.WF S5000x128 S128x32 S5000x32 [1] [0] [0] [1] [] []
  scatter_S50000x32_S850000x1_S850000x32_1_0_0_1_wf : ScatterDims.WF S50000x32 S850000x1 S850000x32 [1] [0] [0] 1
  gather_S64_S50000x1_S50000_n_0_n_n_0_1_1_wf : GatherDims.WF S64 S50000x1 S50000 [] [0] [] [0] [] 1 ![1]
  dot_S5000x142_S142x128_S5000x128_1_0_0_1_n_n_wf : DotDims.WF S5000x142 S142x128 S5000x128 [1] [0] [0] [1] [] []
  dot_S5000x128_S128x110_S5000x110_1_0_0_1_n_n_wf : DotDims.WF S5000x128 S128x110 S5000x110 [1] [0] [0] [1] [] []
  scatter_S64x110_S50000x1_S50000x110_1_0_0_1_wf : ScatterDims.WF S64x110 S50000x1 S50000x110 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x222.size a ≤ S850000x222.size a
  hwx0_0 : ∀ i : grid0.Coords, EltTy.bits .f32 = 32 ∨ (Rect.block (s := S850000x222) S5000x222.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S222x128.size a ≤ S222x128.size a
  hwx0_1 : ∀ i : grid0.Coords, EltTy.bits .f32 = 32 ∨ (Rect.block (s := S222x128) S222x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S850000x32.size a
  hwx0_5 : ∀ i : grid0.Coords, EltTy.bits .f32 = 32 ∨ (Rect.block (s := S850000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x142.size a ≤ S50000x142.size a
  hwx1_0 : ∀ i : grid1.Coords, EltTy.bits .f32 = 32 ∨ (Rect.block (s := S50000x142) S5000x142.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x110.size a ≤ S50000x110.size a
  hwx1_1 : ∀ i : grid1.Coords, EltTy.bits .f32 = 32 ∨ (Rect.block (s := S50000x110) S5000x110.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S142x128.size a ≤ S142x128.size a
  hwx1_2 : ∀ i : grid1.Coords, EltTy.bits .f32 = 32 ∨ (Rect.block (s := S142x128) S142x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x110.size a ≤ S128x110.size a
  hwx1_4 : ∀ i : grid1.Coords, EltTy.bits .f32 = 32 ∨ (Rect.block (s := S128x110) S128x110.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x110.size a ≤ S1x110.size a
  hwx1_5 : ∀ i : grid1.Coords, EltTy.bits .f32 = 32 ∨ (Rect.block (s := S1x110) S1x110.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x110.size a ≤ S50000x110.size a
  hwx1_6 : ∀ i : grid1.Coords, EltTy.bits .f32 = 32 ∨ (Rect.block (s := S50000x110) S5000x110.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x222.size a ≤ S850000x222.size a
  hwx2_0 : ∀ i : grid2.Coords, EltTy.bits .f32 = 32 ∨ (Rect.block (s := S850000x222) S5000x222.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S222x128.size a ≤ S222x128.size a
  hwx2_1 : ∀ i : grid2.Coords, EltTy.bits .f32 = 32 ∨ (Rect.block (s := S222x128) S222x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S850000x32.size a
  hwx2_5 : ∀ i : grid2.Coords, EltTy.bits .f32 = 32 ∨ (Rect.block (s := S850000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x142.size a ≤ S50000x142.size a
  hwx3_0 : ∀ i : grid3.Coords, EltTy.bits .f32 = 32 ∨ (Rect.block (s := S50000x142) S5000x142.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x110.size a ≤ S50000x110.size a
  hwx3_1 : ∀ i : grid3.Coords, EltTy.bits .f32 = 32 ∨ (Rect.block (s := S50000x110) S5000x110.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S142x128.size a ≤ S142x128.size a
  hwx3_2 : ∀ i : grid3.Coords, EltTy.bits .f32 = 32 ∨ (Rect.block (s := S142x128) S142x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x110.size a ≤ S128x110.size a
  hwx3_4 : ∀ i : grid3.Coords, EltTy.bits .f32 = 32 ∨ (Rect.block (s := S128x110) S128x110.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x110.size a ≤ S1x110.size a
  hwx3_5 : ∀ i : grid3.Coords, EltTy.bits .f32 = 32 ∨ (Rect.block (s := S1x110) S1x110.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x110.size a ≤ S50000x110.size a
  hwx3_6 : ∀ i : grid3.Coords, EltTy.bits .f32 = 32 ∨ (Rect.block (s := S50000x110) S5000x110.size (cc3_transform_6 i) (hinb3_6 i)).WholeWords (EltTy.packing .f32)

variable [Facts₀]

def gather_S50000x16_S6x1_S50000x6_0_1_n_n_1_1_500001 : GatherDims S50000x16 S6x1 S50000x6 where
  offsetDims := [0]
  collapsedSliceDims := [1]
  operandBatchingDims := []
  startIndicesBatchingDims := []
  startIndexMap := [1]
  indexVectorDim := 1
  sliceSizes := ![50000, 1]
  wf := gather_S50000x16_S6x1_S50000x6_0_1_n_n_1_1_500001_wf
def gather_S119x32_S50000x1_S50000x32_1_0_n_n_0_1_132 : GatherDims S119x32 S50000x1 S50000x32 where
  offsetDims := [1]
  collapsedSliceDims := [0]
  operandBatchingDims := []
  startIndicesBatchingDims := []
  startIndexMap := [0]
  indexVectorDim := 1
  sliceSizes := ![1, 32]
  wf := gather_S119x32_S50000x1_S50000x32_1_0_n_n_0_1_132_wf
def gather_S11x8_S50000x1_S50000x8_1_0_n_n_0_1_18 : GatherDims S11x8 S50000x1 S50000x8 where
  offsetDims := [1]
  collapsedSliceDims := [0]
  operandBatchingDims := []
  startIndicesBatchingDims := []
  startIndexMap := [0]
  indexVectorDim := 1
  sliceSizes := ![1, 8]
  wf := gather_S11x8_S50000x1_S50000x8_1_0_n_n_0_1_18_wf
def gather_S12x8_S50000x1_S50000x8_1_0_n_n_0_1_18 : GatherDims S12x8 S50000x1 S50000x8 where
  offsetDims := [1]
  collapsedSliceDims := [0]
  operandBatchingDims := []
  startIndicesBatchingDims := []
  startIndexMap := [0]
  indexVectorDim := 1
  sliceSizes := ![1, 8]
  wf := gather_S12x8_S50000x1_S50000x8_1_0_n_n_0_1_18_wf
def gather_S8x8_S50000x1_S50000x8_1_0_n_n_0_1_18 : GatherDims S8x8 S50000x1 S50000x8 where
  offsetDims := [1]
  collapsedSliceDims := [0]
  operandBatchingDims := []
  startIndicesBatchingDims := []
  startIndexMap := [0]
  indexVectorDim := 1
  sliceSizes := ![1, 8]
  wf := gather_S8x8_S50000x1_S50000x8_1_0_n_n_0_1_18_wf
def gather_S2x8_S50000x1_S50000x8_1_0_n_n_0_1_18 : GatherDims S2x8 S50000x1 S50000x8 where
  offsetDims := [1]
  collapsedSliceDims := [0]
  operandBatchingDims := []
  startIndicesBatchingDims := []
  startIndexMap := [0]
  indexVectorDim := 1
  sliceSizes := ![1, 8]
  wf := gather_S2x8_S50000x1_S50000x8_1_0_n_n_0_1_18_wf
def gather_S9x8_S50000x1_S50000x8_1_0_n_n_0_1_18 : GatherDims S9x8 S50000x1 S50000x8 where
  offsetDims := [1]
  collapsedSliceDims := [0]
  operandBatchingDims := []
  startIndicesBatchingDims := []
  startIndexMap := [0]
  indexVectorDim := 1
  sliceSizes := ![1, 8]
  wf := gather_S9x8_S50000x1_S50000x8_1_0_n_n_0_1_18_wf
def gather_S5x8_S50000x1_S50000x8_1_0_n_n_0_1_18 : GatherDims S5x8 S50000x1 S50000x8 where
  offsetDims := [1]
  collapsedSliceDims := [0]
  operandBatchingDims := []
  startIndicesBatchingDims := []
  startIndexMap := [0]
  indexVectorDim := 1
  sliceSizes := ![1, 8]
  wf := gather_S5x8_S50000x1_S50000x8_1_0_n_n_0_1_18_wf
def gather_S7x8_S50000x1_S50000x8_1_0_n_n_0_1_18 : GatherDims S7x8 S50000x1 S50000x8 where
  offsetDims := [1]
  collapsedSliceDims := [0]
  operandBatchingDims := []
  startIndicesBatchingDims := []
  startIndexMap := [0]
  indexVectorDim := 1
  sliceSizes := ![1, 8]
  wf := gather_S7x8_S50000x1_S50000x8_1_0_n_n_0_1_18_wf
def gather_S50000x3_S850000x1_S850000x3_1_0_n_n_0_1_13 : GatherDims S50000x3 S850000x1 S850000x3 where
  offsetDims := [1]
  collapsedSliceDims := [0]
  operandBatchingDims := []
  startIndicesBatchingDims := []
  startIndexMap := [0]
  indexVectorDim := 1
  sliceSizes := ![1, 3]
  wf := gather_S50000x3_S850000x1_S850000x3_1_0_n_n_0_1_13_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def gather_S50000x110_S850000x1_S850000x110_1_0_n_n_0_1_1110 : GatherDims S50000x110 S850000x1 S850000x110 where
  offsetDims := [1]
  collapsedSliceDims := [0]
  operandBatchingDims := []
  startIndicesBatchingDims := []
  startIndexMap := [0]
  indexVectorDim := 1
  sliceSizes := ![1, 110]
  wf := gather_S50000x110_S850000x1_S850000x110_1_0_n_n_0_1_1110_wf
def dot_S5000x222_S222x128_S5000x128_1_0_0_1_n_n : DotDims S5000x222 S222x128 S5000x128 where
  lhsContracting := [1]
  rhsContracting := [0]
  lhsNonContracting := [0]
  rhsNonContracting := [1]
  lhsBatch := []
  rhsBatch := []
  wf := dot_S5000x222_S222x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def gather_S64_S50000x1_S50000_n_0_n_n_0_1_1 : GatherDims S64 S50000x1 S50000 where
  offsetDims := []
  collapsedSliceDims := [0]
  operandBatchingDims := []
  startIndicesBatchingDims := []
  startIndexMap := [0]
  indexVectorDim := 1
  sliceSizes := ![1]
  wf := gather_S64_S50000x1_S50000_n_0_n_n_0_1_1_wf
def dot_S5000x142_S142x128_S5000x128_1_0_0_1_n_n : DotDims S5000x142 S142x128 S5000x128 where
  lhsContracting := [1]
  rhsContracting := [0]
  lhsNonContracting := [0]
  rhsNonContracting := [1]
  lhsBatch := []
  rhsBatch := []
  wf := dot_S5000x142_S142x128_S5000x128_1_0_0_1_n_n_wf
def dot_S5000x128_S128x110_S5000x110_1_0_0_1_n_n : DotDims S5000x128 S128x110 S5000x110 where
  lhsContracting := [1]
  rhsContracting := [0]
  lhsNonContracting := [0]
  rhsNonContracting := [1]
  lhsBatch := []
  rhsBatch := []
  wf := dot_S5000x128_S128x110_S5000x110_1_0_0_1_n_n_wf
def scatter_S64x110_S50000x1_S50000x110_1_0_0_1 : ScatterDims S64x110 S50000x1 S50000x110 where
  updateWindowDims := [1]
  insertedWindowDims := [0]
  scatterDimsToOperandDims := [0]
  indexVectorDim := 1
  wf := scatter_S64x110_S50000x1_S50000x110_1_0_0_1_wf

abbrev win0_0 : Pipeline.Window sig grid0 :=
  Pipeline.Window.ofSpec (Memref.whole main_v156) S5000x222.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v158) S222x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v165) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v162) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v166) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v167) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v215) S5000x142.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v105) S5000x110.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v217) S142x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v224) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v221) S128x110.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v225) S1x110.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v226) S5000x110.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v241) S5000x222.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v243) S222x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v250) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v247) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v251) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v252) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v300) S5000x142.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v226) S5000x110.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v302) S142x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v309) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v306) S128x110.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v310) S1x110.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v311) S5000x110.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S800000x1 : Shape := ⟨2, ![800000, 1]⟩
abbrev S50000x3 : Shape := ⟨2, ![50000, 3]⟩
abbrev S50000 : Shape := ⟨1, ![50000]⟩
abbrev S119x32 : Shape := ⟨2, ![119, 32]⟩
abbrev S11x8 : Shape := ⟨2, ![11, 8]⟩
abbrev S12x8 : Shape := ⟨2, ![12, 8]⟩
abbrev S8x8 : Shape := ⟨2, ![8, 8]⟩
abbrev S2x8 : Shape := ⟨2, ![2, 8]⟩
abbrev S9x8 : Shape := ⟨2, ![9, 8]⟩
abbrev S5x8 : Shape := ⟨2, ![5, 8]⟩
abbrev S7x8 : Shape := ⟨2, ![7, 8]⟩
abbrev S2x222x128 : Shape := ⟨3, ![2, 222, 128]⟩
abbrev S2x128 : Shape := ⟨2, ![2, 128]⟩
abbrev S2x128x32 : Shape := ⟨3, ![2, 128, 32]⟩
abbrev S2x32 : Shape := ⟨2, ![2, 32]⟩
abbrev S2x142x128 : Shape := ⟨3, ![2, 142, 128]⟩
abbrev S2x128x110 : Shape := ⟨3, ![2, 128, 110]⟩
abbrev S2x110 : Shape := ⟨2, ![2, 110]⟩
abbrev S6 : Shape := ⟨1, ![6]⟩
abbrev S_ : Shape := ⟨0, ![]⟩
abbrev S6x1 : Shape := ⟨2, ![6, 1]⟩
abbrev S50000x6 : Shape := ⟨2, ![50000, 6]⟩
abbrev S50000x1 : Shape := ⟨2, ![50000, 1]⟩
abbrev S50000x32 : Shape := ⟨2, ![50000, 32]⟩
abbrev S50000x8 : Shape := ⟨2, ![50000, 8]⟩
abbrev S50000x110 : Shape := ⟨2, ![50000, 110]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x3 : Shape := ⟨2, ![850000, 3]⟩
abbrev S850000x2 : Shape := ⟨2, ![850000, 2]⟩
abbrev S64 : Shape := ⟨1, ![64]⟩
abbrev S850000x110 : Shape := ⟨2, ![850000, 110]⟩
abbrev S850000x222 : Shape := ⟨2, ![850000, 222]⟩
abbrev S1x222x128 : Shape := ⟨3, ![1, 222, 128]⟩
abbrev S222x128 : Shape := ⟨2, ![222, 128]⟩
abbrev S850000x128 : Shape := ⟨2, ![850000, 128]⟩
abbrev S1x128 : Shape := ⟨2, ![1, 128]⟩
abbrev S128 : Shape := ⟨1, ![128]⟩
abbrev S1x128x32 : Shape := ⟨3, ![1, 128, 32]⟩
abbrev S128x32 : Shape := ⟨2, ![128, 32]⟩
abbrev S850000x32 : Shape := ⟨2, ![850000, 32]⟩
abbrev S1x32 : Shape := ⟨2, ![1, 32]⟩
abbrev S32 : Shape := ⟨1, ![32]⟩
abbrev S1x110 : Shape := ⟨2, ![1, 110]⟩
abbrev S110 : Shape := ⟨1, ![110]⟩
abbrev S50000x142 : Shape := ⟨2, ![50000, 142]⟩
abbrev S1x142x128 : Shape := ⟨3, ![1, 142, 128]⟩
abbrev S142x128 : Shape := ⟨2, ![142, 128]⟩
abbrev S50000x128 : Shape := ⟨2, ![50000, 128]⟩
abbrev S1x128x110 : Shape := ⟨3, ![1, 128, 110]⟩
abbrev S128x110 : Shape := ⟨2, ![128, 110]⟩
abbrev S64x110 : Shape := ⟨2, ![64, 110]⟩
abbrev S64x1 : Shape := ⟨2, ![64, 1]⟩

abbrev nBuf : Space → Nat
  | .hbm => 481
  | .vmem => 0
  | .smem => 0
  | _ => 0

abbrev hbmTy0_0 (i : Nat) : BufTy := match i % 128 with
  | 0 => ⟨S50000x16, .f32⟩
  | 1 => ⟨S2x800000, .i32⟩
  | 2 => ⟨S800000x1, .f32⟩
  | 3 => ⟨S50000x3, .f32⟩
  | 4 => ⟨S50000, .i32⟩
  | 5 => ⟨S119x32, .f32⟩
  | 6 => ⟨S11x8, .f32⟩
  | 7 => ⟨S12x8, .f32⟩
  | 8 => ⟨S8x8, .f32⟩
  | 9 => ⟨S2x8, .f32⟩
  | 10 => ⟨S9x8, .f32⟩
  | 11 => ⟨S2x8, .f32⟩
  | 12 => ⟨S9x8, .f32⟩
  | 13 => ⟨S5x8, .f32⟩
  | 14 => ⟨S7x8, .f32⟩
  | 15 => ⟨S2x222x128, .f32⟩
  | 16 => ⟨S2x128, .f32⟩
  | 17 => ⟨S2x128x32, .f32⟩
  | 18 => ⟨S2x32, .f32⟩
  | 19 => ⟨S2x142x128, .f32⟩
  | 20 => ⟨S2x128, .f32⟩
  | 21 => ⟨S2x128x110, .f32⟩
  | 22 => ⟨S2x110, .f32⟩
  | 23 => ⟨S2x110, .f32⟩
  | 24 => ⟨S2x110, .f32⟩
  | 25 => ⟨S6, .i32⟩
  | 26 => ⟨S6, .i1⟩
  | 27 => ⟨S_, .i32⟩
  | 28 => ⟨S6, .i32⟩
  | 29 => ⟨S6, .i32⟩
  | 30 => ⟨S6, .i32⟩
  | 31 => ⟨S6x1, .i32⟩
  | 32 => ⟨S50000x6, .f32⟩
  | 33 => ⟨S50000x1, .f32⟩
  | 34 => ⟨S50000, .f32⟩
  | 35 => ⟨S50000, .i32⟩
  | 36 => ⟨S_, .i32⟩
  | 37 => ⟨S50000, .i32⟩
  | 38 => ⟨S50000, .i1⟩
  | 39 => ⟨S_, .i32⟩
  | 40 => ⟨S50000, .i32⟩
  | 41 => ⟨S50000, .i32⟩
  | 42 => ⟨S50000, .i32⟩
  | 43 => ⟨S50000x1, .i32⟩
  | 44 => ⟨S50000x32, .f32⟩
  | 45 => ⟨S50000x1, .f32⟩
  | 46 => ⟨S50000, .f32⟩
  | 47 => ⟨S50000, .i32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x8, .f32⟩
  | 57 => ⟨S50000x1, .f32⟩
  | 58 => ⟨S50000, .f32⟩
  | 59 => ⟨S50000, .i32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000x8, .f32⟩
  | 69 => ⟨S50000x1, .f32⟩
  | 70 => ⟨S50000, .f32⟩
  | 71 => ⟨S50000, .i32⟩
  | 72 => ⟨S_, .i32⟩
  | 73 => ⟨S50000, .i32⟩
  | 74 => ⟨S50000, .i1⟩
  | 75 => ⟨S_, .i32⟩
  | 76 => ⟨S50000, .i32⟩
  | 77 => ⟨S50000, .i32⟩
  | 78 => ⟨S50000, .i32⟩
  | 79 => ⟨S50000x1, .i32⟩
  | 80 => ⟨S50000x8, .f32⟩
  | 81 => ⟨S50000x1, .f32⟩
  | 82 => ⟨S50000, .f32⟩
  | 83 => ⟨S50000, .i32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000x8, .f32⟩
  | 93 => ⟨S50000x1, .f32⟩
  | 94 => ⟨S50000, .f32⟩
  | 95 => ⟨S50000, .i32⟩
  | 96 => ⟨S_, .i32⟩
  | 97 => ⟨S50000, .i32⟩
  | 98 => ⟨S50000, .i1⟩
  | 99 => ⟨S_, .i32⟩
  | 100 => ⟨S50000, .i32⟩
  | 101 => ⟨S50000, .i32⟩
  | 102 => ⟨S50000, .i32⟩
  | 103 => ⟨S50000x1, .i32⟩
  | 104 => ⟨S50000x8, .f32⟩
  | 105 => ⟨S50000x1, .f32⟩
  | 106 => ⟨S50000, .f32⟩
  | 107 => ⟨S50000, .i32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S50000x8, .f32⟩
  | 117 => ⟨S50000x1, .f32⟩
  | 118 => ⟨S50000, .f32⟩
  | 119 => ⟨S50000, .i32⟩
  | 120 => ⟨S_, .i32⟩
  | 121 => ⟨S50000, .i32⟩
  | 122 => ⟨S50000, .i1⟩
  | 123 => ⟨S_, .i32⟩
  | 124 => ⟨S50000, .i32⟩
  | 125 => ⟨S50000, .i32⟩
  | 126 => ⟨S50000, .i32⟩
  | 127 => ⟨S50000x1, .i32⟩
  | _ => ⟨S50000x16, .f32⟩

abbrev hbmTy0_1 (i : Nat) : BufTy := match i % 128 with
  | 0 => ⟨S50000x8, .f32⟩
  | 1 => ⟨S50000x1, .f32⟩
  | 2 => ⟨S50000, .f32⟩
  | 3 => ⟨S50000, .i32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x8, .f32⟩
  | 13 => ⟨S50000x1, .f32⟩
  | 14 => ⟨S50000, .f32⟩
  | 15 => ⟨S50000, .i32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x8, .f32⟩
  | 25 => ⟨S50000x110, .f32⟩
  | 26 => ⟨S50000, .i32⟩
  | 27 => ⟨S1x800000, .i32⟩
  | 28 => ⟨S800000, .i32⟩
  | 29 => ⟨S850000, .i32⟩
  | 30 => ⟨S1x800000, .i32⟩
  | 31 => ⟨S800000, .i32⟩
  | 32 => ⟨S850000, .i32⟩
  | 33 => ⟨S_, .f32⟩
  | 34 => ⟨S50000x1, .f32⟩
  | 35 => ⟨S850000x1, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x3, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x3, .f32⟩
  | 54 => ⟨S850000x3, .f32⟩
  | 55 => ⟨S850000x3, .f32⟩
  | 56 => ⟨S_, .f32⟩
  | 57 => ⟨S850000, .f32⟩
  | 58 => ⟨S850000x1, .f32⟩
  | 59 => ⟨S850000x2, .f32⟩
  | 60 => ⟨S_, .f32⟩
  | 61 => ⟨S50000, .f32⟩
  | 62 => ⟨S_, .f32⟩
  | 63 => ⟨S64, .f32⟩
  | 64 => ⟨S50000x1, .i32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x110, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x110, .f32⟩
  | 90 => ⟨S850000x222, .f32⟩
  | 91 => ⟨S1x222x128, .f32⟩
  | 92 => ⟨S222x128, .f32⟩
  | 93 => ⟨S850000x128, .f32⟩
  | 94 => ⟨S1x128, .f32⟩
  | 95 => ⟨S128, .f32⟩
  | 96 => ⟨S1x128, .f32⟩
  | 97 => ⟨S850000x128, .f32⟩
  | 98 => ⟨S850000x128, .f32⟩
  | 99 => ⟨S850000x128, .f32⟩
  | 100 => ⟨S850000x128, .f32⟩
  | 101 => ⟨S_, .f32⟩
  | 102 => ⟨S850000x128, .f32⟩
  | 103 => ⟨S850000x128, .f32⟩
  | 104 => ⟨S_, .f32⟩
  | 105 => ⟨S850000x128, .f32⟩
  | 106 => ⟨S850000x128, .f32⟩
  | 107 => ⟨S850000x128, .f32⟩
  | 108 => ⟨S1x128x32, .f32⟩
  | 109 => ⟨S128x32, .f32⟩
  | 110 => ⟨S850000x32, .f32⟩
  | 111 => ⟨S1x32, .f32⟩
  | 112 => ⟨S32, .f32⟩
  | 113 => ⟨S1x32, .f32⟩
  | 114 => ⟨S850000x32, .f32⟩
  | 115 => ⟨S850000x32, .f32⟩
  | 116 => ⟨S850000x32, .f32⟩
  | 117 => ⟨S850000x32, .f32⟩
  | 118 => ⟨S_, .f32⟩
  | 119 => ⟨S850000x32, .f32⟩
  | 120 => ⟨S850000x32, .f32⟩
  | 121 => ⟨S_, .f32⟩
  | 122 => ⟨S850000x32, .f32⟩
  | 123 => ⟨S850000x32, .f32⟩
  | 124 => ⟨S850000x32, .f32⟩
  | 125 => ⟨S_, .f32⟩
  | 126 => ⟨S50000x32, .f32⟩
  | 127 => ⟨S850000x1, .i32⟩
  | _ => ⟨S50000x16, .f32⟩

abbrev hbmTy0_2 (i : Nat) : BufTy := match i % 128 with
  | 0 => ⟨S50000x32, .f32⟩
  | 1 => ⟨S_, .f32⟩
  | 2 => ⟨S50000, .f32⟩
  | 3 => ⟨S_, .f32⟩
  | 4 => ⟨S64, .f32⟩
  | 5 => ⟨S50000x1, .i32⟩
  | 6 => ⟨S64, .f32⟩
  | 7 => ⟨S64, .f32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000, .f32⟩
  | 17 => ⟨S50000x1, .f32⟩
  | 18 => ⟨S50000x110, .f32⟩
  | 19 => ⟨S50000x110, .f32⟩
  | 20 => ⟨S50000x110, .f32⟩
  | 21 => ⟨S_, .f32⟩
  | 22 => ⟨S50000, .f32⟩
  | 23 => ⟨S_, .f32⟩
  | 24 => ⟨S64, .f32⟩
  | 25 => ⟨S50000x1, .i32⟩
  | 26 => ⟨S64, .f32⟩
  | 27 => ⟨S64, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000, .f32⟩
  | 37 => ⟨S50000x1, .f32⟩
  | 38 => ⟨S1x110, .f32⟩
  | 39 => ⟨S110, .f32⟩
  | 40 => ⟨S_, .f32⟩
  | 41 => ⟨S50000x1, .f32⟩
  | 42 => ⟨S50000x1, .f32⟩
  | 43 => ⟨S50000x1, .f32⟩
  | 44 => ⟨S50000x110, .f32⟩
  | 45 => ⟨S50000x110, .f32⟩
  | 46 => ⟨S1x110, .f32⟩
  | 47 => ⟨S50000x110, .f32⟩
  | 48 => ⟨S50000x110, .f32⟩
  | 49 => ⟨S1x110, .f32⟩
  | 50 => ⟨S110, .f32⟩
  | 51 => ⟨S1x110, .f32⟩
  | 52 => ⟨S50000x110, .f32⟩
  | 53 => ⟨S50000x110, .f32⟩
  | 54 => ⟨S50000x142, .f32⟩
  | 55 => ⟨S1x142x128, .f32⟩
  | 56 => ⟨S142x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S1x128x110, .f32⟩
  | 73 => ⟨S128x110, .f32⟩
  | 74 => ⟨S50000x110, .f32⟩
  | 75 => ⟨S1x110, .f32⟩
  | 76 => ⟨S110, .f32⟩
  | 77 => ⟨S1x110, .f32⟩
  | 78 => ⟨S50000x110, .f32⟩
  | 79 => ⟨S50000x110, .f32⟩
  | 80 => ⟨S50000x110, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x110, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x110, .f32⟩
  | 99 => ⟨S850000x222, .f32⟩
  | 100 => ⟨S1x222x128, .f32⟩
  | 101 => ⟨S222x128, .f32⟩
  | 102 => ⟨S850000x128, .f32⟩
  | 103 => ⟨S1x128, .f32⟩
  | 104 => ⟨S128, .f32⟩
  | 105 => ⟨S1x128, .f32⟩
  | 106 => ⟨S850000x128, .f32⟩
  | 107 => ⟨S850000x128, .f32⟩
  | 108 => ⟨S850000x128, .f32⟩
  | 109 => ⟨S850000x128, .f32⟩
  | 110 => ⟨S_, .f32⟩
  | 111 => ⟨S850000x128, .f32⟩
  | 112 => ⟨S850000x128, .f32⟩
  | 113 => ⟨S_, .f32⟩
  | 114 => ⟨S850000x128, .f32⟩
  | 115 => ⟨S850000x128, .f32⟩
  | 116 => ⟨S850000x128, .f32⟩
  | 117 => ⟨S1x128x32, .f32⟩
  | 118 => ⟨S128x32, .f32⟩
  | 119 => ⟨S850000x32, .f32⟩
  | 120 => ⟨S1x32, .f32⟩
  | 121 => ⟨S32, .f32⟩
  | 122 => ⟨S1x32, .f32⟩
  | 123 => ⟨S850000x32, .f32⟩
  | 124 => ⟨S850000x32, .f32⟩
  | 125 => ⟨S850000x32, .f32⟩
  | 126 => ⟨S850000x32, .f32⟩
  | 127 => ⟨S_, .f32⟩
  | _ => ⟨S50000x16, .f32⟩

abbrev hbmTy0_3 (i : Nat) : BufTy := match i % 128 with
  | 0 => ⟨S850000x32, .f32⟩
  | 1 => ⟨S850000x32, .f32⟩
  | 2 => ⟨S_, .f32⟩
  | 3 => ⟨S850000x32, .f32⟩
  | 4 => ⟨S850000x32, .f32⟩
  | 5 => ⟨S850000x32, .f32⟩
  | 6 => ⟨S_, .f32⟩
  | 7 => ⟨S50000x32, .f32⟩
  | 8 => ⟨S850000x1, .i32⟩
  | 9 => ⟨S50000x32, .f32⟩
  | 10 => ⟨S_, .f32⟩
  | 11 => ⟨S50000, .f32⟩
  | 12 => ⟨S_, .f32⟩
  | 13 => ⟨S64, .f32⟩
  | 14 => ⟨S50000x1, .i32⟩
  | 15 => ⟨S64, .f32⟩
  | 16 => ⟨S64, .f32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000, .f32⟩
  | 26 => ⟨S50000x1, .f32⟩
  | 27 => ⟨S50000x110, .f32⟩
  | 28 => ⟨S50000x110, .f32⟩
  | 29 => ⟨S50000x110, .f32⟩
  | 30 => ⟨S_, .f32⟩
  | 31 => ⟨S50000, .f32⟩
  | 32 => ⟨S_, .f32⟩
  | 33 => ⟨S64, .f32⟩
  | 34 => ⟨S50000x1, .i32⟩
  | 35 => ⟨S64, .f32⟩
  | 36 => ⟨S64, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000, .f32⟩
  | 46 => ⟨S50000x1, .f32⟩
  | 47 => ⟨S1x110, .f32⟩
  | 48 => ⟨S110, .f32⟩
  | 49 => ⟨S_, .f32⟩
  | 50 => ⟨S50000x1, .f32⟩
  | 51 => ⟨S50000x1, .f32⟩
  | 52 => ⟨S50000x1, .f32⟩
  | 53 => ⟨S50000x110, .f32⟩
  | 54 => ⟨S50000x110, .f32⟩
  | 55 => ⟨S1x110, .f32⟩
  | 56 => ⟨S50000x110, .f32⟩
  | 57 => ⟨S50000x110, .f32⟩
  | 58 => ⟨S1x110, .f32⟩
  | 59 => ⟨S110, .f32⟩
  | 60 => ⟨S1x110, .f32⟩
  | 61 => ⟨S50000x110, .f32⟩
  | 62 => ⟨S50000x110, .f32⟩
  | 63 => ⟨S50000x142, .f32⟩
  | 64 => ⟨S1x142x128, .f32⟩
  | 65 => ⟨S142x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S1x128x110, .f32⟩
  | 82 => ⟨S128x110, .f32⟩
  | 83 => ⟨S50000x110, .f32⟩
  | 84 => ⟨S1x110, .f32⟩
  | 85 => ⟨S110, .f32⟩
  | 86 => ⟨S1x110, .f32⟩
  | 87 => ⟨S50000x110, .f32⟩
  | 88 => ⟨S50000x110, .f32⟩
  | 89 => ⟨S50000x110, .f32⟩
  | 90 => ⟨S_, .f32⟩
  | 91 => ⟨S64x110, .f32⟩
  | 92 => ⟨S50000x1, .i32⟩
  | 93 => ⟨S64x110, .f32⟩
  | 94 => ⟨S64x1, .f32⟩
  | 95 => ⟨S64x110, .f32⟩
  | 96 => ⟨S64x110, .f32⟩
  | _ => ⟨S50000x16, .f32⟩

abbrev hbmTy (i : Nat) : BufTy := match i / 128 with
  | 0 => hbmTy0_0 i
  | 1 => hbmTy0_1 i
  | 2 => hbmTy0_2 i
  | 3 => hbmTy0_3 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_c_0 : Ref sig .tc := ⟨.hbm, 26, rfl⟩
abbrev main_c_1 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c_2 : Ref sig .tc := ⟨.hbm, 36, rfl⟩
abbrev main_v8 : Ref sig .tc := ⟨.hbm, 37, rfl⟩
abbrev main_v9 : Ref sig .tc := ⟨.hbm, 38, rfl⟩
abbrev main_c_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_c_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_6 : Ref sig .tc := ⟨.hbm, 60, rfl⟩
abbrev main_v28 : Ref sig .tc := ⟨.hbm, 61, rfl⟩
abbrev main_v29 : Ref sig .tc := ⟨.hbm, 62, rfl⟩
abbrev main_c_7 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_v38 : Ref sig .tc := ⟨.hbm, 73, rfl⟩
abbrev main_v39 : Ref sig .tc := ⟨.hbm, 74, rfl⟩
abbrev main_c_9 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_10 : Ref sig .tc := ⟨.hbm, 84, rfl⟩
abbrev main_v48 : Ref sig .tc := ⟨.hbm, 85, rfl⟩
abbrev main_v49 : Ref sig .tc := ⟨.hbm, 86, rfl⟩
abbrev main_c_11 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_12 : Ref sig .tc := ⟨.hbm, 96, rfl⟩
abbrev main_v58 : Ref sig .tc := ⟨.hbm, 97, rfl⟩
abbrev main_v59 : Ref sig .tc := ⟨.hbm, 98, rfl⟩
abbrev main_c_13 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_16 : Ref sig .tc := ⟨.hbm, 120, rfl⟩
abbrev main_v78 : Ref sig .tc := ⟨.hbm, 121, rfl⟩
abbrev main_v79 : Ref sig .tc := ⟨.hbm, 122, rfl⟩
abbrev main_c_17 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_c_18 : Ref sig .tc := ⟨.hbm, 132, rfl⟩
abbrev main_v88 : Ref sig .tc := ⟨.hbm, 133, rfl⟩
abbrev main_v89 : Ref sig .tc := ⟨.hbm, 134, rfl⟩
abbrev main_c_19 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_20 : Ref sig .tc := ⟨.hbm, 144, rfl⟩
abbrev main_v98 : Ref sig .tc := ⟨.hbm, 145, rfl⟩
abbrev main_v99 : Ref sig .tc := ⟨.hbm, 146, rfl⟩
abbrev main_c_21 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst : Ref sig .tc := ⟨.hbm, 161, rfl⟩
abbrev main_v113 : Ref sig .tc := ⟨.hbm, 162, rfl⟩
abbrev main_v114 : Ref sig .tc := ⟨.hbm, 163, rfl⟩
abbrev main_c_22 : Ref sig .tc := ⟨.hbm, 164, rfl⟩
abbrev main_v115 : Ref sig .tc := ⟨.hbm, 165, rfl⟩
abbrev main_v116 : Ref sig .tc := ⟨.hbm, 166, rfl⟩
abbrev main_c_23 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_c_24 : Ref sig .tc := ⟨.hbm, 173, rfl⟩
abbrev main_v122 : Ref sig .tc := ⟨.hbm, 174, rfl⟩
abbrev main_v123 : Ref sig .tc := ⟨.hbm, 175, rfl⟩
abbrev main_c_25 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_26 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_27 : Ref sig .tc := ⟨.hbm, 188, rfl⟩
abbrev main_v134 : Ref sig .tc := ⟨.hbm, 189, rfl⟩
abbrev main_cst_28 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_29 : Ref sig .tc := ⟨.hbm, 194, rfl⟩
abbrev main_v138 : Ref sig .tc := ⟨.hbm, 195, rfl⟩
abbrev main_v139 : Ref sig .tc := ⟨.hbm, 196, rfl⟩
abbrev main_cst_30 : Ref sig .tc := ⟨.hbm, 197, rfl⟩
abbrev main_v140 : Ref sig .tc := ⟨.hbm, 198, rfl⟩
abbrev main_v141 : Ref sig .tc := ⟨.hbm, 199, rfl⟩
abbrev main_c_31 : Ref sig .tc := ⟨.hbm, 200, rfl⟩
abbrev main_v142 : Ref sig .tc := ⟨.hbm, 201, rfl⟩
abbrev main_v143 : Ref sig .tc := ⟨.hbm, 202, rfl⟩
abbrev main_c_32 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_33 : Ref sig .tc := ⟨.hbm, 209, rfl⟩
abbrev main_v149 : Ref sig .tc := ⟨.hbm, 210, rfl⟩
abbrev main_v150 : Ref sig .tc := ⟨.hbm, 211, rfl⟩
abbrev main_c_34 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_call0_v0 : Ref sig .tc := ⟨.hbm, 227, rfl⟩
abbrev main_call0_v1 : Ref sig .tc := ⟨.hbm, 228, rfl⟩
abbrev main_call0_cst : Ref sig .tc := ⟨.hbm, 229, rfl⟩
abbrev main_call0_v2 : Ref sig .tc := ⟨.hbm, 230, rfl⟩
abbrev main_call0_v3 : Ref sig .tc := ⟨.hbm, 231, rfl⟩
abbrev main_call0_cst_0 : Ref sig .tc := ⟨.hbm, 232, rfl⟩
abbrev main_call0_v4 : Ref sig .tc := ⟨.hbm, 233, rfl⟩
abbrev main_call0_v5 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_call1_v0 : Ref sig .tc := ⟨.hbm, 244, rfl⟩
abbrev main_call1_v1 : Ref sig .tc := ⟨.hbm, 245, rfl⟩
abbrev main_call1_cst : Ref sig .tc := ⟨.hbm, 246, rfl⟩
abbrev main_call1_v2 : Ref sig .tc := ⟨.hbm, 247, rfl⟩
abbrev main_call1_v3 : Ref sig .tc := ⟨.hbm, 248, rfl⟩
abbrev main_call1_cst_0 : Ref sig .tc := ⟨.hbm, 249, rfl⟩
abbrev main_call1_v4 : Ref sig .tc := ⟨.hbm, 250, rfl⟩
abbrev main_call1_v5 : Ref sig .tc := ⟨.hbm, 251, rfl⟩
abbrev main_v174 : Ref sig .tc := ⟨.hbm, 252, rfl⟩
abbrev main_cst_35 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_cst_36 : Ref sig .tc := ⟨.hbm, 257, rfl⟩
abbrev main_v178 : Ref sig .tc := ⟨.hbm, 258, rfl⟩
abbrev main_cst_37 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_c_38 : Ref sig .tc := ⟨.hbm, 264, rfl⟩
abbrev main_v183 : Ref sig .tc := ⟨.hbm, 265, rfl⟩
abbrev main_v184 : Ref sig .tc := ⟨.hbm, 266, rfl⟩
abbrev main_c_39 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_cst_40 : Ref sig .tc := ⟨.hbm, 277, rfl⟩
abbrev main_v194 : Ref sig .tc := ⟨.hbm, 278, rfl⟩
abbrev main_cst_41 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_c_42 : Ref sig .tc := ⟨.hbm, 284, rfl⟩
abbrev main_v199 : Ref sig .tc := ⟨.hbm, 285, rfl⟩
abbrev main_v200 : Ref sig .tc := ⟨.hbm, 286, rfl⟩
abbrev main_c_43 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_cst_44 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_call2_v0 : Ref sig .tc := ⟨.hbm, 319, rfl⟩
abbrev main_call2_v1 : Ref sig .tc := ⟨.hbm, 320, rfl⟩
abbrev main_call2_cst : Ref sig .tc := ⟨.hbm, 321, rfl⟩
abbrev main_call2_v2 : Ref sig .tc := ⟨.hbm, 322, rfl⟩
abbrev main_call2_v3 : Ref sig .tc := ⟨.hbm, 323, rfl⟩
abbrev main_call2_cst_0 : Ref sig .tc := ⟨.hbm, 324, rfl⟩
abbrev main_call2_v4 : Ref sig .tc := ⟨.hbm, 325, rfl⟩
abbrev main_call2_v5 : Ref sig .tc := ⟨.hbm, 326, rfl⟩
abbrev main_v231 : Ref sig .tc := ⟨.hbm, 327, rfl⟩
abbrev main_v232 : Ref sig .tc := ⟨.hbm, 328, rfl⟩
abbrev main_v233 : Ref sig .tc := ⟨.hbm, 329, rfl⟩
abbrev main_v234 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_c_45 : Ref sig .tc := ⟨.hbm, 337, rfl⟩
abbrev main_v241 : Ref sig .tc := ⟨.hbm, 338, rfl⟩
abbrev main_v242 : Ref sig .tc := ⟨.hbm, 339, rfl⟩
abbrev main_c_46 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_c_47 : Ref sig .tc := ⟨.hbm, 346, rfl⟩
abbrev main_v248 : Ref sig .tc := ⟨.hbm, 347, rfl⟩
abbrev main_v249 : Ref sig .tc := ⟨.hbm, 348, rfl⟩
abbrev main_c_48 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_v256 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_v261 : Ref sig .tc := ⟨.hbm, 361, rfl⟩
abbrev main_v262 : Ref sig .tc := ⟨.hbm, 362, rfl⟩
abbrev main_v263 : Ref sig .tc := ⟨.hbm, 363, rfl⟩
abbrev main_call3_v0 : Ref sig .tc := ⟨.hbm, 364, rfl⟩
abbrev main_call3_v1 : Ref sig .tc := ⟨.hbm, 365, rfl⟩
abbrev main_call3_cst : Ref sig .tc := ⟨.hbm, 366, rfl⟩
abbrev main_call3_v2 : Ref sig .tc := ⟨.hbm, 367, rfl⟩
abbrev main_call3_v3 : Ref sig .tc := ⟨.hbm, 368, rfl⟩
abbrev main_call3_cst_0 : Ref sig .tc := ⟨.hbm, 369, rfl⟩
abbrev main_call3_v4 : Ref sig .tc := ⟨.hbm, 370, rfl⟩
abbrev main_call3_v5 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_call4_v0 : Ref sig .tc := ⟨.hbm, 381, rfl⟩
abbrev main_call4_v1 : Ref sig .tc := ⟨.hbm, 382, rfl⟩
abbrev main_call4_cst : Ref sig .tc := ⟨.hbm, 383, rfl⟩
abbrev main_call4_v2 : Ref sig .tc := ⟨.hbm, 384, rfl⟩
abbrev main_call4_v3 : Ref sig .tc := ⟨.hbm, 385, rfl⟩
abbrev main_call4_cst_0 : Ref sig .tc := ⟨.hbm, 386, rfl⟩
abbrev main_call4_v4 : Ref sig .tc := ⟨.hbm, 387, rfl⟩
abbrev main_call4_v5 : Ref sig .tc := ⟨.hbm, 388, rfl⟩
abbrev main_v273 : Ref sig .tc := ⟨.hbm, 389, rfl⟩
abbrev main_cst_49 : Ref sig .tc := ⟨.hbm, 390, rfl⟩
abbrev main_v274 : Ref sig .tc := ⟨.hbm, 391, rfl⟩
abbrev main_v275 : Ref sig .tc := ⟨.hbm, 392, rfl⟩
abbrev main_v276 : Ref sig .tc := ⟨.hbm, 393, rfl⟩
abbrev main_cst_50 : Ref sig .tc := ⟨.hbm, 394, rfl⟩
abbrev main_v277 : Ref sig .tc := ⟨.hbm, 395, rfl⟩
abbrev main_cst_51 : Ref sig .tc := ⟨.hbm, 396, rfl⟩
abbrev main_v278 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_c_52 : Ref sig .tc := ⟨.hbm, 401, rfl⟩
abbrev main_v282 : Ref sig .tc := ⟨.hbm, 402, rfl⟩
abbrev main_v283 : Ref sig .tc := ⟨.hbm, 403, rfl⟩
abbrev main_c_53 : Ref sig .tc := ⟨.hbm, 404, rfl⟩
abbrev main_v284 : Ref sig .tc := ⟨.hbm, 405, rfl⟩
abbrev main_v285 : Ref sig .tc := ⟨.hbm, 406, rfl⟩
abbrev main_v286 : Ref sig .tc := ⟨.hbm, 407, rfl⟩
abbrev main_v287 : Ref sig .tc := ⟨.hbm, 408, rfl⟩
abbrev main_v288 : Ref sig .tc := ⟨.hbm, 409, rfl⟩
abbrev main_v289 : Ref sig .tc := ⟨.hbm, 410, rfl⟩
abbrev main_v290 : Ref sig .tc := ⟨.hbm, 411, rfl⟩
abbrev main_v291 : Ref sig .tc := ⟨.hbm, 412, rfl⟩
abbrev main_v292 : Ref sig .tc := ⟨.hbm, 413, rfl⟩
abbrev main_cst_54 : Ref sig .tc := ⟨.hbm, 414, rfl⟩
abbrev main_v293 : Ref sig .tc := ⟨.hbm, 415, rfl⟩
abbrev main_cst_55 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_c_56 : Ref sig .tc := ⟨.hbm, 421, rfl⟩
abbrev main_v298 : Ref sig .tc := ⟨.hbm, 422, rfl⟩
abbrev main_v299 : Ref sig .tc := ⟨.hbm, 423, rfl⟩
abbrev main_c_57 : Ref sig .tc := ⟨.hbm, 424, rfl⟩
abbrev main_v300 : Ref sig .tc := ⟨.hbm, 425, rfl⟩
abbrev main_v301 : Ref sig .tc := ⟨.hbm, 426, rfl⟩
abbrev main_v302 : Ref sig .tc := ⟨.hbm, 427, rfl⟩
abbrev main_v303 : Ref sig .tc := ⟨.hbm, 428, rfl⟩
abbrev main_v304 : Ref sig .tc := ⟨.hbm, 429, rfl⟩
abbrev main_v305 : Ref sig .tc := ⟨.hbm, 430, rfl⟩
abbrev main_v306 : Ref sig .tc := ⟨.hbm, 431, rfl⟩
abbrev main_v307 : Ref sig .tc := ⟨.hbm, 432, rfl⟩
abbrev main_cst_58 : Ref sig .tc := ⟨.hbm, 433, rfl⟩
abbrev main_v308 : Ref sig .tc := ⟨.hbm, 434, rfl⟩
abbrev main_v309 : Ref sig .tc := ⟨.hbm, 435, rfl⟩
abbrev main_v310 : Ref sig .tc := ⟨.hbm, 436, rfl⟩
abbrev main_v311 : Ref sig .tc := ⟨.hbm, 437, rfl⟩
abbrev main_v312 : Ref sig .tc := ⟨.hbm, 438, rfl⟩
abbrev main_v313 : Ref sig .tc := ⟨.hbm, 439, rfl⟩
abbrev main_v314 : Ref sig .tc := ⟨.hbm, 440, rfl⟩
abbrev main_v315 : Ref sig .tc := ⟨.hbm, 441, rfl⟩
abbrev main_v316 : Ref sig .tc := ⟨.hbm, 442, rfl⟩
abbrev main_v317 : Ref sig .tc := ⟨.hbm, 443, rfl⟩
abbrev main_v318 : Ref sig .tc := ⟨.hbm, 444, rfl⟩
abbrev main_v319 : Ref sig .tc := ⟨.hbm, 445, rfl⟩
abbrev main_v320 : Ref sig .tc := ⟨.hbm, 446, rfl⟩
abbrev main_v321 : Ref sig .tc := ⟨.hbm, 447, rfl⟩
abbrev main_v322 : Ref sig .tc := ⟨.hbm, 448, rfl⟩
abbrev main_v323 : Ref sig .tc := ⟨.hbm, 449, rfl⟩
abbrev main_v324 : Ref sig .tc := ⟨.hbm, 450, rfl⟩
abbrev main_v325 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_v329 : Ref sig .tc := ⟨.hbm, 455, rfl⟩
abbrev main_call5_v0 : Ref sig .tc := ⟨.hbm, 456, rfl⟩
abbrev main_call5_v1 : Ref sig .tc := ⟨.hbm, 457, rfl⟩
abbrev main_call5_cst : Ref sig .tc := ⟨.hbm, 458, rfl⟩
abbrev main_call5_v2 : Ref sig .tc := ⟨.hbm, 459, rfl⟩
abbrev main_call5_v3 : Ref sig .tc := ⟨.hbm, 460, rfl⟩
abbrev main_call5_cst_0 : Ref sig .tc := ⟨.hbm, 461, rfl⟩
abbrev main_call5_v4 : Ref sig .tc := ⟨.hbm, 462, rfl⟩
abbrev main_call5_v5 : Ref sig .tc := ⟨.hbm, 463, rfl⟩
abbrev main_v330 : Ref sig .tc := ⟨.hbm, 464, rfl⟩
abbrev main_v331 : Ref sig .tc := ⟨.hbm, 465, rfl⟩
abbrev main_v332 : Ref sig .tc := ⟨.hbm, 466, rfl⟩
abbrev main_v333 : Ref sig .tc := ⟨.hbm, 467, rfl⟩
abbrev main_v334 : Ref sig .tc := ⟨.hbm, 468, rfl⟩
abbrev main_v335 : Ref sig .tc := ⟨.hbm, 469, rfl⟩
abbrev main_v336 : Ref sig .tc := ⟨.hbm, 470, rfl⟩
abbrev main_v337 : Ref sig .tc := ⟨.hbm, 471, rfl⟩
abbrev main_v338 : Ref sig .tc := ⟨.hbm, 472, rfl⟩
abbrev main_v339 : Ref sig .tc := ⟨.hbm, 473, rfl⟩
abbrev main_cst_59 : Ref sig .tc := ⟨.hbm, 474, rfl⟩
abbrev main_v340 : Ref sig .tc := ⟨.hbm, 475, rfl⟩
abbrev main_v341 : Ref sig .tc := ⟨.hbm, 476, rfl⟩
abbrev main_v342 : Ref sig .tc := ⟨.hbm, 477, rfl⟩
abbrev main_v343 : Ref sig .tc := ⟨.hbm, 478, rfl⟩
abbrev main_v344 : Ref sig .tc := ⟨.hbm, 479, rfl⟩
abbrev main_v345 : Ref sig .tc := ⟨.hbm, 480, rfl⟩

abbrev nD : Nat := 1
abbrev τ : Topo := Topo.v7x

variable {F : FTy → Type} [FloatOps F]

class Facts₀ : Prop where
  bcast_S_S6 : S_.BroadcastsInDim S6 (![] : Fin 0 → Fin S6.rank)
  bcast_S6_S6x1_0 : S6.BroadcastsInDim S6x1 (![0] : Fin 1 → Fin S6x1.rank)
  slices_S50000x16_S50000x1_0_1 : S50000x16.Slices ![0, 1] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x16_S50000x1_0_2 : S50000x16.Slices ![0, 2] S50000x1
  slices_S50000x16_S50000x1_0_3 : S50000x16.Slices ![0, 3] S50000x1
  slices_S50000x16_S50000x1_0_4 : S50000x16.Slices ![0, 4] S50000x1
  slices_S50000x16_S50000x1_0_5 : S50000x16.Slices ![0, 5] S50000x1
  slices_S50000x16_S50000x1_0_6 : S50000x16.Slices ![0, 6] S50000x1
  slices_S50000x16_S50000x1_0_7 : S50000x16.Slices ![0, 7] S50000x1
  slices_S50000x16_S50000x1_0_8 : S50000x16.Slices ![0, 8] S50000x1
  slices_S50000x16_S50000x1_0_9 : S50000x16.Slices ![0, 9] S50000x1
  slices_S50000x16_S50000x1_0_10 : S50000x16.Slices ![0, 10] S50000x1
  concatenates_S50000x6_S50000x32_S50000x8_S50000x8_S50000x8_S50000x8_S50000x8_S50000x8_S50000x8_S50000x8_S50000x8_S50000x110_d1 : Shape.Concatenates [S50000x6, S50000x32, S50000x8, S50000x8, S50000x8, S50000x8, S50000x8, S50000x8, S50000x8, S50000x8, S50000x8] S50000x110 1
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000x1 : S_.BroadcastsInDim S50000x1 (![] : Fin 0 → Fin S50000x1.rank)
  concatenates_S800000x1_S50000x1_S850000x1_d0 : Shape.Concatenates [S800000x1, S50000x1] S850000x1 0
  bcast_S_S850000 : S_.BroadcastsInDim S850000 (![] : Fin 0 → Fin S850000.rank)
  bcast_S850000_S850000x1_0 : S850000.BroadcastsInDim S850000x1 (![0] : Fin 1 → Fin S850000x1.rank)
  reducesTo_S850000x3_S850000_d1 : S850000x3.ReducesTo [1] S850000
  h_S_ : 0 < S_.numel
  concatenates_S850000x1_S850000x1_S850000x2_d1 : Shape.Concatenates [S850000x1, S850000x1] S850000x2 1
  bcast_S_S64 : S_.BroadcastsInDim S64 (![] : Fin 0 → Fin S64.rank)
  concatenates_S850000x110_S850000x110_S850000x2_S850000x222_d1 : Shape.Concatenates [S850000x110, S850000x110, S850000x2] S850000x222 1
  slices_S2x222x128_S1x222x128_0_0_0 : S2x222x128.Slices ![0, 0, 0] S1x222x128
  shapeCasts_S1x222x128_S222x128 : S1x222x128.ShapeCasts S222x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S850000x128_0_1 : S1x128.BroadcastsInDim S850000x128 (![0, 1] : Fin 2 → Fin S850000x128.rank)
  bcast_S_S850000x128 : S_.BroadcastsInDim S850000x128 (![] : Fin 0 → Fin S850000x128.rank)
  slices_S2x128x32_S1x128x32_0_0_0 : S2x128x32.Slices ![0, 0, 0] S1x128x32
  shapeCasts_S1x128x32_S128x32 : S1x128x32.ShapeCasts S128x32
  slices_S2x32_S1x32_0_0 : S2x32.Slices ![0, 0] S1x32
  shapeCasts_S1x32_S32 : S1x32.ShapeCasts S32
  bcast_S32_S1x32_1 : S32.BroadcastsInDim S1x32 (![1] : Fin 1 → Fin S1x32.rank)
  bcast_S1x32_S850000x32_0_1 : S1x32.BroadcastsInDim S850000x32 (![0, 1] : Fin 2 → Fin S850000x32.rank)
  bcast_S_S850000x32 : S_.BroadcastsInDim S850000x32 (![] : Fin 0 → Fin S850000x32.rank)
  bcast_S_S50000x32 : S_.BroadcastsInDim S50000x32 (![] : Fin 0 → Fin S50000x32.rank)
  reducesTo_S50000x110_S50000_d1 : S50000x110.ReducesTo [1] S50000
  bcast_S50000x1_S50000x110_0_1 : S50000x1.BroadcastsInDim S50000x110 (![0, 1] : Fin 2 → Fin S50000x110.rank)
  slices_S2x110_S1x110_0_0 : S2x110.Slices ![0, 0] S1x110
  shapeCasts_S1x110_S110 : S1x110.ShapeCasts S110
  bcast_S110_S1x110_1 : S110.BroadcastsInDim S1x110 (![1] : Fin 1 → Fin S1x110.rank)
  bcast_S1x110_S50000x110_0_1 : S1x110.BroadcastsInDim S50000x110 (![0, 1] : Fin 2 → Fin S50000x110.rank)
  concatenates_S50000x110_S50000x32_S50000x142_d1 : Shape.Concatenates [S50000x110, S50000x32] S50000x142 1
  slices_S2x142x128_S1x142x128_0_0_0 : S2x142x128.Slices ![0, 0, 0] S1x142x128
  shapeCasts_S1x142x128_S142x128 : S1x142x128.ShapeCasts S142x128
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x128x110_S1x128x110_0_0_0 : S2x128x110.Slices ![0, 0, 0] S1x128x110
  shapeCasts_S1x128x110_S128x110 : S1x128x110.ShapeCasts S128x110
  slices_S2x222x128_S1x222x128_1_0_0 : S2x222x128.Slices ![1, 0, 0] S1x222x128
  slices_S2x128_S1x128_1_0 : S2x128.Slices ![1, 0] S1x128
  slices_S2x128x32_S1x128x32_1_0_0 : S2x128x32.Slices ![1, 0, 0] S1x128x32
  slices_S2x32_S1x32_1_0 : S2x32.Slices ![1, 0] S1x32
  slices_S2x110_S1x110_1_0 : S2x110.Slices ![1, 0] S1x110
  slices_S2x142x128_S1x142x128_1_0_0 : S2x142x128.Slices ![1, 0, 0] S1x142x128
  slices_S2x128x110_S1x128x110_1_0_0 : S2x128x110.Slices ![1, 0, 0] S1x128x110
  bcast_S_S64x110 : S_.BroadcastsInDim S64x110 (![] : Fin 0 → Fin S64x110.rank)
  bcast_S64_S64x1_0 : S64.BroadcastsInDim S64x1 (![0] : Fin 1 → Fin S64x1.rank)
  bcast_S64x1_S64x110_0_1 : S64x1.BroadcastsInDim S64x110 (![0, 1] : Fin 2 → Fin S64x110.rank)
  gather_S50000x16_S6x1_S50000x6_0_1_n_n_1_1_500001_wf : GatherDims.WF S50000x16 S6x1 S50000x6 [0] [1] [] [1] [] 1 ![50000, 1]
  gather_S119x32_S50000x1_S50000x32_1_0_n_n_0_1_132_wf : GatherDims.WF S119x32 S50000x1 S50000x32 [1] [0] [] [0] [] 1 ![1, 32]
  gather_S11x8_S50000x1_S50000x8_1_0_n_n_0_1_18_wf : GatherDims.WF S11x8 S50000x1 S50000x8 [1] [0] [] [0] [] 1 ![1, 8]
  gather_S12x8_S50000x1_S50000x8_1_0_n_n_0_1_18_wf : GatherDims.WF S12x8 S50000x1 S50000x8 [1] [0] [] [0] [] 1 ![1, 8]
  gather_S8x8_S50000x1_S50000x8_1_0_n_n_0_1_18_wf : GatherDims.WF S8x8 S50000x1 S50000x8 [1] [0] [] [0] [] 1 ![1, 8]
  gather_S2x8_S50000x1_S50000x8_1_0_n_n_0_1_18_wf : GatherDims.WF S2x8 S50000x1 S50000x8 [1] [0] [] [0] [] 1 ![1, 8]
  gather_S9x8_S50000x1_S50000x8_1_0_n_n_0_1_18_wf : GatherDims.WF S9x8 S50000x1 S50000x8 [1] [0] [] [0] [] 1 ![1, 8]
  gather_S5x8_S50000x1_S50000x8_1_0_n_n_0_1_18_wf : GatherDims.WF S5x8 S50000x1 S50000x8 [1] [0] [] [0] [] 1 ![1, 8]
  gather_S7x8_S50000x1_S50000x8_1_0_n_n_0_1_18_wf : GatherDims.WF S7x8 S50000x1 S50000x8 [1] [0] [] [0] [] 1 ![1, 8]
  gather_S50000x3_S850000x1_S850000x3_1_0_n_n_0_1_13_wf : GatherDims.WF S50000x3 S850000x1 S850000x3 [1] [0] [] [0] [] 1 ![1, 3]
  scatter_S64_S50000x1_S50000_n_0_0_1_wf : ScatterDims.WF S64 S50000x1 S50000 [] [0] [0] 1
  gather_S50000x110_S850000x1_S850000x110_1_0_n_n_0_1_1110_wf : GatherDims.WF S50000x110 S850000x1 S850000x110 [1] [0] [] [0] [] 1 ![1, 110]
  dot_S850000x222_S222x128_S850000x128_1_0_0_1_n_n_wf : DotDims.WF S850000x222 S222x128 S850000x128 [1] [0] [0] [1] [] []
  dot_S850000x128_S128x32_S850000x32_1_0_0_1_n_n_wf : DotDims.WF S850000x128 S128x32 S850000x32 [1] [0] [0] [1] [] []
  scatter_S50000x32_S850000x1_S850000x32_1_0_0_1_wf : ScatterDims.WF S50000x32 S850000x1 S850000x32 [1] [0] [0] 1
  gather_S64_S50000x1_S50000_n_0_n_n_0_1_1_wf : GatherDims.WF S64 S50000x1 S50000 [] [0] [] [0] [] 1 ![1]
  dot_S50000x142_S142x128_S50000x128_1_0_0_1_n_n_wf : DotDims.WF S50000x142 S142x128 S50000x128 [1] [0] [0] [1] [] []
  dot_S50000x128_S128x110_S50000x110_1_0_0_1_n_n_wf : DotDims.WF S50000x128 S128x110 S50000x110 [1] [0] [0] [1] [] []
  scatter_S64x110_S50000x1_S50000x110_1_0_0_1_wf : ScatterDims.WF S64x110 S50000x1 S50000x110 [1] [0] [0] 1

variable [Facts₀]

def gather_S50000x16_S6x1_S50000x6_0_1_n_n_1_1_500001 : GatherDims S50000x16 S6x1 S50000x6 where
  offsetDims := [0]
  collapsedSliceDims := [1]
  operandBatchingDims := []
  startIndicesBatchingDims := []
  startIndexMap := [1]
  indexVectorDim := 1
  sliceSizes := ![50000, 1]
  wf := gather_S50000x16_S6x1_S50000x6_0_1_n_n_1_1_500001_wf
def gather_S119x32_S50000x1_S50000x32_1_0_n_n_0_1_132 : GatherDims S119x32 S50000x1 S50000x32 where
  offsetDims := [1]
  collapsedSliceDims := [0]
  operandBatchingDims := []
  startIndicesBatchingDims := []
  startIndexMap := [0]
  indexVectorDim := 1
  sliceSizes := ![1, 32]
  wf := gather_S119x32_S50000x1_S50000x32_1_0_n_n_0_1_132_wf
def gather_S11x8_S50000x1_S50000x8_1_0_n_n_0_1_18 : GatherDims S11x8 S50000x1 S50000x8 where
  offsetDims := [1]
  collapsedSliceDims := [0]
  operandBatchingDims := []
  startIndicesBatchingDims := []
  startIndexMap := [0]
  indexVectorDim := 1
  sliceSizes := ![1, 8]
  wf := gather_S11x8_S50000x1_S50000x8_1_0_n_n_0_1_18_wf
def gather_S12x8_S50000x1_S50000x8_1_0_n_n_0_1_18 : GatherDims S12x8 S50000x1 S50000x8 where
  offsetDims := [1]
  collapsedSliceDims := [0]
  operandBatchingDims := []
  startIndicesBatchingDims := []
  startIndexMap := [0]
  indexVectorDim := 1
  sliceSizes := ![1, 8]
  wf := gather_S12x8_S50000x1_S50000x8_1_0_n_n_0_1_18_wf
def gather_S8x8_S50000x1_S50000x8_1_0_n_n_0_1_18 : GatherDims S8x8 S50000x1 S50000x8 where
  offsetDims := [1]
  collapsedSliceDims := [0]
  operandBatchingDims := []
  startIndicesBatchingDims := []
  startIndexMap := [0]
  indexVectorDim := 1
  sliceSizes := ![1, 8]
  wf := gather_S8x8_S50000x1_S50000x8_1_0_n_n_0_1_18_wf
def gather_S2x8_S50000x1_S50000x8_1_0_n_n_0_1_18 : GatherDims S2x8 S50000x1 S50000x8 where
  offsetDims := [1]
  collapsedSliceDims := [0]
  operandBatchingDims := []
  startIndicesBatchingDims := []
  startIndexMap := [0]
  indexVectorDim := 1
  sliceSizes := ![1, 8]
  wf := gather_S2x8_S50000x1_S50000x8_1_0_n_n_0_1_18_wf
def gather_S9x8_S50000x1_S50000x8_1_0_n_n_0_1_18 : GatherDims S9x8 S50000x1 S50000x8 where
  offsetDims := [1]
  collapsedSliceDims := [0]
  operandBatchingDims := []
  startIndicesBatchingDims := []
  startIndexMap := [0]
  indexVectorDim := 1
  sliceSizes := ![1, 8]
  wf := gather_S9x8_S50000x1_S50000x8_1_0_n_n_0_1_18_wf
def gather_S5x8_S50000x1_S50000x8_1_0_n_n_0_1_18 : GatherDims S5x8 S50000x1 S50000x8 where
  offsetDims := [1]
  collapsedSliceDims := [0]
  operandBatchingDims := []
  startIndicesBatchingDims := []
  startIndexMap := [0]
  indexVectorDim := 1
  sliceSizes := ![1, 8]
  wf := gather_S5x8_S50000x1_S50000x8_1_0_n_n_0_1_18_wf
def gather_S7x8_S50000x1_S50000x8_1_0_n_n_0_1_18 : GatherDims S7x8 S50000x1 S50000x8 where
  offsetDims := [1]
  collapsedSliceDims := [0]
  operandBatchingDims := []
  startIndicesBatchingDims := []
  startIndexMap := [0]
  indexVectorDim := 1
  sliceSizes := ![1, 8]
  wf := gather_S7x8_S50000x1_S50000x8_1_0_n_n_0_1_18_wf
def gather_S50000x3_S850000x1_S850000x3_1_0_n_n_0_1_13 : GatherDims S50000x3 S850000x1 S850000x3 where
  offsetDims := [1]
  collapsedSliceDims := [0]
  operandBatchingDims := []
  startIndicesBatchingDims := []
  startIndexMap := [0]
  indexVectorDim := 1
  sliceSizes := ![1, 3]
  wf := gather_S50000x3_S850000x1_S850000x3_1_0_n_n_0_1_13_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def gather_S50000x110_S850000x1_S850000x110_1_0_n_n_0_1_1110 : GatherDims S50000x110 S850000x1 S850000x110 where
  offsetDims := [1]
  collapsedSliceDims := [0]
  operandBatchingDims := []
  startIndicesBatchingDims := []
  startIndexMap := [0]
  indexVectorDim := 1
  sliceSizes := ![1, 110]
  wf := gather_S50000x110_S850000x1_S850000x110_1_0_n_n_0_1_1110_wf
def dot_S850000x222_S222x128_S850000x128_1_0_0_1_n_n : DotDims S850000x222 S222x128 S850000x128 where
  lhsContracting := [1]
  rhsContracting := [0]
  lhsNonContracting := [0]
  rhsNonContracting := [1]
  lhsBatch := []
  rhsBatch := []
  wf := dot_S850000x222_S222x128_S850000x128_1_0_0_1_n_n_wf
def dot_S850000x128_S128x32_S850000x32_1_0_0_1_n_n : DotDims S850000x128 S128x32 S850000x32 where
  lhsContracting := [1]
  rhsContracting := [0]
  lhsNonContracting := [0]
  rhsNonContracting := [1]
  lhsBatch := []
  rhsBatch := []
  wf := dot_S850000x128_S128x32_S850000x32_1_0_0_1_n_n_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def gather_S64_S50000x1_S50000_n_0_n_n_0_1_1 : GatherDims S64 S50000x1 S50000 where
  offsetDims := []
  collapsedSliceDims := [0]
  operandBatchingDims := []
  startIndicesBatchingDims := []
  startIndexMap := [0]
  indexVectorDim := 1
  sliceSizes := ![1]
  wf := gather_S64_S50000x1_S50000_n_0_n_n_0_1_1_wf
def dot_S50000x142_S142x128_S50000x128_1_0_0_1_n_n : DotDims S50000x142 S142x128 S50000x128 where
  lhsContracting := [1]
  rhsContracting := [0]
  lhsNonContracting := [0]
  rhsNonContracting := [1]
  lhsBatch := []
  rhsBatch := []
  wf := dot_S50000x142_S142x128_S50000x128_1_0_0_1_n_n_wf
def dot_S50000x128_S128x110_S50000x110_1_0_0_1_n_n : DotDims S50000x128 S128x110 S50000x110 where
  lhsContracting := [1]
  rhsContracting := [0]
  lhsNonContracting := [0]
  rhsNonContracting := [1]
  lhsBatch := []
  rhsBatch := []
  wf := dot_S50000x128_S128x110_S50000x110_1_0_0_1_n_n_wf
def scatter_S64x110_S50000x1_S50000x110_1_0_0_1 : ScatterDims S64x110 S50000x1 S50000x110 where
  updateWindowDims := [1]
  insertedWindowDims := [0]
  scatterDimsToOperandDims := [0]
  indexVectorDim := 1
  wf := scatter_S64x110_S50000x1_S50000x110_1_0_0_1_wf

class Facts : Prop extends Facts₀ where

variable [Facts]
-- ==== Proof.KRegion0.lean ====
import proofs.«430199_j90752658965038_1_alg».proof.Proof.Gen.Kernel.Launch
import proofs.«430199_j90752658965038_1_alg».proof.Proof.Gen.Kernel.Skeleton
import proofs.«430199_j90752658965038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The edge block's region: at every grid point the body maps the input windows' blocks to `out0_5` of them and leaves the inputs' buffers as they were. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x222 := Rect.unit (s := S5000x222) ![0, 0] S5000x222.size inb_S5000x222_S5000x222_0_0
abbrev r0_w1 : Rect S222x128 := Rect.unit (s := S222x128) ![0, 0] S222x128.size inb_S222x128_S222x128_0_0
abbrev r0_b1 : Rect S1x128 := Rect.unit (s := S1x128) ![0, 0] S1x128.size inb_S1x128_S1x128_0_0
abbrev r0_w2 : Rect S128x32 := Rect.unit (s := S128x32) ![0, 0] S128x32.size inb_S128x32_S128x32_0_0
abbrev r0_b2 : Rect S1x32 := Rect.unit (s := S1x32) ![0, 0] S1x32.size inb_S1x32_S1x32_0_0
abbrev r0_o : Rect S5000x32 := Rect.unit (s := S5000x32) ![0, 0] S5000x32.size inb_S5000x32_S5000x32_0_0

def out0_5 (x0 : Vec F S5000x222 .f32) (x1 : Vec F S222x128 .f32) (x2 : Vec F S1x128 .f32) (x3 : Vec F S128x32 .f32) (x4 : Vec F S1x32 .f32) : Vec F S5000x32 .f32 :=
  View.canon [⟨r0_o, k0_pay1 (View.ld x0 r0_x) (View.ld x1 r0_w1) (View.ld x2 r0_b1) (View.ld x3 r0_w2) (View.ld x4 r0_b2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem cover0_5 (p0 : Vec F S5000x32 .f32) (y : S5000x32.Idx) :
    ∃ pc ∈ ([⟨r0_o, p0⟩] : List (View.Piece (Elt F) S5000x32 .f32)), y ∈ pc.1.set :=
  View.cover_of_tiled [⟨r0_o, p0⟩] S5000x32.size (by rfl) y

set_option maxHeartbeats 4000000 in
theorem sound_kernel0 (c : Dev nD) (E : Set ℕ) (i : grid0.Coords) (arg1 : Memref sig .tc .vmem S5000x222 .f32) (harg1 : arg1.IsWhole) (arg2 : Memref sig .tc .vmem S222x128 .f32) (harg2 : arg2.IsWhole) (arg3 : Memref sig .tc .vmem S1x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x222 .f32) (x1 : Vec F S222x128 .f32) (x2 : Vec F S1x128 .f32) (x3 : Vec F S128x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRegion1.lean ====
import proofs.«430199_j90752658965038_1_alg».proof.Proof.Gen.Kernel.Launch
import proofs.«430199_j90752658965038_1_alg».proof.Proof.Gen.Kernel.Skeleton
import proofs.«430199_j90752658965038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The node block's region: at every grid point the body maps the input windows' blocks to `out1_6` of them and leaves the inputs' buffers as they were. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_h : Rect S5000x142 := Rect.unit (s := S5000x142) ![0, 0] S5000x142.size inb_S5000x142_S5000x142_0_0
abbrev r1_f : Rect S5000x110 := Rect.unit (s := S5000x110) ![0, 0] S5000x110.size inb_S5000x110_S5000x110_0_0
abbrev r1_w1 : Rect S142x128 := Rect.unit (s := S142x128) ![0, 0] S142x128.size inb_S142x128_S142x128_0_0
abbrev r1_b1 : Rect S1x128 := Rect.unit (s := S1x128) ![0, 0] S1x128.size inb_S1x128_S1x128_0_0
abbrev r1_w2 : Rect S128x110 := Rect.unit (s := S128x110) ![0, 0] S128x110.size inb_S128x110_S128x110_0_0
abbrev r1_b2 : Rect S1x110 := Rect.unit (s := S1x110) ![0, 0] S1x110.size inb_S1x110_S1x110_0_0

def out1_6 (x0 : Vec F S5000x142 .f32) (x1 : Vec F S5000x110 .f32) (x2 : Vec F S142x128 .f32) (x3 : Vec F S1x128 .f32) (x4 : Vec F S128x110 .f32) (x5 : Vec F S1x110 .f32) : Vec F S5000x110 .f32 :=
  View.canon [⟨r1_f, k1_pay1 (View.ld x0 r1_h) (View.ld x2 r1_w1) (View.ld x3 r1_b1) (View.ld x4 r1_w2) (View.ld x5 r1_b2) (View.ld x1 r1_f)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem cover1_6 (p0 : Vec F S5000x110 .f32) (y : S5000x110.Idx) :
    ∃ pc ∈ ([⟨r1_f, p0⟩] : List (View.Piece (Elt F) S5000x110 .f32)), y ∈ pc.1.set :=
  View.cover_of_tiled [⟨r1_f, p0⟩] S5000x110.size (by rfl) y

set_option maxHeartbeats 4000000 in
theorem sound_kernel1 (c : Dev nD) (E : Set ℕ) (i : grid1.Coords) (arg1 : Memref sig .tc .vmem S5000x142 .f32) (harg1 : arg1.IsWhole) (arg2 : Memref sig .tc .vmem S5000x110 .f32) (harg2 : arg2.IsWhole) (arg3 : Memref sig .tc .vmem S142x128 .f32) (harg3 : arg3.IsWhole) (arg4 : Memref sig .tc .vmem S1x128 .f32) (harg4 : arg4.IsWhole) (arg5 : Memref sig .tc .vmem S128x110 .f32) (harg5 : arg5.IsWhole) (arg6 : Memref sig .tc .vmem S1x110 .f32) (harg6 : arg6.IsWhole) (arg7 : Memref sig .tc .vmem S5000x110 .f32) (harg7 : arg7.IsWhole)
    (x0 : Vec F S5000x142 .f32) (x1 : Vec F S5000x110 .f32) (x2 : Vec F S142x128 .f32) (x3 : Vec F S1x128 .f32) (x4 : Vec F S128x110 .f32) (x5 : Vec F S1x110 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__node_mlp_kernel i arg1 harg1 arg2 harg2 arg3 harg3 arg4 harg4 arg5 harg5 arg6 harg6 arg7 harg7) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KRegion2.lean ====
import proofs.«430199_j90752658965038_1_alg».proof.Proof.Gen.Kernel.Launch
import proofs.«430199_j90752658965038_1_alg».proof.Proof.Gen.Kernel.Skeleton
import proofs.«430199_j90752658965038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The edge block's region: at every grid point the body maps the input windows' blocks to `out2_5` of them and leaves the inputs' buffers as they were. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x222 := Rect.unit (s := S5000x222) ![0, 0] S5000x222.size inb_S5000x222_S5000x222_0_0
abbrev r2_w1 : Rect S222x128 := Rect.unit (s := S222x128) ![0, 0] S222x128.size inb_S222x128_S222x128_0_0
abbrev r2_b1 : Rect S1x128 := Rect.unit (s := S1x128) ![0, 0] S1x128.size inb_S1x128_S1x128_0_0
abbrev r2_w2 : Rect S128x32 := Rect.unit (s := S128x32) ![0, 0] S128x32.size inb_S128x32_S128x32_0_0
abbrev r2_b2 : Rect S1x32 := Rect.unit (s := S1x32) ![0, 0] S1x32.size inb_S1x32_S1x32_0_0
abbrev r2_o : Rect S5000x32 := Rect.unit (s := S5000x32) ![0, 0] S5000x32.size inb_S5000x32_S5000x32_0_0

def out2_5 (x0 : Vec F S5000x222 .f32) (x1 : Vec F S222x128 .f32) (x2 : Vec F S1x128 .f32) (x3 : Vec F S128x32 .f32) (x4 : Vec F S1x32 .f32) : Vec F S5000x32 .f32 :=
  View.canon [⟨r2_o, k2_pay1 (View.ld x0 r2_x) (View.ld x1 r2_w1) (View.ld x2 r2_b1) (View.ld x3 r2_w2) (View.ld x4 r2_b2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem cover2_5 (p0 : Vec F S5000x32 .f32) (y : S5000x32.Idx) :
    ∃ pc ∈ ([⟨r2_o, p0⟩] : List (View.Piece (Elt F) S5000x32 .f32)), y ∈ pc.1.set :=
  View.cover_of_tiled [⟨r2_o, p0⟩] S5000x32.size (by rfl) y

set_option maxHeartbeats 4000000 in
theorem sound_kernel2 (c : Dev nD) (E : Set ℕ) (i : grid2.Coords) (arg1 : Memref sig .tc .vmem S5000x222 .f32) (harg1 : arg1.IsWhole) (arg2 : Memref sig .tc .vmem S222x128 .f32) (harg2 : arg2.IsWhole) (arg3 : Memref sig .tc .vmem S1x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x222 .f32) (x1 : Vec F S222x128 .f32) (x2 : Vec F S1x128 .f32) (x3 : Vec F S128x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__edge_mlp_kernel i arg1 harg1 arg2 harg2 arg3 harg3 arg4 harg4 arg5 harg5 arg6 harg6) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KRegion3.lean ====
import proofs.«430199_j90752658965038_1_alg».proof.Proof.Gen.Kernel.Launch
import proofs.«430199_j90752658965038_1_alg».proof.Proof.Gen.Kernel.Skeleton
import proofs.«430199_j90752658965038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The node block's region: at every grid point the body maps the input windows' blocks to `out3_6` of them and leaves the inputs' buffers as they were. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_h : Rect S5000x142 := Rect.unit (s := S5000x142) ![0, 0] S5000x142.size inb_S5000x142_S5000x142_0_0
abbrev r3_f : Rect S5000x110 := Rect.unit (s := S5000x110) ![0, 0] S5000x110.size inb_S5000x110_S5000x110_0_0
abbrev r3_w1 : Rect S142x128 := Rect.unit (s := S142x128) ![0, 0] S142x128.size inb_S142x128_S142x128_0_0
abbrev r3_b1 : Rect S1x128 := Rect.unit (s := S1x128) ![0, 0] S1x128.size inb_S1x128_S1x128_0_0
abbrev r3_w2 : Rect S128x110 := Rect.unit (s := S128x110) ![0, 0] S128x110.size inb_S128x110_S128x110_0_0
abbrev r3_b2 : Rect S1x110 := Rect.unit (s := S1x110) ![0, 0] S1x110.size inb_S1x110_S1x110_0_0

def out3_6 (x0 : Vec F S5000x142 .f32) (x1 : Vec F S5000x110 .f32) (x2 : Vec F S142x128 .f32) (x3 : Vec F S1x128 .f32) (x4 : Vec F S128x110 .f32) (x5 : Vec F S1x110 .f32) : Vec F S5000x110 .f32 :=
  View.canon [⟨r3_f, k3_pay1 (View.ld x0 r3_h) (View.ld x2 r3_w1) (View.ld x3 r3_b1) (View.ld x4 r3_w2) (View.ld x5 r3_b2) (View.ld x1 r3_f)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem cover3_6 (p0 : Vec F S5000x110 .f32) (y : S5000x110.Idx) :
    ∃ pc ∈ ([⟨r3_f, p0⟩] : List (View.Piece (Elt F) S5000x110 .f32)), y ∈ pc.1.set :=
  View.cover_of_tiled [⟨r3_f, p0⟩] S5000x110.size (by rfl) y

set_option maxHeartbeats 4000000 in
theorem sound_kernel3 (c : Dev nD) (E : Set ℕ) (i : grid3.Coords) (arg1 : Memref sig .tc .vmem S5000x142 .f32) (harg1 : arg1.IsWhole) (arg2 : Memref sig .tc .vmem S5000x110 .f32) (harg2 : arg2.IsWhole) (arg3 : Memref sig .tc .vmem S142x128 .f32) (harg3 : arg3.IsWhole) (arg4 : Memref sig .tc .vmem S1x128 .f32) (harg4 : arg4.IsWhole) (arg5 : Memref sig .tc .vmem S128x110 .f32) (harg5 : arg5.IsWhole) (arg6 : Memref sig .tc .vmem S1x110 .f32) (harg6 : arg6.IsWhole) (arg7 : Memref sig .tc .vmem S5000x110 .f32) (harg7 : arg7.IsWhole)
    (x0 : Vec F S5000x142 .f32) (x1 : Vec F S5000x110 .f32) (x2 : Vec F S142x128 .f32) (x3 : Vec F S1x128 .f32) (x4 : Vec F S128x110 .f32) (x5 : Vec F S1x110 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__node_mlp_kernel i arg1 harg1 arg2 harg2 arg3 harg3 arg4 harg4 arg5 harg5 arg6 harg6 arg7 harg7) K := by
  simp only [cc3__node_mlp_kernel_eq_skeleton]; unfold cc3__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KRun.lean ====
import proofs.«430199_j90752658965038_1_alg».proof.Proof.KRegion0
import proofs.«430199_j90752658965038_1_alg».proof.Proof.KRegion1
import proofs.«430199_j90752658965038_1_alg».proof.Proof.KRegion2
import proofs.«430199_j90752658965038_1_alg».proof.Proof.KRegion3
import proofs.«430199_j90752658965038_1_alg».proof.Proof.Gen.Kernel.Launch
import proofs.«430199_j90752658965038_1_alg».proof.Proof.Gen.Kernel.Skeleton
import proofs.«430199_j90752658965038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! @main is five stretches of host operations around four kernel regions. `W0 … W9` are a core's buffer contents at the ten boundaries: a host stretch folds its operations over the contents before it, a region replaces its window arrays by what its points leave. No stretch and no region writes an argument. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev hostOps0_W : List (Ref sig .tc) :=
  [main_c, main_c_0, main_c_1, main_v0, main_v1, main_v2, main_v3, main_v4, main_v5, main_v6, main_v7, main_c_2,
   main_v8, main_v9, main_c_3, main_v10, main_v11, main_v12, main_v13, main_v14, main_v15, main_v16, main_v17,
   main_c_4, main_v18, main_v19, main_c_5, main_v20, main_v21, main_v22, main_v23, main_v24, main_v25, main_v26,
   main_v27, main_c_6, main_v28, main_v29, main_c_7, main_v30, main_v31, main_v32, main_v33, main_v34, main_v35,
   main_v36, main_v37, main_c_8, main_v38, main_v39, main_c_9, main_v40, main_v41, main_v42, main_v43, main_v44,
   main_v45, main_v46, main_v47, main_c_10, main_v48, main_v49, main_c_11, main_v50, main_v51, main_v52, main_v53,
   main_v54, main_v55, main_v56, main_v57, main_c_12, main_v58, main_v59, main_c_13, main_v60, main_v61, main_v62,
   main_v63, main_v64, main_v65, main_v66, main_v67, main_c_14, main_v68, main_v69, main_c_15, main_v70, main_v71,
   main_v72, main_v73, main_v74, main_v75, main_v76, main_v77, main_c_16, main_v78, main_v79, main_c_17, main_v80,
   main_v81, main_v82, main_v83, main_v84, main_v85, main_v86, main_v87, main_c_18, main_v88, main_v89, main_c_19,
   main_v90, main_v91, main_v92, main_v93, main_v94, main_v95, main_v96, main_v97, main_c_20, main_v98, main_v99,
   main_c_21, main_v100, main_v101, main_v102, main_v103, main_v104, main_v105, main_v106, main_v107, main_v108,
   main_v109, main_v110, main_v111, main_v112, main_cst, main_v113, main_v114, main_c_22, main_v115, main_v116,
   main_c_23, main_v117, main_v118, main_v119, main_v120, main_v121, main_c_24, main_v122, main_v123, main_c_25,
   main_v124, main_v125, main_v126, main_v127, main_v128, main_v129, main_v130, main_cst_26, main_v131, main_v132,
   main_v133, main_cst_27, main_v134, main_cst_28, main_v135, main_v136, main_v137, main_cst_29, main_v138,
   main_v139, main_cst_30, main_v140, main_v141, main_c_31, main_v142, main_v143, main_c_32, main_v144, main_v145,
   main_v146, main_v147, main_v148, main_c_33, main_v149, main_v150, main_c_34, main_v151, main_v152, main_v153,
   main_v154, main_v155, main_v156, main_v157, main_v158, main_v159, main_v160, main_v161, main_v162, main_v163,
   main_v164, main_v165, main_v166]
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' constructor
  all_goals exact single_sub_of_mem (by decide)

abbrev hostOps1_W : List (Ref sig .tc) :=
  [main_cst_35, main_v168, main_v169, main_v170, main_cst_36, main_v171, main_cst_37, main_v172, main_v173,
   main_v174, main_v175, main_c_38, main_v176, main_v177, main_c_39, main_v178, main_v179, main_v180, main_v181,
   main_v182, main_v183, main_v184, main_v185, main_v186, main_cst_40, main_v187, main_cst_41, main_v188, main_v189,
   main_v190, main_v191, main_c_42, main_v192, main_v193, main_c_43, main_v194, main_v195, main_v196, main_v197,
   main_v198, main_v199, main_v200, main_v201, main_cst_44, main_v202, main_v203, main_v204, main_v205, main_v206,
   main_v207, main_v208, main_v209, main_v210, main_v211, main_v212, main_v213, main_v214, main_v215, main_v216,
   main_v217, main_v218, main_v219, main_v220, main_v221, main_v222, main_v223, main_v224, main_v225]
theorem hostOps1_writes : (hostOps1 : List (HloOp τ sig (Elt F))).Forall fun op => op.writes ⊆ (hostOps1_W.map (Proc.devRef (τ := τ) .tc)).toFinset := by
  simp only [List.Forall]
  repeat' constructor
  all_goals exact single_sub_of_mem (by decide)

abbrev hostOps2_W : List (Ref sig .tc) :=
  [main_c_45, main_v227, main_v228, main_c_46, main_v229, main_v230, main_v231, main_v232, main_v233, main_c_47,
   main_v234, main_v235, main_c_48, main_v236, main_v237, main_v238, main_v239, main_v240, main_v241, main_v242,
   main_v243, main_v244, main_v245, main_v246, main_v247, main_v248, main_v249, main_v250, main_v251]
theorem hostOps2_writes : (hostOps2 : List (HloOp τ sig (Elt F))).Forall fun op => op.writes ⊆ (hostOps2_W.map (Proc.devRef (τ := τ) .tc)).toFinset := by
  simp only [List.Forall]
  repeat' constructor
  all_goals exact single_sub_of_mem (by decide)

abbrev hostOps3_W : List (Ref sig .tc) :=
  [main_cst_49, main_v253, main_v254, main_v255, main_cst_50, main_v256, main_cst_51, main_v257, main_v258,
   main_v259, main_v260, main_c_52, main_v261, main_v262, main_c_53, main_v263, main_v264, main_v265, main_v266,
   main_v267, main_v268, main_v269, main_v270, main_v271, main_cst_54, main_v272, main_cst_55, main_v273, main_v274,
   main_v275, main_v276, main_c_56, main_v277, main_v278, main_c_57, main_v279, main_v280, main_v281, main_v282,
   main_v283, main_v284, main_v285, main_v286, main_cst_58, main_v287, main_v288, main_v289, main_v290, main_v291,
   main_v292, main_v293, main_v294, main_v295, main_v296, main_v297, main_v298, main_v299, main_v300, main_v301,
   main_v302, main_v303, main_v304, main_v305, main_v306, main_v307, main_v308, main_v309, main_v310]
theorem hostOps3_writes : (hostOps3 : List (HloOp τ sig (Elt F))).Forall fun op => op.writes ⊆ (hostOps3_W.map (Proc.devRef (τ := τ) .tc)).toFinset := by
  simp only [List.Forall]
  repeat' constructor
  all_goals exact single_sub_of_mem (by decide)

abbrev hostOps4_W : List (Ref sig .tc) :=
  [main_cst_59, main_v312, main_v313, main_v314, main_v315, main_v316, main_v317]
theorem hostOps4_writes : (hostOps4 : List (HloOp τ sig (Elt F))).Forall fun op => op.writes ⊆ (hostOps4_W.map (Proc.devRef (τ := τ) .tc)).toFinset := by
  simp only [List.Forall]
  repeat' constructor
  all_goals exact single_sub_of_mem (by decide)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- The program's argument arrays. -/
abbrev args : List (Ref sig .tc) :=
  [main_arg0, main_arg1, main_arg2, main_arg3, main_arg4, main_arg5, main_arg6, main_arg7, main_arg8, main_arg9, main_arg10, main_arg11, main_arg12,
   main_arg13, main_arg14, main_arg15, main_arg16, main_arg17, main_arg18, main_arg19, main_arg20, main_arg21, main_arg22, main_arg23, main_arg24]

theorem args_host0 : ∀ a ∈ args, a ∉ hostOps0_W := by decide
theorem args_host1 : ∀ a ∈ args, a ∉ hostOps1_W := by decide
theorem args_host2 : ∀ a ∈ args, a ∉ hostOps2_W := by decide
theorem args_host3 : ∀ a ∈ args, a ∉ hostOps3_W := by decide
theorem args_host4 : ∀ a ∈ args, a ∉ hostOps4_W := by decide
theorem args_reg0 : ∀ a ∈ args, ∀ w, Pipeline.arrRef spec0 w ≠ a := by decide
theorem args_reg1 : ∀ a ∈ args, ∀ w, Pipeline.arrRef spec1 w ≠ a := by decide
theorem args_reg2 : ∀ a ∈ args, ∀ w, Pipeline.arrRef spec2 w ≠ a := by decide
theorem args_reg3 : ∀ a ∈ args, ∀ w, Pipeline.arrRef spec3 w ≠ a := by decide
theorem args_unscoped : ∀ a ∈ args, ¬ (Proc.devRef .tc a : DevRef τ sig).isScoped := by decide

/-- No host operation writes an argument and no region has one among its window arrays, so the last contents read at
    an argument walk back, boundary by boundary, to the launch memory. -/
theorem W9_arg (c : Dev nD) {a : Ref sig .tc} (ha : a ∈ args) : W9 m ρ c (Proc.devRef .tc a) = m ((c : Thread nD τ).loc a) :=
  (W9_of m ρ c a (args_host4 a ha)).trans <| (W8_of_ne m ρ c a (args_reg3 a ha)).trans <| (W7_of m ρ c a (args_host3 a ha)).trans <|
  (W6_of_ne m ρ c a (args_reg2 a ha)).trans <| (W5_of m ρ c a (args_host2 a ha)).trans <| (W4_of_ne m ρ c a (args_reg1 a ha)).trans <|
  (W3_of m ρ c a (args_host1 a ha)).trans <| (W2_of_ne m ρ c a (args_reg0 a ha)).trans <| (W1_of m ρ c a (args_host0 a ha)).trans rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem hostOps4_fresh : (hostOps4 : List (HloOp τ sig (Elt F))).Forall fun op => op.fresh = ∅ := by
  simp only [List.Forall]; repeat' constructor

abbrev Tₙ (c : Dev nD) : sProp 𝕄 := iprop(StableHlo.held (c : Thread nD τ) (Pipeline.ucRefs τ sig) (W9 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c =>
      show iprop(StableHlo.held (c : Thread nD τ) (Pipeline.ucRefs τ sig) (W9 m ρ c) ∗ R c)
        ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run, with the arguments: every final state also has each argument array as launched. -/
theorem run_args : θ_run defs (onTc (τ := τ) (main (F := F))) ⟨m, fun _ => 0, ρ⟩ (fun r => ∀ c : Dev nD,
      (∀ b ∈ Pipeline.ucRefs τ sig, r.2.mem (((c : Thread nD τ)).1, b) = W9 m ρ c b)
      ∧ ∀ a ∈ args, r.2.mem ((c.tc : Thread nD τ).loc a) = m ((c.tc : Thread nD τ).loc a)) :=
  (θ_run defs _ _).mono (fun r h c => ⟨h c, fun a ha => (h c _ (mem_uc a (args_unscoped a ha))).trans (W9_arg m ρ c ha)⟩)
    (run_all m ρ)

end Cert.Kernel.Fr

end
-- ==== Proof.KIRegion0.lean ====
import proofs.«430199_j90752658965038_1_alg».proof.Proof.Gen.KernelIdeal.Launch
import proofs.«430199_j90752658965038_1_alg».proof.Proof.Gen.KernelIdeal.Skeleton
import proofs.«430199_j90752658965038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The edge block's region: at every grid point the body maps the input windows' blocks to `out0_5` of them and leaves the inputs' buffers as they were. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x222 := Rect.unit (s := S5000x222) ![0, 0] S5000x222.size inb_S5000x222_S5000x222_0_0
abbrev r0_w1 : Rect S222x128 := Rect.unit (s := S222x128) ![0, 0] S222x128.size inb_S222x128_S222x128_0_0
abbrev r0_b1 : Rect S1x128 := Rect.unit (s := S1x128) ![0, 0] S1x128.size inb_S1x128_S1x128_0_0
abbrev r0_w2 : Rect S128x32 := Rect.unit (s := S128x32) ![0, 0] S128x32.size inb_S128x32_S128x32_0_0
abbrev r0_b2 : Rect S1x32 := Rect.unit (s := S1x32) ![0, 0] S1x32.size inb_S1x32_S1x32_0_0
abbrev r0_o : Rect S5000x32 := Rect.unit (s := S5000x32) ![0, 0] S5000x32.size inb_S5000x32_S5000x32_0_0

def out0_5 (x0 : Vec F S5000x222 .f32) (x1 : Vec F S222x128 .f32) (x2 : Vec F S1x128 .f32) (x3 : Vec F S128x32 .f32) (x4 : Vec F S1x32 .f32) : Vec F S5000x32 .f32 :=
  View.canon [⟨r0_o, k0_pay1 (View.ld x0 r0_x) (View.ld x1 r0_w1) (View.ld x2 r0_b1) (View.ld x3 r0_w2) (View.ld x4 r0_b2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem cover0_5 (p0 : Vec F S5000x32 .f32) (y : S5000x32.Idx) :
    ∃ pc ∈ ([⟨r0_o, p0⟩] : List (View.Piece (Elt F) S5000x32 .f32)), y ∈ pc.1.set :=
  View.cover_of_tiled [⟨r0_o, p0⟩] S5000x32.size (by rfl) y

set_option maxHeartbeats 4000000 in
theorem sound_kernel0 (c : Dev nD) (E : Set ℕ) (i : grid0.Coords) (arg1 : Memref sig .tc .vmem S5000x222 .f32) (harg1 : arg1.IsWhole) (arg2 : Memref sig .tc .vmem S222x128 .f32) (harg2 : arg2.IsWhole) (arg3 : Memref sig .tc .vmem S1x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x222 .f32) (x1 : Vec F S222x128 .f32) (x2 : Vec F S1x128 .f32) (x3 : Vec F S128x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIRegion1.lean ====
import proofs.«430199_j90752658965038_1_alg».proof.Proof.Gen.KernelIdeal.Launch
import proofs.«430199_j90752658965038_1_alg».proof.Proof.Gen.KernelIdeal.Skeleton
import proofs.«430199_j90752658965038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The node block's region: at every grid point the body maps the input windows' blocks to `out1_6` of them and leaves the inputs' buffers as they were. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_h : Rect S5000x142 := Rect.unit (s := S5000x142) ![0, 0] S5000x142.size inb_S5000x142_S5000x142_0_0
abbrev r1_f : Rect S5000x110 := Rect.unit (s := S5000x110) ![0, 0] S5000x110.size inb_S5000x110_S5000x110_0_0
abbrev r1_w1 : Rect S142x128 := Rect.unit (s := S142x128) ![0, 0] S142x128.size inb_S142x128_S142x128_0_0
abbrev r1_b1 : Rect S1x128 := Rect.unit (s := S1x128) ![0, 0] S1x128.size inb_S1x128_S1x128_0_0
abbrev r1_w2 : Rect S128x110 := Rect.unit (s := S128x110) ![0, 0] S128x110.size inb_S128x110_S128x110_0_0
abbrev r1_b2 : Rect S1x110 := Rect.unit (s := S1x110) ![0, 0] S1x110.size inb_S1x110_S1x110_0_0

def out1_6 (x0 : Vec F S5000x142 .f32) (x1 : Vec F S5000x110 .f32) (x2 : Vec F S142x128 .f32) (x3 : Vec F S1x128 .f32) (x4 : Vec F S128x110 .f32) (x5 : Vec F S1x110 .f32) : Vec F S5000x110 .f32 :=
  View.canon [⟨r1_f, k1_pay1 (View.ld x0 r1_h) (View.ld x2 r1_w1) (View.ld x3 r1_b1) (View.ld x4 r1_w2) (View.ld x5 r1_b2) (View.ld x1 r1_f)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem cover1_6 (p0 : Vec F S5000x110 .f32) (y : S5000x110.Idx) :
    ∃ pc ∈ ([⟨r1_f, p0⟩] : List (View.Piece (Elt F) S5000x110 .f32)), y ∈ pc.1.set :=
  View.cover_of_tiled [⟨r1_f, p0⟩] S5000x110.size (by rfl) y

set_option maxHeartbeats 4000000 in
theorem sound_kernel1 (c : Dev nD) (E : Set ℕ) (i : grid1.Coords) (arg1 : Memref sig .tc .vmem S5000x142 .f32) (harg1 : arg1.IsWhole) (arg2 : Memref sig .tc .vmem S5000x110 .f32) (harg2 : arg2.IsWhole) (arg3 : Memref sig .tc .vmem S142x128 .f32) (harg3 : arg3.IsWhole) (arg4 : Memref sig .tc .vmem S1x128 .f32) (harg4 : arg4.IsWhole) (arg5 : Memref sig .tc .vmem S128x110 .f32) (harg5 : arg5.IsWhole) (arg6 : Memref sig .tc .vmem S1x110 .f32) (harg6 : arg6.IsWhole) (arg7 : Memref sig .tc .vmem S5000x110 .f32) (harg7 : arg7.IsWhole)
    (x0 : Vec F S5000x142 .f32) (x1 : Vec F S5000x110 .f32) (x2 : Vec F S142x128 .f32) (x3 : Vec F S1x128 .f32) (x4 : Vec F S128x110 .f32) (x5 : Vec F S1x110 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__node_mlp_kernel i arg1 harg1 arg2 harg2 arg3 harg3 arg4 harg4 arg5 harg5 arg6 harg6 arg7 harg7) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIRegion2.lean ====
import proofs.«430199_j90752658965038_1_alg».proof.Proof.Gen.KernelIdeal.Launch
import proofs.«430199_j90752658965038_1_alg».proof.Proof.Gen.KernelIdeal.Skeleton
import proofs.«430199_j90752658965038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The edge block's region: at every grid point the body maps the input windows' blocks to `out2_5` of them and leaves the inputs' buffers as they were. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x222 := Rect.unit (s := S5000x222) ![0, 0] S5000x222.size inb_S5000x222_S5000x222_0_0
abbrev r2_w1 : Rect S222x128 := Rect.unit (s := S222x128) ![0, 0] S222x128.size inb_S222x128_S222x128_0_0
abbrev r2_b1 : Rect S1x128 := Rect.unit (s := S1x128) ![0, 0] S1x128.size inb_S1x128_S1x128_0_0
abbrev r2_w2 : Rect S128x32 := Rect.unit (s := S128x32) ![0, 0] S128x32.size inb_S128x32_S128x32_0_0
abbrev r2_b2 : Rect S1x32 := Rect.unit (s := S1x32) ![0, 0] S1x32.size inb_S1x32_S1x32_0_0
abbrev r2_o : Rect S5000x32 := Rect.unit (s := S5000x32) ![0, 0] S5000x32.size inb_S5000x32_S5000x32_0_0

def out2_5 (x0 : Vec F S5000x222 .f32) (x1 : Vec F S222x128 .f32) (x2 : Vec F S1x128 .f32) (x3 : Vec F S128x32 .f32) (x4 : Vec F S1x32 .f32) : Vec F S5000x32 .f32 :=
  View.canon [⟨r2_o, k2_pay1 (View.ld x0 r2_x) (View.ld x1 r2_w1) (View.ld x2 r2_b1) (View.ld x3 r2_w2) (View.ld x4 r2_b2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem cover2_5 (p0 : Vec F S5000x32 .f32) (y : S5000x32.Idx) :
    ∃ pc ∈ ([⟨r2_o, p0⟩] : List (View.Piece (Elt F) S5000x32 .f32)), y ∈ pc.1.set :=
  View.cover_of_tiled [⟨r2_o, p0⟩] S5000x32.size (by rfl) y

set_option maxHeartbeats 4000000 in
theorem sound_kernel2 (c : Dev nD) (E : Set ℕ) (i : grid2.Coords) (arg1 : Memref sig .tc .vmem S5000x222 .f32) (harg1 : arg1.IsWhole) (arg2 : Memref sig .tc .vmem S222x128 .f32) (harg2 : arg2.IsWhole) (arg3 : Memref sig .tc .vmem S1x128 .f32) (harg3 : arg3.IsWhole) (arg4 : Memref sig .tc .vmem S128x32 .f32) (harg4 : arg4.IsWhole) (arg5 : Memref sig .tc .vmem S1x32 .f32) (harg5 : arg5.IsWhole) (arg6 : Memref sig .tc .vmem S5000x32 .f32) (harg6 : arg6.IsWhole)
    (x0 : Vec F S5000x222 .f32) (x1 : Vec F S222x128 .f32) (x2 : Vec F S1x128 .f32) (x3 : Vec F S128x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__edge_mlp_kernel i arg1 harg1 arg2 harg2 arg3 harg3 arg4 harg4 arg5 harg5 arg6 harg6) K := by
  simp only [cc2__edge_mlp_kernel_eq_skeleton]; unfold cc2__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIRegion3.lean ====
import proofs.«430199_j90752658965038_1_alg».proof.Proof.Gen.KernelIdeal.Launch
import proofs.«430199_j90752658965038_1_alg».proof.Proof.Gen.KernelIdeal.Skeleton
import proofs.«430199_j90752658965038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The node block's region: at every grid point the body maps the input windows' blocks to `out3_6` of them and leaves the inputs' buffers as they were. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_h : Rect S5000x142 := Rect.unit (s := S5000x142) ![0, 0] S5000x142.size inb_S5000x142_S5000x142_0_0
abbrev r3_f : Rect S5000x110 := Rect.unit (s := S5000x110) ![0, 0] S5000x110.size inb_S5000x110_S5000x110_0_0
abbrev r3_w1 : Rect S142x128 := Rect.unit (s := S142x128) ![0, 0] S142x128.size inb_S142x128_S142x128_0_0
abbrev r3_b1 : Rect S1x128 := Rect.unit (s := S1x128) ![0, 0] S1x128.size inb_S1x128_S1x128_0_0
abbrev r3_w2 : Rect S128x110 := Rect.unit (s := S128x110) ![0, 0] S128x110.size inb_S128x110_S128x110_0_0
abbrev r3_b2 : Rect S1x110 := Rect.unit (s := S1x110) ![0, 0] S1x110.size inb_S1x110_S1x110_0_0

def out3_6 (x0 : Vec F S5000x142 .f32) (x1 : Vec F S5000x110 .f32) (x2 : Vec F S142x128 .f32) (x3 : Vec F S1x128 .f32) (x4 : Vec F S128x110 .f32) (x5 : Vec F S1x110 .f32) : Vec F S5000x110 .f32 :=
  View.canon [⟨r3_f, k3_pay1 (View.ld x0 r3_h) (View.ld x2 r3_w1) (View.ld x3 r3_b1) (View.ld x4 r3_w2) (View.ld x5 r3_b2) (View.ld x1 r3_f)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem cover3_6 (p0 : Vec F S5000x110 .f32) (y : S5000x110.Idx) :
    ∃ pc ∈ ([⟨r3_f, p0⟩] : List (View.Piece (Elt F) S5000x110 .f32)), y ∈ pc.1.set :=
  View.cover_of_tiled [⟨r3_f, p0⟩] S5000x110.size (by rfl) y

set_option maxHeartbeats 4000000 in
theorem sound_kernel3 (c : Dev nD) (E : Set ℕ) (i : grid3.Coords) (arg1 : Memref sig .tc .vmem S5000x142 .f32) (harg1 : arg1.IsWhole) (arg2 : Memref sig .tc .vmem S5000x110 .f32) (harg2 : arg2.IsWhole) (arg3 : Memref sig .tc .vmem S142x128 .f32) (harg3 : arg3.IsWhole) (arg4 : Memref sig .tc .vmem S1x128 .f32) (harg4 : arg4.IsWhole) (arg5 : Memref sig .tc .vmem S128x110 .f32) (harg5 : arg5.IsWhole) (arg6 : Memref sig .tc .vmem S1x110 .f32) (harg6 : arg6.IsWhole) (arg7 : Memref sig .tc .vmem S5000x110 .f32) (harg7 : arg7.IsWhole)
    (x0 : Vec F S5000x142 .f32) (x1 : Vec F S5000x110 .f32) (x2 : Vec F S142x128 .f32) (x3 : Vec F S1x128 .f32) (x4 : Vec F S128x110 .f32) (x5 : Vec F S1x110 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__node_mlp_kernel i arg1 harg1 arg2 harg2 arg3 harg3 arg4 harg4 arg5 harg5 arg6 harg6 arg7 harg7) K := by
  simp only [cc3__node_mlp_kernel_eq_skeleton]; unfold cc3__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KIRun.lean ====
import proofs.«430199_j90752658965038_1_alg».proof.Proof.KIRegion0
import proofs.«430199_j90752658965038_1_alg».proof.Proof.KIRegion1
import proofs.«430199_j90752658965038_1_alg».proof.Proof.KIRegion2
import proofs.«430199_j90752658965038_1_alg».proof.Proof.KIRegion3
import proofs.«430199_j90752658965038_1_alg».proof.Proof.Gen.KernelIdeal.Launch
import proofs.«430199_j90752658965038_1_alg».proof.Proof.Gen.KernelIdeal.Skeleton
import proofs.«430199_j90752658965038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! @main is five stretches of host operations around four kernel regions. `W0 … W9` are a core's buffer contents at the ten boundaries: a host stretch folds its operations over the contents before it, a region replaces its window arrays by what its points leave. No stretch and no region writes an argument. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev hostOps0_W : List (Ref sig .tc) :=
  [main_c, main_c_0, main_c_1, main_v0, main_v1, main_v2, main_v3, main_v4, main_v5, main_v6, main_v7, main_c_2,
   main_v8, main_v9, main_c_3, main_v10, main_v11, main_v12, main_v13, main_v14, main_v15, main_v16, main_v17,
   main_c_4, main_v18, main_v19, main_c_5, main_v20, main_v21, main_v22, main_v23, main_v24, main_v25, main_v26,
   main_v27, main_c_6, main_v28, main_v29, main_c_7, main_v30, main_v31, main_v32, main_v33, main_v34, main_v35,
   main_v36, main_v37, main_c_8, main_v38, main_v39, main_c_9, main_v40, main_v41, main_v42, main_v43, main_v44,
   main_v45, main_v46, main_v47, main_c_10, main_v48, main_v49, main_c_11, main_v50, main_v51, main_v52, main_v53,
   main_v54, main_v55, main_v56, main_v57, main_c_12, main_v58, main_v59, main_c_13, main_v60, main_v61, main_v62,
   main_v63, main_v64, main_v65, main_v66, main_v67, main_c_14, main_v68, main_v69, main_c_15, main_v70, main_v71,
   main_v72, main_v73, main_v74, main_v75, main_v76, main_v77, main_c_16, main_v78, main_v79, main_c_17, main_v80,
   main_v81, main_v82, main_v83, main_v84, main_v85, main_v86, main_v87, main_c_18, main_v88, main_v89, main_c_19,
   main_v90, main_v91, main_v92, main_v93, main_v94, main_v95, main_v96, main_v97, main_c_20, main_v98, main_v99,
   main_c_21, main_v100, main_v101, main_v102, main_v103, main_v104, main_v105, main_v106, main_v107, main_v108,
   main_v109, main_v110, main_v111, main_v112, main_cst, main_v113, main_v114, main_c_22, main_v115, main_v116,
   main_c_23, main_v117, main_v118, main_v119, main_v120, main_v121, main_c_24, main_v122, main_v123, main_c_25,
   main_v124, main_v125, main_v126, main_v127, main_v128, main_v129, main_v130, main_cst_26, main_v131, main_v132,
   main_v133, main_cst_27, main_v134, main_cst_28, main_v135, main_v136, main_v137, main_cst_29, main_v138,
   main_v139, main_cst_30, main_v140, main_v141, main_c_31, main_v142, main_v143, main_c_32, main_v144, main_v145,
   main_v146, main_v147, main_v148, main_c_33, main_v149, main_v150, main_c_34, main_v151, main_v152, main_v153,
   main_v154, main_v155, main_v156, main_v157, main_v158, main_v159, main_v160, main_v161, main_v162, main_v163,
   main_v164, main_v165, main_v166]
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' constructor
  all_goals exact single_sub_of_mem (by decide)

abbrev hostOps1_W : List (Ref sig .tc) :=
  [main_cst_35, main_v168, main_v169, main_v170, main_cst_36, main_v171, main_cst_37, main_v172, main_v173,
   main_v174, main_v175, main_c_38, main_v176, main_v177, main_c_39, main_v178, main_v179, main_v180, main_v181,
   main_v182, main_v183, main_v184, main_v185, main_v186, main_cst_40, main_v187, main_cst_41, main_v188, main_v189,
   main_v190, main_v191, main_c_42, main_v192, main_v193, main_c_43, main_v194, main_v195, main_v196, main_v197,
   main_v198, main_v199, main_v200, main_v201, main_cst_44, main_v202, main_v203, main_v204, main_v205, main_v206,
   main_v207, main_v208, main_v209, main_v210, main_v211, main_v212, main_v213, main_v214, main_v215, main_v216,
   main_v217, main_v218, main_v219, main_v220, main_v221, main_v222, main_v223, main_v224, main_v225]
theorem hostOps1_writes : (hostOps1 : List (HloOp τ sig (Elt F))).Forall fun op => op.writes ⊆ (hostOps1_W.map (Proc.devRef (τ := τ) .tc)).toFinset := by
  simp only [List.Forall]
  repeat' constructor
  all_goals exact single_sub_of_mem (by decide)

abbrev hostOps2_W : List (Ref sig .tc) :=
  [main_c_45, main_v227, main_v228, main_c_46, main_v229, main_v230, main_v231, main_v232, main_v233, main_c_47,
   main_v234, main_v235, main_c_48, main_v236, main_v237, main_v238, main_v239, main_v240, main_v241, main_v242,
   main_v243, main_v244, main_v245, main_v246, main_v247, main_v248, main_v249, main_v250, main_v251]
theorem hostOps2_writes : (hostOps2 : List (HloOp τ sig (Elt F))).Forall fun op => op.writes ⊆ (hostOps2_W.map (Proc.devRef (τ := τ) .tc)).toFinset := by
  simp only [List.Forall]
  repeat' constructor
  all_goals exact single_sub_of_mem (by decide)

abbrev hostOps3_W : List (Ref sig .tc) :=
  [main_cst_49, main_v253, main_v254, main_v255, main_cst_50, main_v256, main_cst_51, main_v257, main_v258,
   main_v259, main_v260, main_c_52, main_v261, main_v262, main_c_53, main_v263, main_v264, main_v265, main_v266,
   main_v267, main_v268, main_v269, main_v270, main_v271, main_cst_54, main_v272, main_cst_55, main_v273, main_v274,
   main_v275, main_v276, main_c_56, main_v277, main_v278, main_c_57, main_v279, main_v280, main_v281, main_v282,
   main_v283, main_v284, main_v285, main_v286, main_cst_58, main_v287, main_v288, main_v289, main_v290, main_v291,
   main_v292, main_v293, main_v294, main_v295, main_v296, main_v297, main_v298, main_v299, main_v300, main_v301,
   main_v302, main_v303, main_v304, main_v305, main_v306, main_v307, main_v308, main_v309, main_v310]
theorem hostOps3_writes : (hostOps3 : List (HloOp τ sig (Elt F))).Forall fun op => op.writes ⊆ (hostOps3_W.map (Proc.devRef (τ := τ) .tc)).toFinset := by
  simp only [List.Forall]
  repeat' constructor
  all_goals exact single_sub_of_mem (by decide)

abbrev hostOps4_W : List (Ref sig .tc) :=
  [main_cst_59, main_v312, main_v313, main_v314, main_v315, main_v316, main_v317]
theorem hostOps4_writes : (hostOps4 : List (HloOp τ sig (Elt F))).Forall fun op => op.writes ⊆ (hostOps4_W.map (Proc.devRef (τ := τ) .tc)).toFinset := by
  simp only [List.Forall]
  repeat' constructor
  all_goals exact single_sub_of_mem (by decide)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h

/-- The program's argument arrays. -/
abbrev args : List (Ref sig .tc) :=
  [main_arg0, main_arg1, main_arg2, main_arg3, main_arg4, main_arg5, main_arg6, main_arg7, main_arg8, main_arg9, main_arg10, main_arg11, main_arg12,
   main_arg13, main_arg14, main_arg15, main_arg16, main_arg17, main_arg18, main_arg19, main_arg20, main_arg21, main_arg22, main_arg23, main_arg24]

theorem args_host0 : ∀ a ∈ args, a ∉ hostOps0_W := by decide
theorem args_host1 : ∀ a ∈ args, a ∉ hostOps1_W := by decide
theorem args_host2 : ∀ a ∈ args, a ∉ hostOps2_W := by decide
theorem args_host3 : ∀ a ∈ args, a ∉ hostOps3_W := by decide
theorem args_host4 : ∀ a ∈ args, a ∉ hostOps4_W := by decide
theorem args_reg0 : ∀ a ∈ args, ∀ w, Pipeline.arrRef spec0 w ≠ a := by decide
theorem args_reg1 : ∀ a ∈ args, ∀ w, Pipeline.arrRef spec1 w ≠ a := by decide
theorem args_reg2 : ∀ a ∈ args, ∀ w, Pipeline.arrRef spec2 w ≠ a := by decide
theorem args_reg3 : ∀ a ∈ args, ∀ w, Pipeline.arrRef spec3 w ≠ a := by decide
theorem args_unscoped : ∀ a ∈ args, ¬ (Proc.devRef .tc a : DevRef τ sig).isScoped := by decide

/-- No host operation writes an argument and no region has one among its window arrays, so the last contents read at
    an argument walk back, boundary by boundary, to the launch memory. -/
theorem W9_arg (c : Dev nD) {a : Ref sig .tc} (ha : a ∈ args) : W9 m ρ c (Proc.devRef .tc a) = m ((c : Thread nD τ).loc a) :=
  (W9_of m ρ c a (args_host4 a ha)).trans <| (W8_of_ne m ρ c a (args_reg3 a ha)).trans <| (W7_of m ρ c a (args_host3 a ha)).trans <|
  (W6_of_ne m ρ c a (args_reg2 a ha)).trans <| (W5_of m ρ c a (args_host2 a ha)).trans <| (W4_of_ne m ρ c a (args_reg1 a ha)).trans <|
  (W3_of m ρ c a (args_host1 a ha)).trans <| (W2_of_ne m ρ c a (args_reg0 a ha)).trans <| (W1_of m ρ c a (args_host0 a ha)).trans rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem hostOps4_fresh : (hostOps4 : List (HloOp τ sig (Elt F))).Forall fun op => op.fresh = ∅ := by
  simp only [List.Forall]; repeat' constructor

abbrev Tₙ (c : Dev nD) : sProp 𝕄 := iprop(StableHlo.held (c : Thread nD τ) (Pipeline.ucRefs τ sig) (W9 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c =>
      show iprop(StableHlo.held (c : Thread nD τ) (Pipeline.ucRefs τ sig) (W9 m ρ c) ∗ R c)
        ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run, with the arguments: every final state also has each argument array as launched. -/
theorem run_args : θ_run defs (onTc (τ := τ) (main (F := F))) ⟨m, fun _ => 0, ρ⟩ (fun r => ∀ c : Dev nD,
      (∀ b ∈ Pipeline.ucRefs τ sig, r.2.mem (((c : Thread nD τ)).1, b) = W9 m ρ c b)
      ∧ ∀ a ∈ args, r.2.mem ((c.tc : Thread nD τ).loc a) = m ((c.tc : Thread nD τ).loc a)) :=
  (θ_run defs _ _).mono (fun r h c => ⟨h c, fun a ha => (h c _ (mem_uc a (args_unscoped a ha))).trans (W9_arg m ρ c ha)⟩)
    (run_all m ρ)

end Cert.KernelIdeal.Fr

end
-- ==== Proof.RefOps.lean ====
import proofs.«430199_j90752658965038_1_alg».proof.Proof.Gen.ReferenceIdeal
import Idealize.ShloMosaic.Lib.StableHlo.Run

set_option synthInstance.maxSize 4096

noncomputable section

namespace Cert.ReferenceIdeal.Hand

open Idealize.ShloMosaic Idealize.SL.Sem Cert.ReferenceIdeal Cert.ReferenceIdeal.Gen

variable {F : FTy → Type} [FloatOps F]

/-- Run 0: statements of window 0, in stage P0. -/
abbrev run0 : List (HloOp τ sig (Elt F)) :=
  [ StableHlo.nullary main_c (fun i => lit0 (S6.rowMajor i)),
    StableHlo.nullary main_c_0 (constantI S6 1 0#1),
    StableHlo.nullary main_c_1 (constantI S_ 32 16#32),
    StableHlo.unary main_c_1 main_v0 (broadcastInDim S6 ![] bcast_S_S6 : (⟨S_, .i32⟩ : BufTy).Contents (Elt F) → (⟨S6, .i32⟩ : BufTy).Contents (Elt F)),
    StableHlo.binary main_c main_v0 main_v1 (addi : (⟨S6, .i32⟩ : BufTy).Contents (Elt F) → (⟨S6, .i32⟩ : BufTy).Contents (Elt F) → (⟨S6, .i32⟩ : BufTy).Contents (Elt F)),
    StableHlo.ternary main_c_0 main_v1 main_c main_v2 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v2 main_v3 (broadcastInDim S6x1 ![0] bcast_S6_S6x1_0 : (⟨S6, .i32⟩ : BufTy).Contents (Elt F) → (⟨S6x1, .i32⟩ : BufTy).Contents (Elt F)),
    StableHlo.binary main_arg0 main_v3 main_v4 ((fun x i => Host.gather gather_S50000x16_S6x1_S50000x6_0_1_n_n_1_1_500001 x i) : (⟨S50000x16, .f32⟩ : BufTy).Contents (Elt F) → (⟨S6x1, .i32⟩ : BufTy).Contents (Elt F) → (⟨S50000x6, .f32⟩ : BufTy).Contents (Elt F)),
    StableHlo.unary main_arg0 main_v5 ((extractStridedSlice S50000x1 ![0, 1] · slices_S50000x16_S50000x1_0_1) : (⟨S50000x16, .f32⟩ : BufTy).Contents (Elt F) → (⟨S50000x1, .f32⟩ : BufTy).Contents (Elt F)),
    StableHlo.reshape main_v5 main_v6 rfl shapeCasts_S50000x1_S50000,
    StableHlo.unary main_v6 main_v7 (fptosi 32 : (⟨S50000, .f32⟩ : BufTy).Contents (Elt F) → (⟨S50000, .i32⟩ : BufTy).Contents (Elt F)),
    StableHlo.nullary main_c_2 (constantI S_ 32 0#32),
    StableHlo.unary main_c_2 main_v8 (broadcastInDim S50000 ![] bcast_S_S50000 : (⟨S_, .i32⟩ : BufTy).Contents (Elt F) → (⟨S50000, .i32⟩ : BufTy).Contents (Elt F)),
    StableHlo.binary main_v7 main_v8 main_v9 (cmpi .slt : (⟨S50000, .i32⟩ : BufTy).Contents (Elt F) → (⟨S50000, .i32⟩ : BufTy).Contents (Elt F) → (⟨S50000, .i1⟩ : BufTy).Contents (Elt F)),
    StableHlo.nullary main_c_3 (constantI S_ 32 119#32),
    StableHlo.unary main_c_3 main_v10 (broadcastInDim S50000 ![] bcast_S_S50000 : (⟨S_, .i32⟩ : BufTy).Contents (Elt F) → (⟨S50000, .i32⟩ : BufTy).Contents (Elt F)),
    StableHlo.binary main_v7 main_v10 main_v11 (addi : (⟨S50000, .i32⟩ : BufTy).Contents (Elt F) → (⟨S50000, .i32⟩ : BufTy).Contents (Elt F) → (⟨S50000, .i32⟩ : BufTy).Contents (Elt F)),
    StableHlo.ternary main_v9 main_v11 main_v7 main_v12 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v12 main_v13 (broadcastInDim S50000x1 ![0] bcast_S50000_S50000x1_0 : (⟨S50000, .i32⟩ : BufTy).Contents (Elt F) → (⟨S50000x1, .i32⟩ : BufTy).Contents (Elt F)),
    StableHlo.binary main_arg5 main_v13 main_v14 ((fun x i => Host.gather gather_S119x32_S50000x1_S50000x32_1_0_n_n_0_1_132 x i) : (⟨S119x32, .f32⟩ : BufTy).Contents (Elt F) → (⟨S50000x1, .i32⟩ : BufTy).Contents (Elt F) → (⟨S50000x32, .f32⟩ : BufTy).Contents (Elt F)),
    StableHlo.unary main_arg0 main_v15 ((extractStridedSlice S50000x1 ![0, 2] · slices_S50000x16_S50000x1_0_2) : (⟨S50000x16, .f32⟩ : BufTy).Contents (Elt F) → (⟨S50000x1, .f32⟩ : BufTy).Contents (Elt F)),
    StableHlo.reshape main_v15 main_v16 rfl shapeCasts_S50000x1_S50000,
    StableHlo.unary main_v16 main_v17 (fptosi 32 : (⟨S50000, .f32⟩ : BufTy).Contents (Elt F) → (⟨S50000, .i32⟩ : BufTy).Contents (Elt F)),
    StableHlo.nullary main_c_4 (constantI S_ 32 0#32),
    StableHlo.unary main_c_4 main_v18 (broadcastInDim S50000 ![] bcast_S_S50000 : (⟨S_, .i32⟩ : BufTy).Contents (Elt F) → (⟨S50000, .i32⟩ : BufTy).Contents (Elt F)),
    StableHlo.binary main_v17 main_v18 main_v19 (cmpi .slt : (⟨S50000, .i32⟩ : BufTy).Contents (Elt F) → (⟨S50000, .i32⟩ : BufTy).Contents (Elt F) → (⟨S50000, .i1⟩ : BufTy).Contents (Elt F)),
    StableHlo.nullary main_c_5 (constantI S_ 32 11#32),
    StableHlo.unary main_c_5 main_v20 (broadcastInDim S50000 ![] bcast_S_S50000 : (⟨S_, .i32⟩ : BufTy).Contents (Elt F) → (⟨S50000, .i32⟩ : BufTy).Contents (Elt F)),
    StableHlo.binary main_v17 main_v20 main_v21 (addi : (⟨S50000, .i32⟩ : BufTy).Contents (Elt F) → (⟨S50000, .i32⟩ : BufTy).Contents (Elt F) → (⟨S50000, .i32⟩ : BufTy).Contents (Elt F)),
    StableHlo.ternary main_v19 main_v21 main_v17 main_v22 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v22 main_v23 (broadcastInDim S50000x1 ![0] bcast_S50000_S50000x1_0 : (⟨S50000, .i32⟩ : BufTy).Contents (Elt F) → (⟨S50000x1, .i32⟩ : BufTy).Contents (Elt F)),
    StableHlo.binary main_arg6 main_v23 main_v24 ((fun x i => Host.gather gather_S11x8_S50000x1_S50000x8_1_0_n_n_0_1_18 x i) : (⟨S11x8, .f32⟩ : BufTy).Contents (Elt F) → (⟨S50000x1, .i32⟩ : BufTy).Contents (Elt F) → (⟨S50000x8, .f32⟩ : BufTy).Contents (Elt F)),
    StableHlo.unary main_arg0 main_v25 ((extractStridedSlice S50000x1 ![0, 3] · slices_S50000x16_S50000x1_0_3) : (⟨S50000x16, .f32⟩ : BufTy).Contents (Elt F) → (⟨S50000x1, .f32⟩ : BufTy).Contents (Elt F)),
    StableHlo.reshape main_v25 main_v26 rfl shapeCasts_S50000x1_S50000,
    StableHlo.unary main_v26 main_v27 (fptosi 32 : (⟨S50000, .f32⟩ : BufTy).Contents (Elt F) → (⟨S50000, .i32⟩ : BufTy).Contents (Elt F)),
    StableHlo.nullary main_c_6 (constantI S_ 32 0#32),
    StableHlo.unary main_c_6 main_v28 (broadcastInDim S50000 ![] bcast_S_S50000 : (⟨S_, .i32⟩ : BufTy).Contents (Elt F) → (⟨S50000, .i32⟩ : BufTy).Contents (Elt F)),
    StableHlo.binary main_v27 main_v28 main_v29 (cmpi .slt : (⟨S50000, .i32⟩ : BufTy).Contents (Elt F) → (⟨S50000, .i32⟩ : BufTy).Contents (Elt F) → (⟨S50000, .i1⟩ : BufTy).Contents (Elt F)),
    StableHlo.nullary main_c_7 (constantI S_ 32 12#32),
    StableHlo.unary main_c_7 main_v30 (broadcastInDim S50000 ![] bcast_S_S50000 : (⟨S_, .i32⟩ : BufTy).Contents (Elt F) → (⟨S50000, .i32⟩ : BufTy).Contents (Elt F)),
    StableHlo.binary main_v27 main_v30 main_v31 (addi : (⟨S50000, .i32⟩ : BufTy).Contents (Elt F) → (⟨S50000, .i32⟩ : BufTy).Contents (Elt F) → (⟨S50000, .i32⟩ : BufTy).Contents (Elt F)),
    StableHlo.ternary main_v29 main_v31 main_v27 main_v32 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v32 main_v33 (broadcastInDim S50000x1 ![0] bcast_S50000_S50000x1_0 : (⟨S50000, .i32⟩ : BufTy).Contents (Elt F) → (⟨S50000x1, .i32⟩ : BufTy).Contents (Elt F)),
    StableHlo.binary main_arg7 main_v33 main_v34 ((fun x i => Host.gather gather_S12x8_S50000x1_S50000x8_1_0_n_n_0_1_18 x i) : (⟨S12x8, .f32⟩ : BufTy).Contents (Elt F) → (⟨S50000x1, .i32⟩ : BufTy).Contents (Elt F) → (⟨S50000x8, .f32⟩ : BufTy).Contents (Elt F)),
    StableHlo.unary main_arg0 main_v35 ((extractStridedSlice S50000x1 ![0, 4] · slices_S50000x16_S50000x1_0_4) : (⟨S50000x16, .f32⟩ : BufTy).Contents (Elt F) → (⟨S50000x1, .f32⟩ : BufTy).Contents (Elt F)),
    StableHlo.reshape main_v35 main_v36 rfl shapeCasts_S50000x1_S50000,
    StableHlo.unary main_v36 main_v37 (fptosi 32 : (⟨S50000, .f32⟩ : BufTy).Contents (Elt F) → (⟨S50000, .i32⟩ : BufTy).Contents (Elt F)),
    StableHlo.nullary main_c_8 (constantI S_ 32 0#32),
    StableHlo.unary main_c_8 main_v38 (broadcastInDim S50000 ![] bcast_S_S50000 : (⟨S_, .i32⟩ : BufTy).Contents (Elt F) → (⟨S50000, .i32⟩ : BufTy).Contents (Elt F)),
    StableHlo.binary main_v37 main_v38 main_v39 (cmpi .slt : (⟨S50000, .i32⟩ : BufTy).Contents (Elt F) → (⟨S50000, .i32⟩ : BufTy).Contents (Elt F) → (⟨S50000, .i1⟩ : BufTy).Contents (Elt F)),
    StableHlo.nullary main_c_9 (constantI S_ 32 8#32),
    StableHlo.unary main_c_9 main_v40 (broadcastInDim S50000 ![] bcast_S_S50000 : (⟨S_, .i32⟩ : BufTy).Contents (Elt F) → (⟨S50000, .i32⟩ : BufTy).Contents (Elt F)),
    StableHlo.binary main_v37 main_v40 main_v41 (addi : (⟨S50000, .i32⟩ : BufTy).Contents (Elt F) → (⟨S50000, .i32⟩ : BufTy).Contents (Elt F) → (⟨S50000, .i32⟩ : BufTy).Contents (Elt F)),
    StableHlo.ternary main_v39 main_v41 main_v37 main_v42 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v42 main_v43 (broadcastInDim S50000x1 ![0] bcast_S50000_S50000x1_0 : (⟨S50000, .i32⟩ : BufTy).Contents (Elt F) → (⟨S50000x1, .i32⟩ : BufTy).Contents (Elt F)),
    StableHlo.binary main_arg8 main_v43 main_v44 ((fun x i => Host.gather gather_S8x8_S50000x1_S50000x8_1_0_n_n_0_1_18 x i) : (⟨S8x8, .f32⟩ : BufTy).Contents (Elt F) → (⟨S50000x1, .i32⟩ : BufTy).Contents (Elt F) → (⟨S50000x8, .f32⟩ : BufTy).Contents (Elt F)),
    StableHlo.unary main_arg0 main_v45 ((extractStridedSlice S50000x1 ![0, 5] · slices_S50000x16_S50000x1_0_5) : (⟨S50000x16, .f32⟩ : BufTy).Contents (Elt F) → (⟨S50000x1, .f32⟩ : BufTy).Contents (Elt F)),
    StableHlo.reshape main_v45 main_v46 rfl shapeCasts_S50000x1_S50000,
    StableHlo.unary main_v46 main_v47 (fptosi 32 : (⟨S50000, .f32⟩ : BufTy).Contents (Elt F) → (⟨S50000, .i32⟩ : BufTy).Contents (Elt F)),
    StableHlo.nullary main_c_10 (constantI S_ 32 0#32) ]
/-- The buffers run 0 writes. -/
abbrev run0_W : List (Ref sig .tc) :=
  [main_c, main_c_0, main_c_1, main_v0, main_v1, main_v2, main_v3, main_v4, main_v5, main_v6, main_v7, main_c_2, main_v8, main_v9, main_c_3, main_v10, main_v11, main_v12, main_v13, main_v14, main_v15, main_v16, main_v17, main_c_4, main_v18, main_v19, main_c_5, main_v20, main_v21, main_v22, main_v23, main_v24, main_v25, main_v26, main_v27, main_c_6, main_v28, main_v29, main_c_7, main_v30, main_v31, main_v32, main_v33, main_v34, main_v35, main_v36, main_v37, main_c_8, main_v38, main_v39, main_c_9, main_v40, main_v41, main_v42, main_v43, main_v44, main_v45, main_v46, main_v47, main_c_10]

/-- Run 1: statements of window 1, in stage P0. -/
abbrev run1 : List (HloOp τ sig (Elt F)) :=
  [ StableHlo.unary main_c_10 main_v48 (broadcastInDim S50000 ![] bcast_S_S50000 : (⟨S_, .i32⟩ : BufTy).Contents (Elt F) → (⟨S50000, .i32⟩ : BufTy).Contents (Elt F)),
    StableHlo.binary main_v47 main_v48 main_v49 (cmpi .slt : (⟨S50000, .i32⟩ : BufTy).Contents (Elt F) → (⟨S50000, .i32⟩ : BufTy).Contents (Elt F) → (⟨S50000, .i1⟩ : BufTy).Contents (Elt F)),
    StableHlo.nullary main_c_11 (constantI S_ 32 2#32),
    StableHlo.unary main_c_11 main_v50 (broadcastInDim S50000 ![] bcast_S_S50000 : (⟨S_, .i32⟩ : BufTy).Contents (Elt F) → (⟨S50000, .i32⟩ : BufTy).Contents (Elt F)),
    StableHlo.binary main_v47 main_v50 main_v51 (addi : (⟨S50000, .i32⟩ : BufTy).Contents (Elt F) → (⟨S50000, .i32⟩ : BufTy).Contents (Elt F) → (⟨S50000, .i32⟩ : BufTy).Contents (Elt F)),
    StableHlo.ternary main_v49 main_v51 main_v47 main_v52 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v52 main_v53 (broadcastInDim S50000x1 ![0] bcast_S50000_S50000x1_0 : (⟨S50000, .i32⟩ : BufTy).Contents (Elt F) → (⟨S50000x1, .i32⟩ : BufTy).Contents (Elt F)),
    StableHlo.binary main_arg9 main_v53 main_v54 ((fun x i => Host.gather gather_S2x8_S50000x1_S50000x8_1_0_n_n_0_1_18 x i) : (⟨S2x8, .f32⟩ : BufTy).Contents (Elt F) → (⟨S50000x1, .i32⟩ : BufTy).Contents (Elt F) → (⟨S50000x8, .f32⟩ : BufTy).Contents (Elt F)),
    StableHlo.unary main_arg0 main_v55 ((extractStridedSlice S50000x1 ![0, 6] · slices_S50000x16_S50000x1_0_6) : (⟨S50000x16, .f32⟩ : BufTy).Contents (Elt F) → (⟨S50000x1, .f32⟩ : BufTy).Contents (Elt F)),
    StableHlo.reshape main_v55 main_v56 rfl shapeCasts_S50000x1_S50000,
    StableHlo.unary main_v56 main_v57 (fptosi 32 : (⟨S50000, .f32⟩ : BufTy).Contents (Elt F) → (⟨S50000, .i32⟩ : BufTy).Contents (Elt F)),
    StableHlo.nullary main_c_12 (constantI S_ 32 0#32),
    StableHlo.unary main_c_12 main_v58 (broadcastInDim S50000 ![] bcast_S_S50000 : (⟨S_, .i32⟩ : BufTy).Contents (Elt F) → (⟨S50000, .i32⟩ : BufTy).Contents (Elt F)),
    StableHlo.binary main_v57 main_v58 main_v59 (cmpi .slt : (⟨S50000, .i32⟩ : BufTy).Contents (Elt F) → (⟨S50000, .i32⟩ : BufTy).Contents (Elt F) → (⟨S50000, .i1⟩ : BufTy).Contents (Elt F)),
    StableHlo.nullary main_c_13 (constantI S_ 32 9#32),
    StableHlo.unary main_c_13 main_v60 (broadcastInDim S50000 ![] bcast_S_S50000 : (⟨S_, .i32⟩ : BufTy).Contents (Elt F) → (⟨S50000, .i32⟩ : BufTy).Contents (Elt F)),
    StableHlo.binary main_v57 main_v60 main_v61 (addi : (⟨S50000, .i32⟩ : BufTy).Contents (Elt F) → (⟨S50000, .i32⟩ : BufTy).Contents (Elt F) → (⟨S50000, .i32⟩ : BufTy).Contents (Elt F)),
    StableHlo.ternary main_v59 main_v61 main_v57 main_v62 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v62 main_v63 (broadcastInDim S50000x1 ![0] bcast_S50000_S50000x1_0 : (⟨S50000, .i32⟩ : BufTy).Contents (Elt F) → (⟨S50000x1, .i32⟩ : BufTy).Contents (Elt F)),
    StableHlo.binary main_arg10 main_v63 main_v64 ((fun x i => Host.gather gather_S9x8_S50000x1_S50000x8_1_0_n_n_0_1_18 x i) : (⟨S9x8, .f32⟩ : BufTy).Contents (Elt F) → (⟨S50000x1, .i32⟩ : BufTy).Contents (Elt F) → (⟨S50000x8, .f32⟩ : BufTy).Contents (Elt F)),
    StableHlo.unary main_arg0 main_v65 ((extractStridedSlice S50000x1 ![0, 7] · slices_S50000x16_S50000x1_0_7) : (⟨S50000x16, .f32⟩ : BufTy).Contents (Elt F) → (⟨S50000x1, .f32⟩ : BufTy).Contents (Elt F)),
    StableHlo.reshape main_v65 main_v66 rfl shapeCasts_S50000x1_S50000,
    StableHlo.unary main_v66 main_v67 (fptosi 32 : (⟨S50000, .f32⟩ : BufTy).Contents (Elt F) → (⟨S50000, .i32⟩ : BufTy).Contents (Elt F)),
    StableHlo.nullary main_c_14 (constantI S_ 32 0#32),
    StableHlo.unary main_c_14 main_v68 (broadcastInDim S50000 ![] bcast_S_S50000 : (⟨S_, .i32⟩ : BufTy).Contents (Elt F) → (⟨S50000, .i32⟩ : BufTy).Contents (Elt F)),
    StableHlo.binary main_v67 main_v68 main_v69 (cmpi .slt : (⟨S50000, .i32⟩ : BufTy).Contents (Elt F) → (⟨S50000, .i32⟩ : BufTy).Contents (Elt F) → (⟨S50000, .i1⟩ : BufTy).Contents (Elt F)),
    StableHlo.nullary main_c_15 (constantI S_ 32 2#32),
    StableHlo.unary main_c_15 main_v70 (broadcastInDim S50000 ![] bcast_S_S50000 : (⟨S_, .i32⟩ : BufTy).Contents (Elt F) → (⟨S50000, .i32⟩ : BufTy).Contents (Elt F)),
    StableHlo.binary main_v67 main_v70 main_v71 (addi : (⟨S50000, .i32⟩ : BufTy).Contents (Elt F) → (⟨S50000, .i32⟩ : BufTy).Contents (Elt F) → (⟨S50000, .i32⟩ : BufTy).Contents (Elt F)),
    StableHlo.ternary main_v69 main_v71 main_v67 main_v72 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v72 main_v73 (broadcastInDim S50000x1 ![0] bcast_S50000_S50000x1_0 : (⟨S50000, .i32⟩ : BufTy).Contents (Elt F) → (⟨S50000x1, .i32⟩ : BufTy).Contents (Elt F)),
    StableHlo.binary main_arg11 main_v73 main_v74 ((fun x i => Host.gather gather_S2x8_S50000x1_S50000x8_1_0_n_n_0_1_18 x i) : (⟨S2x8, .f32⟩ : BufTy).Contents (Elt F) → (⟨S50000x1, .i32⟩ : BufTy).Contents (Elt F) → (⟨S50000x8, .f32⟩ : BufTy).Contents (Elt F)),
    StableHlo.unary main_arg0 main_v75 ((extractStridedSlice S50000x1 ![0, 8] · slices_S50000x16_S50000x1_0_8) : (⟨S50000x16, .f32⟩ : BufTy).Contents (Elt F) → (⟨S50000x1, .f32⟩ : BufTy).Contents (Elt F)),
    StableHlo.reshape main_v75 main_v76 rfl shapeCasts_S50000x1_S50000,
    StableHlo.unary main_v76 main_v77 (fptosi 32 : (⟨S50000, .f32⟩ : BufTy).Contents (Elt F) → (⟨S50000, .i32⟩ : BufTy).Contents (Elt F)),
    StableHlo.nullary main_c_16 (constantI S_ 32 0#32),
    StableHlo.unary main_c_16 main_v78 (broadcastInDim S50000 ![] bcast_S_S50000 : (⟨S_, .i32⟩ : BufTy).Contents (Elt F) → (⟨S50000, .i32⟩ : BufTy).Contents (Elt F)),
    StableHlo.binary main_v77 main_v78 main_v79 (cmpi .slt : (⟨S50000, .i32⟩ : BufTy).Contents (Elt F) → (⟨S50000, .i32⟩ : BufTy).Contents (Elt F) → (⟨S50000, .i1⟩ : BufTy).Contents (Elt F)),
    StableHlo.nullary main_c_17 (constantI S_ 32 9#32),
    StableHlo.unary main_c_17 main_v80 (broadcastInDim S50000 ![] bcast_S_S50000 : (⟨S_, .i32⟩ : BufTy).Contents (Elt F) → (⟨S50000, .i32⟩ : BufTy).Contents (Elt F)),
    StableHlo.binary main_v77 main_v80 main_v81 (addi : (⟨S50000, .i32⟩ : BufTy).Contents (Elt F) → (⟨S50000, .i32⟩ : BufTy).Contents (Elt F) → (⟨S50000, .i32⟩ : BufTy).Contents (Elt F)),
    StableHlo.ternary main_v79 main_v81 main_v77 main_v82 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v82 main_v83 (broadcastInDim S50000x1 ![0] bcast_S50000_S50000x1_0 : (⟨S50000, .i32⟩ : BufTy).Contents (Elt F) → (⟨S50000x1, .i32⟩ : BufTy).Contents (Elt F)),
    StableHlo.binary main_arg12 main_v83 main_v84 ((fun x i => Host.gather gather_S9x8_S50000x1_S50000x8_1_0_n_n_0_1_18 x i) : (⟨S9x8, .f32⟩ : BufTy).Contents (Elt F) → (⟨S50000x1, .i32⟩ : BufTy).Contents (Elt F) → (⟨S50000x8, .f32⟩ : BufTy).Contents (Elt F)),
    StableHlo.unary main_arg0 main_v85 ((extractStridedSlice S50000x1 ![0, 9] · slices_S50000x16_S50000x1_0_9) : (⟨S50000x16, .f32⟩ : BufTy).Contents (Elt F) → (⟨S50000x1, .f32⟩ : BufTy).Contents (Elt F)),
    StableHlo.reshape main_v85 main_v86 rfl shapeCasts_S50000x1_S50000,
    StableHlo.unary main_v86 main_v87 (fptosi 32 : (⟨S50000, .f32⟩ : BufTy).Contents (Elt F) → (⟨S50000, .i32⟩ : BufTy).Contents (Elt F)),
    StableHlo.nullary main_c_18 (constantI S_ 32 0#32),
    StableHlo.unary main_c_18 main_v88 (broadcastInDim S50000 ![] bcast_S_S50000 : (⟨S_, .i32⟩ : BufTy).Contents (Elt F) → (⟨S50000, .i32⟩ : BufTy).Contents (Elt F)),
    StableHlo.binary main_v87 main_v88 main_v89 (cmpi .slt : (⟨S50000, .i32⟩ : BufTy).Contents (Elt F) → (⟨S50000, .i32⟩ : BufTy).Contents (Elt F) → (⟨S50000, .i1⟩ : BufTy).Contents (Elt F)),
    StableHlo.nullary main_c_19 (constantI S_ 32 5#32),
    StableHlo.unary main_c_19 main_v90 (broadcastInDim S50000 ![] bcast_S_S50000 : (⟨S_, .i32⟩ : BufTy).Contents (Elt F) → (⟨S50000, .i32⟩ : BufTy).Contents (Elt F)),
    StableHlo.binary main_v87 main_v90 main_v91 (addi : (⟨S50000, .i32⟩ : BufTy).Contents (Elt F) → (⟨S50000, .i32⟩ : BufTy).Contents (Elt F) → (⟨S50000, .i32⟩ : BufTy).Contents (Elt F)),
    StableHlo.ternary main_v89 main_v91 main_v87 main_v92 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v92 main_v93 (broadcastInDim S50000x1 ![0] bcast_S50000_S50000x1_0 : (⟨S50000, .i32⟩ : BufTy).Contents (Elt F) → (⟨S50000x1, .i32⟩ : BufTy).Contents (Elt F)),
    StableHlo.binary main_arg13 main_v93 main_v94 ((fun x i => Host.gather gather_S5x8_S50000x1_S50000x8_1_0_n_n_0_1_18 x i) : (⟨S5x8, .f32⟩ : BufTy).Contents (Elt F) → (⟨S50000x1, .i32⟩ : BufTy).Contents (Elt F) → (⟨S50000x8, .f32⟩ : BufTy).Contents (Elt F)),
    StableHlo.unary main_arg0 main_v95 ((extractStridedSlice S50000x1 ![0, 10] · slices_S50000x16_S50000x1_0_10) : (⟨S50000x16, .f32⟩ : BufTy).Contents (Elt F) → (⟨S50000x1, .f32⟩ : BufTy).Contents (Elt F)),
    StableHlo.reshape main_v95 main_v96 rfl shapeCasts_S50000x1_S50000,
    StableHlo.unary main_v96 main_v97 (fptosi 32 : (⟨S50000, .f32⟩ : BufTy).Contents (Elt F) → (⟨S50000, .i32⟩ : BufTy).Contents (Elt F)),
    StableHlo.nullary main_c_20 (constantI S_ 32 0#32) ]
/-- The buffers run 1 writes. -/
abbrev run1_W : List (Ref sig .tc) :=
  [main_v48, main_v49, main_c_11, main_v50, main_v51, main_v52, main_v53, main_v54, main_v55, main_v56, main_v57, main_c_12, main_v58, main_v59, main_c_13, main_v60, main_v61, main_v62, main_v63, main_v64, main_v65, main_v66, main_v67, main_c_14, main_v68, main_v69, main_c_15, main_v70, main_v71, main_v72, main_v73, main_v74, main_v75, main_v76, main_v77, main_c_16, main_v78, main_v79, main_c_17, main_v80, main_v81, main_v82, main_v83, main_v84, main_v85, main_v86, main_v87, main_c_18, main_v88, main_v89, main_c_19, main_v90, main_v91, main_v92, main_v93, main_v94, main_v95, main_v96, main_v97, main_c_20]

/-- Run 2: statements of window 2, in stage P0. -/
abbrev run2 : List (HloOp τ sig (Elt F)) :=
  [ StableHlo.unary main_c_20 main_v98 (broadcastInDim S50000 ![] bcast_S_S50000 : (⟨S_, .i32⟩ : BufTy).Contents (Elt F) → (⟨S50000, .i32⟩ : BufTy).Contents (Elt F)),
    StableHlo.binary main_v97 main_v98 main_v99 (cmpi .slt : (⟨S50000, .i32⟩ : BufTy).Contents (Elt F) → (⟨S50000, .i32⟩ : BufTy).Contents (Elt F) → (⟨S50000, .i1⟩ : BufTy).Contents (Elt F)),
    StableHlo.nullary main_c_21 (constantI S_ 32 7#32),
    StableHlo.unary main_c_21 main_v100 (broadcastInDim S50000 ![] bcast_S_S50000 : (⟨S_, .i32⟩ : BufTy).Contents (Elt F) → (⟨S50000, .i32⟩ : BufTy).Contents (Elt F)),
    StableHlo.binary main_v97 main_v100 main_v101 (addi : (⟨S50000, .i32⟩ : BufTy).Contents (Elt F) → (⟨S50000, .i32⟩ : BufTy).Contents (Elt F) → (⟨S50000, .i32⟩ : BufTy).Contents (Elt F)),
    StableHlo.ternary main_v99 main_v101 main_v97 main_v102 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v102 main_v103 (broadcastInDim S50000x1 ![0] bcast_S50000_S50000x1_0 : (⟨S50000, .i32⟩ : BufTy).Contents (Elt F) → (⟨S50000x1, .i32⟩ : BufTy).Contents (Elt F)),
    StableHlo.binary main_arg14 main_v103 main_v104 ((fun x i => Host.gather gather_S7x8_S50000x1_S50000x8_1_0_n_n_0_1_18 x i) : (⟨S7x8, .f32⟩ : BufTy).Contents (Elt F) → (⟨S50000x1, .i32⟩ : BufTy).Contents (Elt F) → (⟨S50000x8, .f32⟩ : BufTy).Contents (Elt F)),
    StableHlo.nary ![main_v4, main_v14, main_v24, main_v34, main_v44, main_v54, main_v64, main_v74, main_v84, main_v94, main_v104] main_v105 (fun u => concatenate S50000x110 1 [⟨S50000x6, u 0⟩, ⟨S50000x32, u 1⟩, ⟨S50000x8, u 2⟩, ⟨S50000x8, u 3⟩, ⟨S50000x8, u 4⟩, ⟨S50000x8, u 5⟩, ⟨S50000x8, u 6⟩, ⟨S50000x8, u 7⟩, ⟨S50000x8, u 8⟩, ⟨S50000x8, u 9⟩, ⟨S50000x8, u 10⟩] concatenates_S50000x6_S50000x32_S50000x8_S50000x8_S50000x8_S50000x8_S50000x8_S50000x8_S50000x8_S50000x8_S50000x8_S50000x110_d1),
    StableHlo.nullary main_v106 (iotaInDim S50000 32 0),
    StableHlo.unary main_arg1 main_v107 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v107 main_v108 rfl shapeCasts_S1x800000_S800000,
    StableHlo.binary main_v108 main_v106 main_v109 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v110 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v110 main_v111 rfl shapeCasts_S1x800000_S800000,
    StableHlo.binary main_v111 main_v106 main_v112 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x00000000#32),
    StableHlo.unary main_cst main_v113 (broadcastInDim S50000x1 ![] bcast_S_S50000x1 : (⟨S_, .f32⟩ : BufTy).Contents (Elt F) → (⟨S50000x1, .f32⟩ : BufTy).Contents (Elt F)),
    StableHlo.binary main_arg2 main_v113 main_v114 ((fun a b => concatenate S850000x1 0 [⟨S800000x1, a⟩, ⟨S50000x1, b⟩] concatenates_S800000x1_S50000x1_S850000x1_d0) : (⟨S800000x1, .f32⟩ : BufTy).Contents (Elt F) → (⟨S50000x1, .f32⟩ : BufTy).Contents (Elt F) → (⟨S850000x1, .f32⟩ : BufTy).Contents (Elt F)),
    StableHlo.nullary main_c_22 (constantI S_ 32 0#32),
    StableHlo.unary main_c_22 main_v115 (broadcastInDim S850000 ![] bcast_S_S850000 : (⟨S_, .i32⟩ : BufTy).Contents (Elt F) → (⟨S850000, .i32⟩ : BufTy).Contents (Elt F)),
    StableHlo.binary main_v109 main_v115 main_v116 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v117 (broadcastInDim S850000 ![] bcast_S_S850000 : (⟨S_, .i32⟩ : BufTy).Contents (Elt F) → (⟨S850000, .i32⟩ : BufTy).Contents (Elt F)),
    StableHlo.binary main_v109 main_v117 main_v118 (addi : (⟨S850000, .i32⟩ : BufTy).Contents (Elt F) → (⟨S850000, .i32⟩ : BufTy).Contents (Elt F) → (⟨S850000, .i32⟩ : BufTy).Contents (Elt F)),
    StableHlo.ternary main_v116 main_v118 main_v109 main_v119 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v119 main_v120 (broadcastInDim S850000x1 ![0] bcast_S850000_S850000x1_0 : (⟨S850000, .i32⟩ : BufTy).Contents (Elt F) → (⟨S850000x1, .i32⟩ : BufTy).Contents (Elt F)),
    StableHlo.binary main_arg3 main_v120 main_v121 ((fun x i => Host.gather gather_S50000x3_S850000x1_S850000x3_1_0_n_n_0_1_13 x i) : (⟨S50000x3, .f32⟩ : BufTy).Contents (Elt F) → (⟨S850000x1, .i32⟩ : BufTy).Contents (Elt F) → (⟨S850000x3, .f32⟩ : BufTy).Contents (Elt F)),
    StableHlo.nullary main_c_24 (constantI S_ 32 0#32),
    StableHlo.unary main_c_24 main_v122 (broadcastInDim S850000 ![] bcast_S_S850000 : (⟨S_, .i32⟩ : BufTy).Contents (Elt F) → (⟨S850000, .i32⟩ : BufTy).Contents (Elt F)),
    StableHlo.binary main_v112 main_v122 main_v123 (cmpi .slt : (⟨S850000, .i32⟩ : BufTy).Contents (Elt F) → (⟨S850000, .i32⟩ : BufTy).Contents (Elt F) → (⟨S850000, .i1⟩ : BufTy).Contents (Elt F)),
    StableHlo.nullary main_c_25 (constantI S_ 32 50000#32),
    StableHlo.unary main_c_25 main_v124 (broadcastInDim S850000 ![] bcast_S_S850000 : (⟨S_, .i32⟩ : BufTy).Contents (Elt F) → (⟨S850000, .i32⟩ : BufTy).Contents (Elt F)),
    StableHlo.binary main_v112 main_v124 main_v125 (addi : (⟨S850000, .i32⟩ : BufTy).Contents (Elt F) → (⟨S850000, .i32⟩ : BufTy).Contents (Elt F) → (⟨S850000, .i32⟩ : BufTy).Contents (Elt F)),
    StableHlo.ternary main_v123 main_v125 main_v112 main_v126 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v126 main_v127 (broadcastInDim S850000x1 ![0] bcast_S850000_S850000x1_0 : (⟨S850000, .i32⟩ : BufTy).Contents (Elt F) → (⟨S850000x1, .i32⟩ : BufTy).Contents (Elt F)),
    StableHlo.binary main_arg3 main_v127 main_v128 ((fun x i => Host.gather gather_S50000x3_S850000x1_S850000x3_1_0_n_n_0_1_13 x i) : (⟨S50000x3, .f32⟩ : BufTy).Contents (Elt F) → (⟨S850000x1, .i32⟩ : BufTy).Contents (Elt F) → (⟨S850000x3, .f32⟩ : BufTy).Contents (Elt F)),
    StableHlo.binary main_v121 main_v128 main_v129 (subf : (⟨S850000x3, .f32⟩ : BufTy).Contents (Elt F) → (⟨S850000x3, .f32⟩ : BufTy).Contents (Elt F) → (⟨S850000x3, .f32⟩ : BufTy).Contents (Elt F)),
    StableHlo.binary main_v129 main_v129 main_v130 (mulf : (⟨S850000x3, .f32⟩ : BufTy).Contents (Elt F) → (⟨S850000x3, .f32⟩ : BufTy).Contents (Elt F) → (⟨S850000x3, .f32⟩ : BufTy).Contents (Elt F)),
    StableHlo.nullary main_cst_26 (constant S_ .f32 0x00000000#32),
    StableHlo.binary main_v130 main_cst_26 main_v131 ((fun x v => Host.reduceAdd x v reducesTo_S850000x3_S850000_d1 h_S_) : (⟨S850000x3, .f32⟩ : BufTy).Contents (Elt F) → (⟨S_, .f32⟩ : BufTy).Contents (Elt F) → (⟨S850000, .f32⟩ : BufTy).Contents (Elt F)),
    StableHlo.unary main_v131 main_v132 (broadcastInDim S850000x1 ![0] bcast_S850000_S850000x1_0 : (⟨S850000, .f32⟩ : BufTy).Contents (Elt F) → (⟨S850000x1, .f32⟩ : BufTy).Contents (Elt F)),
    StableHlo.binary main_v114 main_v132 main_v133 ((fun a b => concatenate S850000x2 1 [⟨S850000x1, a⟩, ⟨S850000x1, b⟩] concatenates_S850000x1_S850000x1_S850000x2_d1) : (⟨S850000x1, .f32⟩ : BufTy).Contents (Elt F) → (⟨S850000x1, .f32⟩ : BufTy).Contents (Elt F) → (⟨S850000x2, .f32⟩ : BufTy).Contents (Elt F)),
    StableHlo.nullary main_cst_27 (constant S_ .f32 0x3F800000#32),
    StableHlo.unary main_cst_27 main_v134 (broadcastInDim S50000 ![] bcast_S_S50000 : (⟨S_, .f32⟩ : BufTy).Contents (Elt F) → (⟨S50000, .f32⟩ : BufTy).Contents (Elt F)),
    StableHlo.nullary main_cst_28 (constant S_ .f32 0x00000000#32),
    StableHlo.unary main_cst_28 main_v135 (broadcastInDim S64 ![] bcast_S_S64 : (⟨S_, .f32⟩ : BufTy).Contents (Elt F) → (⟨S64, .f32⟩ : BufTy).Contents (Elt F)),
    StableHlo.unary main_arg4 main_v136 (broadcastInDim S50000x1 ![0] bcast_S50000_S50000x1_0 : (⟨S50000, .i32⟩ : BufTy).Contents (Elt F) → (⟨S50000x1, .i32⟩ : BufTy).Contents (Elt F)),
    StableHlo.ternary main_v135 main_v136 main_v134 main_v137 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_29 (constant S_ .f32 0x3F800000#32),
    StableHlo.unary main_cst_29 main_v138 (broadcastInDim S64 ![] bcast_S_S64 : (⟨S_, .f32⟩ : BufTy).Contents (Elt F) → (⟨S64, .f32⟩ : BufTy).Contents (Elt F)),
    StableHlo.binary main_v137 main_v138 main_v139 (maximumf : (⟨S64, .f32⟩ : BufTy).Contents (Elt F) → (⟨S64, .f32⟩ : BufTy).Contents (Elt F) → (⟨S64, .f32⟩ : BufTy).Contents (Elt F)),
    StableHlo.nullary main_cst_30 (constant S_ .f32 0x42DC0000#32),
    StableHlo.unary main_cst_30 main_v140 (broadcastInDim S64 ![] bcast_S_S64 : (⟨S_, .f32⟩ : BufTy).Contents (Elt F) → (⟨S64, .f32⟩ : BufTy).Contents (Elt F)),
    StableHlo.binary main_v139 main_v140 main_v141 (mulf : (⟨S64, .f32⟩ : BufTy).Contents (Elt F) → (⟨S64, .f32⟩ : BufTy).Contents (Elt F) → (⟨S64, .f32⟩ : BufTy).Contents (Elt F)),
    StableHlo.nullary main_c_31 (constantI S_ 32 0#32),
    StableHlo.unary main_c_31 main_v142 (broadcastInDim S850000 ![] bcast_S_S850000 : (⟨S_, .i32⟩ : BufTy).Contents (Elt F) → (⟨S850000, .i32⟩ : BufTy).Contents (Elt F)),
    StableHlo.binary main_v112 main_v142 main_v143 (cmpi .slt : (⟨S850000, .i32⟩ : BufTy).Contents (Elt F) → (⟨S850000, .i32⟩ : BufTy).Contents (Elt F) → (⟨S850000, .i1⟩ : BufTy).Contents (Elt F)),
    StableHlo.nullary main_c_32 (constantI S_ 32 50000#32),
    StableHlo.unary main_c_32 main_v144 (broadcastInDim S850000 ![] bcast_S_S850000 : (⟨S_, .i32⟩ : BufTy).Contents (Elt F) → (⟨S850000, .i32⟩ : BufTy).Contents (Elt F)) ]
/-- The buffers run 2 writes. -/
abbrev run2_W : List (Ref sig .tc) :=
  [main_v98, main_v99, main_c_21, main_v100, main_v101, main_v102, main_v103, main_v104, main_v105, main_v106, main_v107, main_v108, main_v109, main_v110, main_v111, main_v112, main_cst, main_v113, main_v114, main_c_22, main_v115, main_v116, main_c_23, main_v117, main_v118, main_v119, main_v120, main_v121, main_c_24, main_v122, main_v123, main_c_25, main_v124, main_v125, main_v126, main_v127, main_v128, main_v129, main_v130, main_cst_26, main_v131, main_v132, main_v133, main_cst_27, main_v134, main_cst_28, main_v135, main_v136, main_v137, main_cst_29, main_v138, main_v139, main_cst_30, main_v140, main_v141, main_c_31, main_v142, main_v143, main_c_32, main_v144]

/-- Run 3: statements of window 3, in stage P0. -/
abbrev run3 : List (HloOp τ sig (Elt F)) :=
  [ StableHlo.binary main_v112 main_v144 main_v145 (addi : (⟨S850000, .i32⟩ : BufTy).Contents (Elt F) → (⟨S850000, .i32⟩ : BufTy).Contents (Elt F) → (⟨S850000, .i32⟩ : BufTy).Contents (Elt F)),
    StableHlo.ternary main_v143 main_v145 main_v112 main_v146 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v146 main_v147 (broadcastInDim S850000x1 ![0] bcast_S850000_S850000x1_0 : (⟨S850000, .i32⟩ : BufTy).Contents (Elt F) → (⟨S850000x1, .i32⟩ : BufTy).Contents (Elt F)),
    StableHlo.binary main_v105 main_v147 main_v148 ((fun x i => Host.gather gather_S50000x110_S850000x1_S850000x110_1_0_n_n_0_1_1110 x i) : (⟨S50000x110, .f32⟩ : BufTy).Contents (Elt F) → (⟨S850000x1, .i32⟩ : BufTy).Contents (Elt F) → (⟨S850000x110, .f32⟩ : BufTy).Contents (Elt F)),
    StableHlo.nullary main_c_33 (constantI S_ 32 0#32),
    StableHlo.unary main_c_33 main_v149 (broadcastInDim S850000 ![] bcast_S_S850000 : (⟨S_, .i32⟩ : BufTy).Contents (Elt F) → (⟨S850000, .i32⟩ : BufTy).Contents (Elt F)),
    StableHlo.binary main_v109 main_v149 main_v150 (cmpi .slt : (⟨S850000, .i32⟩ : BufTy).Contents (Elt F) → (⟨S850000, .i32⟩ : BufTy).Contents (Elt F) → (⟨S850000, .i1⟩ : BufTy).Contents (Elt F)),
    StableHlo.nullary main_c_34 (constantI S_ 32 50000#32),
    StableHlo.unary main_c_34 main_v151 (broadcastInDim S850000 ![] bcast_S_S850000 : (⟨S_, .i32⟩ : BufTy).Contents (Elt F) → (⟨S850000, .i32⟩ : BufTy).Contents (Elt F)),
    StableHlo.binary main_v109 main_v151 main_v152 (addi : (⟨S850000, .i32⟩ : BufTy).Contents (Elt F) → (⟨S850000, .i32⟩ : BufTy).Contents (Elt F) → (⟨S850000, .i32⟩ : BufTy).Contents (Elt F)),
    StableHlo.ternary main_v150 main_v152 main_v109 main_v153 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v153 main_v154 (broadcastInDim S850000x1 ![0] bcast_S850000_S850000x1_0 : (⟨S850000, .i32⟩ : BufTy).Contents (Elt F) → (⟨S850000x1, .i32⟩ : BufTy).Contents (Elt F)),
    StableHlo.binary main_v105 main_v154 main_v155 ((fun x i => Host.gather gather_S50000x110_S850000x1_S850000x110_1_0_n_n_0_1_1110 x i) : (⟨S50000x110, .f32⟩ : BufTy).Contents (Elt F) → (⟨S850000x1, .i32⟩ : BufTy).Contents (Elt F) → (⟨S850000x110, .f32⟩ : BufTy).Contents (Elt F)),
    StableHlo.nary ![main_v148, main_v155, main_v133] main_v156 (fun u => concatenate S850000x222 1 [⟨S850000x110, u 0⟩, ⟨S850000x110, u 1⟩, ⟨S850000x2, u 2⟩] concatenates_S850000x110_S850000x110_S850000x2_S850000x222_d1) ]
/-- The buffers run 3 writes. -/
abbrev run3_W : List (Ref sig .tc) :=
  [main_v145, main_v146, main_v147, main_v148, main_c_33, main_v149, main_v150, main_c_34, main_v151, main_v152, main_v153, main_v154, main_v155, main_v156]

/-- Run 4: statements of window 3, in stage PE0. -/
abbrev run4 : List (HloOp τ sig (Elt F)) :=
  [ StableHlo.unary main_arg15 main_v157 ((extractStridedSlice S1x222x128 ![0, 0, 0] · slices_S2x222x128_S1x222x128_0_0_0) : (⟨S2x222x128, .f32⟩ : BufTy).Contents (Elt F) → (⟨S1x222x128, .f32⟩ : BufTy).Contents (Elt F)),
    StableHlo.reshape main_v157 main_v158 rfl shapeCasts_S1x222x128_S222x128,
    StableHlo.binary main_v156 main_v158 main_v159 ((fun l r => Host.dotGeneral dot_S850000x222_S222x128_S850000x128_1_0_0_1_n_n none l r) : (⟨S850000x222, .f32⟩ : BufTy).Contents (Elt F) → (⟨S222x128, .f32⟩ : BufTy).Contents (Elt F) → (⟨S850000x128, .f32⟩ : BufTy).Contents (Elt F)),
    StableHlo.unary main_arg16 main_v160 ((extractStridedSlice S1x128 ![0, 0] · slices_S2x128_S1x128_0_0) : (⟨S2x128, .f32⟩ : BufTy).Contents (Elt F) → (⟨S1x128, .f32⟩ : BufTy).Contents (Elt F)),
    StableHlo.reshape main_v160 main_v161 rfl shapeCasts_S1x128_S128,
    StableHlo.unary main_v161 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S850000x128 ![0, 1] bcast_S1x128_S850000x128_0_1 : (⟨S1x128, .f32⟩ : BufTy).Contents (Elt F) → (⟨S850000x128, .f32⟩ : BufTy).Contents (Elt F)),
    StableHlo.binary main_v159 main_v163 main_v164 (addf : (⟨S850000x128, .f32⟩ : BufTy).Contents (Elt F) → (⟨S850000x128, .f32⟩ : BufTy).Contents (Elt F) → (⟨S850000x128, .f32⟩ : BufTy).Contents (Elt F)),
    StableHlo.TRef.unary (.of main_v164) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S850000x128 ![] bcast_S_S850000x128),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S850000x128 ![] bcast_S_S850000x128),
    StableHlo.TRef.binary main_call0.v4 main_call0.v3 main_call0.v5 Host.divf,
    StableHlo.TRef.binary (.of main_v164) main_call0.v5 main_call0.v6 mulf,
    StableHlo.unary main_arg17 main_v166 ((extractStridedSlice S1x128x32 ![0, 0, 0] · slices_S2x128x32_S1x128x32_0_0_0) : (⟨S2x128x32, .f32⟩ : BufTy).Contents (Elt F) → (⟨S1x128x32, .f32⟩ : BufTy).Contents (Elt F)),
    StableHlo.reshape main_v166 main_v167 rfl shapeCasts_S1x128x32_S128x32,
    StableHlo.binary main_v165 main_v167 main_v168 ((fun l r => Host.dotGeneral dot_S850000x128_S128x32_S850000x32_1_0_0_1_n_n none l r) : (⟨S850000x128, .f32⟩ : BufTy).Contents (Elt F) → (⟨S128x32, .f32⟩ : BufTy).Contents (Elt F) → (⟨S850000x32, .f32⟩ : BufTy).Contents (Elt F)),
    StableHlo.unary main_arg18 main_v169 ((extractStridedSlice S1x32 ![0, 0] · slices_S2x32_S1x32_0_0) : (⟨S2x32, .f32⟩ : BufTy).Contents (Elt F) → (⟨S1x32, .f32⟩ : BufTy).Contents (Elt F)),
    StableHlo.reshape main_v169 main_v170 rfl shapeCasts_S1x32_S32,
    StableHlo.unary main_v170 main_v171 (broadcastInDim S1x32 ![1] bcast_S32_S1x32_1 : (⟨S32, .f32⟩ : BufTy).Contents (Elt F) → (⟨S1x32, .f32⟩ : BufTy).Contents (Elt F)),
    StableHlo.unary main_v171 main_v172 (broadcastInDim S850000x32 ![0, 1] bcast_S1x32_S850000x32_0_1 : (⟨S1x32, .f32⟩ : BufTy).Contents (Elt F) → (⟨S850000x32, .f32⟩ : BufTy).Contents (Elt F)),
    StableHlo.binary main_v168 main_v172 main_v173 (addf : (⟨S850000x32, .f32⟩ : BufTy).Contents (Elt F) → (⟨S850000x32, .f32⟩ : BufTy).Contents (Elt F) → (⟨S850000x32, .f32⟩ : BufTy).Contents (Elt F)),
    StableHlo.TRef.unary (.of main_v173) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S850000x32 ![] bcast_S_S850000x32),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S850000x32 ![] bcast_S_S850000x32),
    StableHlo.TRef.binary main_call1.v4 main_call1.v3 main_call1.v5 Host.divf,
    StableHlo.TRef.binary (.of main_v173) main_call1.v5 main_call1.v6 mulf ]
/-- The buffers run 4 writes. -/
abbrev run4_W : List (Ref sig .tc) :=
  [main_v157, main_v158, main_v159, main_v160, main_v161, main_v162, main_v163, main_v164, main_call0_v0, main_call0_v1, main_call0_cst, main_call0_v2, main_call0_v3, main_call0_cst_0, main_call0_v4, main_call0_v5, main_v165, main_v166, main_v167, main_v168, main_v169, main_v170, main_v171, main_v172, main_v173, main_call1_v0, main_call1_v1, main_call1_cst, main_call1_v2, main_call1_v3, main_call1_cst_0, main_call1_v4, main_call1_v5, main_v174]

/-- Run 5: statements of window 3, in stage P1. -/
abbrev run5 : List (HloOp τ sig (Elt F)) :=
  [ StableHlo.nullary main_cst_35 (constant S_ .f32 0x00000000#32),
    StableHlo.unary main_cst_35 main_v175 (broadcastInDim S50000x32 ![] bcast_S_S50000x32 : (⟨S_, .f32⟩ : BufTy).Contents (Elt F) → (⟨S50000x32, .f32⟩ : BufTy).Contents (Elt F)),
    StableHlo.unary main_v112 main_v176 (broadcastInDim S850000x1 ![0] bcast_S850000_S850000x1_0 : (⟨S850000, .i32⟩ : BufTy).Contents (Elt F) → (⟨S850000x1, .i32⟩ : BufTy).Contents (Elt F)),
    StableHlo.ternary main_v175 main_v176 main_v174 main_v177 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    StableHlo.nullary main_cst_36 (constant S_ .f32 0x00000000#32),
    StableHlo.binary main_v105 main_cst_36 main_v178 ((fun x v => Host.reduceAdd x v reducesTo_S50000x110_S50000_d1 h_S_) : (⟨S50000x110, .f32⟩ : BufTy).Contents (Elt F) → (⟨S_, .f32⟩ : BufTy).Contents (Elt F) → (⟨S50000, .f32⟩ : BufTy).Contents (Elt F)),
    StableHlo.nullary main_cst_37 (constant S_ .f32 0x00000000#32),
    StableHlo.unary main_cst_37 main_v179 (broadcastInDim S64 ![] bcast_S_S64 : (⟨S_, .f32⟩ : BufTy).Contents (Elt F) → (⟨S64, .f32⟩ : BufTy).Contents (Elt F)),
    StableHlo.unary main_arg4 main_v180 (broadcastInDim S50000x1 ![0] bcast_S50000_S50000x1_0 : (⟨S50000, .i32⟩ : BufTy).Contents (Elt F) → (⟨S50000x1, .i32⟩ : BufTy).Contents (Elt F)),
    StableHlo.ternary main_v179 main_v180 main_v178 main_v181 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.binary main_v181 main_v141 main_v182 (Host.divf : (⟨S64, .f32⟩ : BufTy).Contents (Elt F) → (⟨S64, .f32⟩ : BufTy).Contents (Elt F) → (⟨S64, .f32⟩ : BufTy).Contents (Elt F)),
    StableHlo.nullary main_c_38 (constantI S_ 32 0#32),
    StableHlo.unary main_c_38 main_v183 (broadcastInDim S50000 ![] bcast_S_S50000 : (⟨S_, .i32⟩ : BufTy).Contents (Elt F) → (⟨S50000, .i32⟩ : BufTy).Contents (Elt F)),
    StableHlo.binary main_arg4 main_v183 main_v184 (cmpi .slt : (⟨S50000, .i32⟩ : BufTy).Contents (Elt F) → (⟨S50000, .i32⟩ : BufTy).Contents (Elt F) → (⟨S50000, .i1⟩ : BufTy).Contents (Elt F)),
    StableHlo.nullary main_c_39 (constantI S_ 32 64#32),
    StableHlo.unary main_c_39 main_v185 (broadcastInDim S50000 ![] bcast_S_S50000 : (⟨S_, .i32⟩ : BufTy).Contents (Elt F) → (⟨S50000, .i32⟩ : BufTy).Contents (Elt F)),
    StableHlo.binary main_arg4 main_v185 main_v186 (addi : (⟨S50000, .i32⟩ : BufTy).Contents (Elt F) → (⟨S50000, .i32⟩ : BufTy).Contents (Elt F) → (⟨S50000, .i32⟩ : BufTy).Contents (Elt F)),
    StableHlo.ternary main_v184 main_v186 main_arg4 main_v187 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v187 main_v188 (broadcastInDim S50000x1 ![0] bcast_S50000_S50000x1_0 : (⟨S50000, .i32⟩ : BufTy).Contents (Elt F) → (⟨S50000x1, .i32⟩ : BufTy).Contents (Elt F)),
    StableHlo.binary main_v182 main_v188 main_v189 ((fun x i => Host.gather gather_S64_S50000x1_S50000_n_0_n_n_0_1_1 x i) : (⟨S64, .f32⟩ : BufTy).Contents (Elt F) → (⟨S50000x1, .i32⟩ : BufTy).Contents (Elt F) → (⟨S50000, .f32⟩ : BufTy).Contents (Elt F)),
    StableHlo.unary main_v189 main_v190 (broadcastInDim S50000x1 ![0] bcast_S50000_S50000x1_0 : (⟨S50000, .f32⟩ : BufTy).Contents (Elt F) → (⟨S50000x1, .f32⟩ : BufTy).Contents (Elt F)),
    StableHlo.unary main_v190 main_v191 (broadcastInDim S50000x110 ![0, 1] bcast_S50000x1_S50000x110_0_1 : (⟨S50000x1, .f32⟩ : BufTy).Contents (Elt F) → (⟨S50000x110, .f32⟩ : BufTy).Contents (Elt F)),
    StableHlo.binary main_v105 main_v191 main_v192 (subf : (⟨S50000x110, .f32⟩ : BufTy).Contents (Elt F) → (⟨S50000x110, .f32⟩ : BufTy).Contents (Elt F) → (⟨S50000x110, .f32⟩ : BufTy).Contents (Elt F)),
    StableHlo.binary main_v192 main_v192 main_v193 (mulf : (⟨S50000x110, .f32⟩ : BufTy).Contents (Elt F) → (⟨S50000x110, .f32⟩ : BufTy).Contents (Elt F) → (⟨S50000x110, .f32⟩ : BufTy).Contents (Elt F)),
    StableHlo.nullary main_cst_40 (constant S_ .f32 0x00000000#32),
    StableHlo.binary main_v193 main_cst_40 main_v194 ((fun x v => Host.reduceAdd x v reducesTo_S50000x110_S50000_d1 h_S_) : (⟨S50000x110, .f32⟩ : BufTy).Contents (Elt F) → (⟨S_, .f32⟩ : BufTy).Contents (Elt F) → (⟨S50000, .f32⟩ : BufTy).Contents (Elt F)),
    StableHlo.nullary main_cst_41 (constant S_ .f32 0x00000000#32),
    StableHlo.unary main_cst_41 main_v195 (broadcastInDim S64 ![] bcast_S_S64 : (⟨S_, .f32⟩ : BufTy).Contents (Elt F) → (⟨S64, .f32⟩ : BufTy).Contents (Elt F)) ]
/-- The buffers run 5 writes. -/
abbrev run5_W : List (Ref sig .tc) :=
  [main_cst_35, main_v175, main_v176, main_v177, main_cst_36, main_v178, main_cst_37, main_v179, main_v180, main_v181, main_v182, main_c_38, main_v183, main_v184, main_c_39, main_v185, main_v186, main_v187, main_v188, main_v189, main_v190, main_v191, main_v192, main_v193, main_cst_40, main_v194, main_cst_41, main_v195]

/-- Run 6: statements of window 4, in stage P1. -/
abbrev run6 : List (HloOp τ sig (Elt F)) :=
  [ StableHlo.unary main_arg4 main_v196 (broadcastInDim S50000x1 ![0] bcast_S50000_S50000x1_0 : (⟨S50000, .i32⟩ : BufTy).Contents (Elt F) → (⟨S50000x1, .i32⟩ : BufTy).Contents (Elt F)),
    StableHlo.ternary main_v195 main_v196 main_v194 main_v197 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.binary main_v197 main_v141 main_v198 (Host.divf : (⟨S64, .f32⟩ : BufTy).Contents (Elt F) → (⟨S64, .f32⟩ : BufTy).Contents (Elt F) → (⟨S64, .f32⟩ : BufTy).Contents (Elt F)),
    StableHlo.nullary main_c_42 (constantI S_ 32 0#32),
    StableHlo.unary main_c_42 main_v199 (broadcastInDim S50000 ![] bcast_S_S50000 : (⟨S_, .i32⟩ : BufTy).Contents (Elt F) → (⟨S50000, .i32⟩ : BufTy).Contents (Elt F)),
    StableHlo.binary main_arg4 main_v199 main_v200 (cmpi .slt : (⟨S50000, .i32⟩ : BufTy).Contents (Elt F) → (⟨S50000, .i32⟩ : BufTy).Contents (Elt F) → (⟨S50000, .i1⟩ : BufTy).Contents (Elt F)),
    StableHlo.nullary main_c_43 (constantI S_ 32 64#32),
    StableHlo.unary main_c_43 main_v201 (broadcastInDim S50000 ![] bcast_S_S50000 : (⟨S_, .i32⟩ : BufTy).Contents (Elt F) → (⟨S50000, .i32⟩ : BufTy).Contents (Elt F)),
    StableHlo.binary main_arg4 main_v201 main_v202 (addi : (⟨S50000, .i32⟩ : BufTy).Contents (Elt F) → (⟨S50000, .i32⟩ : BufTy).Contents (Elt F) → (⟨S50000, .i32⟩ : BufTy).Contents (Elt F)),
    StableHlo.ternary main_v200 main_v202 main_arg4 main_v203 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v203 main_v204 (broadcastInDim S50000x1 ![0] bcast_S50000_S50000x1_0 : (⟨S50000, .i32⟩ : BufTy).Contents (Elt F) → (⟨S50000x1, .i32⟩ : BufTy).Contents (Elt F)),
    StableHlo.binary main_v198 main_v204 main_v205 ((fun x i => Host.gather gather_S64_S50000x1_S50000_n_0_n_n_0_1_1 x i) : (⟨S64, .f32⟩ : BufTy).Contents (Elt F) → (⟨S50000x1, .i32⟩ : BufTy).Contents (Elt F) → (⟨S50000, .f32⟩ : BufTy).Contents (Elt F)),
    StableHlo.unary main_v205 main_v206 (broadcastInDim S50000x1 ![0] bcast_S50000_S50000x1_0 : (⟨S50000, .f32⟩ : BufTy).Contents (Elt F) → (⟨S50000x1, .f32⟩ : BufTy).Contents (Elt F)),
    StableHlo.unary main_arg23 main_v207 ((extractStridedSlice S1x110 ![0, 0] · slices_S2x110_S1x110_0_0) : (⟨S2x110, .f32⟩ : BufTy).Contents (Elt F) → (⟨S1x110, .f32⟩ : BufTy).Contents (Elt F)),
    StableHlo.reshape main_v207 main_v208 rfl shapeCasts_S1x110_S110,
    StableHlo.nullary main_cst_44 (constant S_ .f32 0x3727C5AC#32),
    StableHlo.unary main_cst_44 main_v209 (broadcastInDim S50000x1 ![] bcast_S_S50000x1 : (⟨S_, .f32⟩ : BufTy).Contents (Elt F) → (⟨S50000x1, .f32⟩ : BufTy).Contents (Elt F)),
    StableHlo.binary main_v206 main_v209 main_v210 (addf : (⟨S50000x1, .f32⟩ : BufTy).Contents (Elt F) → (⟨S50000x1, .f32⟩ : BufTy).Contents (Elt F) → (⟨S50000x1, .f32⟩ : BufTy).Contents (Elt F)),
    StableHlo.unary main_v210 main_v211 (Host.sqrt : (⟨S50000x1, .f32⟩ : BufTy).Contents (Elt F) → (⟨S50000x1, .f32⟩ : BufTy).Contents (Elt F)),
    StableHlo.unary main_v211 main_v212 (broadcastInDim S50000x110 ![0, 1] bcast_S50000x1_S50000x110_0_1 : (⟨S50000x1, .f32⟩ : BufTy).Contents (Elt F) → (⟨S50000x110, .f32⟩ : BufTy).Contents (Elt F)),
    StableHlo.binary main_v192 main_v212 main_v213 (Host.divf : (⟨S50000x110, .f32⟩ : BufTy).Contents (Elt F) → (⟨S50000x110, .f32⟩ : BufTy).Contents (Elt F) → (⟨S50000x110, .f32⟩ : BufTy).Contents (Elt F)),
    StableHlo.unary main_v208 main_v214 (broadcastInDim S1x110 ![1] bcast_S110_S1x110_1 : (⟨S110, .f32⟩ : BufTy).Contents (Elt F) → (⟨S1x110, .f32⟩ : BufTy).Contents (Elt F)),
    StableHlo.unary main_v214 main_v215 (broadcastInDim S50000x110 ![0, 1] bcast_S1x110_S50000x110_0_1 : (⟨S1x110, .f32⟩ : BufTy).Contents (Elt F) → (⟨S50000x110, .f32⟩ : BufTy).Contents (Elt F)),
    StableHlo.binary main_v215 main_v213 main_v216 (mulf : (⟨S50000x110, .f32⟩ : BufTy).Contents (Elt F) → (⟨S50000x110, .f32⟩ : BufTy).Contents (Elt F) → (⟨S50000x110, .f32⟩ : BufTy).Contents (Elt F)),
    StableHlo.unary main_arg24 main_v217 ((extractStridedSlice S1x110 ![0, 0] · slices_S2x110_S1x110_0_0) : (⟨S2x110, .f32⟩ : BufTy).Contents (Elt F) → (⟨S1x110, .f32⟩ : BufTy).Contents (Elt F)),
    StableHlo.reshape main_v217 main_v218 rfl shapeCasts_S1x110_S110,
    StableHlo.unary main_v218 main_v219 (broadcastInDim S1x110 ![1] bcast_S110_S1x110_1 : (⟨S110, .f32⟩ : BufTy).Contents (Elt F) → (⟨S1x110, .f32⟩ : BufTy).Contents (Elt F)),
    StableHlo.unary main_v219 main_v220 (broadcastInDim S50000x110 ![0, 1] bcast_S1x110_S50000x110_0_1 : (⟨S1x110, .f32⟩ : BufTy).Contents (Elt F) → (⟨S50000x110, .f32⟩ : BufTy).Contents (Elt F)),
    StableHlo.binary main_v216 main_v220 main_v221 (addf : (⟨S50000x110, .f32⟩ : BufTy).Contents (Elt F) → (⟨S50000x110, .f32⟩ : BufTy).Contents (Elt F) → (⟨S50000x110, .f32⟩ : BufTy).Contents (Elt F)),
    StableHlo.binary main_v221 main_v177 main_v222 ((fun a b => concatenate S50000x142 1 [⟨S50000x110, a⟩, ⟨S50000x32, b⟩] concatenates_S50000x110_S50000x32_S50000x142_d1) : (⟨S50000x110, .f32⟩ : BufTy).Contents (Elt F) → (⟨S50000x32, .f32⟩ : BufTy).Contents (Elt F) → (⟨S50000x142, .f32⟩ : BufTy).Contents (Elt F)) ]
/-- The buffers run 6 writes. -/
abbrev run6_W : List (Ref sig .tc) :=
  [main_v196, main_v197, main_v198, main_c_42, main_v199, main_v200, main_c_43, main_v201, main_v202, main_v203, main_v204, main_v205, main_v206, main_v207, main_v208, main_cst_44, main_v209, main_v210, main_v211, main_v212, main_v213, main_v214, main_v215, main_v216, main_v217, main_v218, main_v219, main_v220, main_v221, main_v222]

/-- Run 7: statements of window 4, in stage PN0. -/
abbrev run7 : List (HloOp τ sig (Elt F)) :=
  [ StableHlo.unary main_arg19 main_v223 ((extractStridedSlice S1x142x128 ![0, 0, 0] · slices_S2x142x128_S1x142x128_0_0_0) : (⟨S2x142x128, .f32⟩ : BufTy).Contents (Elt F) → (⟨S1x142x128, .f32⟩ : BufTy).Contents (Elt F)),
    StableHlo.reshape main_v223 main_v224 rfl shapeCasts_S1x142x128_S142x128,
    StableHlo.binary main_v222 main_v224 main_v225 ((fun l r => Host.dotGeneral dot_S50000x142_S142x128_S50000x128_1_0_0_1_n_n none l r) : (⟨S50000x142, .f32⟩ : BufTy).Contents (Elt F) → (⟨S142x128, .f32⟩ : BufTy).Contents (Elt F) → (⟨S50000x128, .f32⟩ : BufTy).Contents (Elt F)),
    StableHlo.unary main_arg20 main_v226 ((extractStridedSlice S1x128 ![0, 0] · slices_S2x128_S1x128_0_0) : (⟨S2x128, .f32⟩ : BufTy).Contents (Elt F) → (⟨S1x128, .f32⟩ : BufTy).Contents (Elt F)),
    StableHlo.reshape main_v226 main_v227 rfl shapeCasts_S1x128_S128,
    StableHlo.unary main_v227 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S50000x128 ![0, 1] bcast_S1x128_S50000x128_0_1 : (⟨S1x128, .f32⟩ : BufTy).Contents (Elt F) → (⟨S50000x128, .f32⟩ : BufTy).Contents (Elt F)),
    StableHlo.binary main_v225 main_v229 main_v230 (addf : (⟨S50000x128, .f32⟩ : BufTy).Contents (Elt F) → (⟨S50000x128, .f32⟩ : BufTy).Contents (Elt F) → (⟨S50000x128, .f32⟩ : BufTy).Contents (Elt F)),
    StableHlo.TRef.unary (.of main_v230) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S50000x128 ![] bcast_S_S50000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S50000x128 ![] bcast_S_S50000x128),
    StableHlo.TRef.binary main_call2.v4 main_call2.v3 main_call2.v5 Host.divf,
    StableHlo.TRef.binary (.of main_v230) main_call2.v5 main_call2.v6 mulf,
    StableHlo.unary main_arg21 main_v232 ((extractStridedSlice S1x128x110 ![0, 0, 0] · slices_S2x128x110_S1x128x110_0_0_0) : (⟨S2x128x110, .f32⟩ : BufTy).Contents (Elt F) → (⟨S1x128x110, .f32⟩ : BufTy).Contents (Elt F)),
    StableHlo.reshape main_v232 main_v233 rfl shapeCasts_S1x128x110_S128x110,
    StableHlo.binary main_v231 main_v233 main_v234 ((fun l r => Host.dotGeneral dot_S50000x128_S128x110_S50000x110_1_0_0_1_n_n none l r) : (⟨S50000x128, .f32⟩ : BufTy).Contents (Elt F) → (⟨S128x110, .f32⟩ : BufTy).Contents (Elt F) → (⟨S50000x110, .f32⟩ : BufTy).Contents (Elt F)),
    StableHlo.unary main_arg22 main_v235 ((extractStridedSlice S1x110 ![0, 0] · slices_S2x110_S1x110_0_0) : (⟨S2x110, .f32⟩ : BufTy).Contents (Elt F) → (⟨S1x110, .f32⟩ : BufTy).Contents (Elt F)),
    StableHlo.reshape main_v235 main_v236 rfl shapeCasts_S1x110_S110,
    StableHlo.unary main_v236 main_v237 (broadcastInDim S1x110 ![1] bcast_S110_S1x110_1 : (⟨S110, .f32⟩ : BufTy).Contents (Elt F) → (⟨S1x110, .f32⟩ : BufTy).Contents (Elt F)),
    StableHlo.unary main_v237 main_v238 (broadcastInDim S50000x110 ![0, 1] bcast_S1x110_S50000x110_0_1 : (⟨S1x110, .f32⟩ : BufTy).Contents (Elt F) → (⟨S50000x110, .f32⟩ : BufTy).Contents (Elt F)),
    StableHlo.binary main_v234 main_v238 main_v239 (addf : (⟨S50000x110, .f32⟩ : BufTy).Contents (Elt F) → (⟨S50000x110, .f32⟩ : BufTy).Contents (Elt F) → (⟨S50000x110, .f32⟩ : BufTy).Contents (Elt F)),
    StableHlo.binary main_v105 main_v239 main_v240 (addf : (⟨S50000x110, .f32⟩ : BufTy).Contents (Elt F) → (⟨S50000x110, .f32⟩ : BufTy).Contents (Elt F) → (⟨S50000x110, .f32⟩ : BufTy).Contents (Elt F)) ]
/-- The buffers run 7 writes. -/
abbrev run7_W : List (Ref sig .tc) :=
  [main_v223, main_v224, main_v225, main_v226, main_v227, main_v228, main_v229, main_v230, main_call2_v0, main_call2_v1, main_call2_cst, main_call2_v2, main_call2_v3, main_call2_cst_0, main_call2_v4, main_call2_v5, main_v231, main_v232, main_v233, main_v234, main_v235, main_v236, main_v237, main_v238, main_v239, main_v240]

/-- Run 8: statements of window 4, in stage P2. -/
abbrev run8 : List (HloOp τ sig (Elt F)) :=
  [ StableHlo.nullary main_c_45 (constantI S_ 32 0#32),
    StableHlo.unary main_c_45 main_v241 (broadcastInDim S850000 ![] bcast_S_S850000 : (⟨S_, .i32⟩ : BufTy).Contents (Elt F) → (⟨S850000, .i32⟩ : BufTy).Contents (Elt F)),
    StableHlo.binary main_v112 main_v241 main_v242 (cmpi .slt : (⟨S850000, .i32⟩ : BufTy).Contents (Elt F) → (⟨S850000, .i32⟩ : BufTy).Contents (Elt F) → (⟨S850000, .i1⟩ : BufTy).Contents (Elt F)),
    StableHlo.nullary main_c_46 (constantI S_ 32 50000#32),
    StableHlo.unary main_c_46 main_v243 (broadcastInDim S850000 ![] bcast_S_S850000 : (⟨S_, .i32⟩ : BufTy).Contents (Elt F) → (⟨S850000, .i32⟩ : BufTy).Contents (Elt F)),
    StableHlo.binary main_v112 main_v243 main_v244 (addi : (⟨S850000, .i32⟩ : BufTy).Contents (Elt F) → (⟨S850000, .i32⟩ : BufTy).Contents (Elt F) → (⟨S850000, .i32⟩ : BufTy).Contents (Elt F)),
    StableHlo.ternary main_v242 main_v244 main_v112 main_v245 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v245 main_v246 (broadcastInDim S850000x1 ![0] bcast_S850000_S850000x1_0 : (⟨S850000, .i32⟩ : BufTy).Contents (Elt F) → (⟨S850000x1, .i32⟩ : BufTy).Contents (Elt F)),
    StableHlo.binary main_v240 main_v246 main_v247 ((fun x i => Host.gather gather_S50000x110_S850000x1_S850000x110_1_0_n_n_0_1_1110 x i) : (⟨S50000x110, .f32⟩ : BufTy).Contents (Elt F) → (⟨S850000x1, .i32⟩ : BufTy).Contents (Elt F) → (⟨S850000x110, .f32⟩ : BufTy).Contents (Elt F)),
    StableHlo.nullary main_c_47 (constantI S_ 32 0#32),
    StableHlo.unary main_c_47 main_v248 (broadcastInDim S850000 ![] bcast_S_S850000 : (⟨S_, .i32⟩ : BufTy).Contents (Elt F) → (⟨S850000, .i32⟩ : BufTy).Contents (Elt F)),
    StableHlo.binary main_v109 main_v248 main_v249 (cmpi .slt : (⟨S850000, .i32⟩ : BufTy).Contents (Elt F) → (⟨S850000, .i32⟩ : BufTy).Contents (Elt F) → (⟨S850000, .i1⟩ : BufTy).Contents (Elt F)) ]
/-- The buffers run 8 writes. -/
abbrev run8_W : List (Ref sig .tc) :=
  [main_c_45, main_v241, main_v242, main_c_46, main_v243, main_v244, main_v245, main_v246, main_v247, main_c_47, main_v248, main_v249]

/-- Run 9: statements of window 5, in stage P2. -/
abbrev run9 : List (HloOp τ sig (Elt F)) :=
  [ StableHlo.nullary main_c_48 (constantI S_ 32 50000#32),
    StableHlo.unary main_c_48 main_v250 (broadcastInDim S850000 ![] bcast_S_S850000 : (⟨S_, .i32⟩ : BufTy).Contents (Elt F) → (⟨S850000, .i32⟩ : BufTy).Contents (Elt F)),
    StableHlo.binary main_v109 main_v250 main_v251 (addi : (⟨S850000, .i32⟩ : BufTy).Contents (Elt F) → (⟨S850000, .i32⟩ : BufTy).Contents (Elt F) → (⟨S850000, .i32⟩ : BufTy).Contents (Elt F)),
    StableHlo.ternary main_v249 main_v251 main_v109 main_v252 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v252 main_v253 (broadcastInDim S850000x1 ![0] bcast_S850000_S850000x1_0 : (⟨S850000, .i32⟩ : BufTy).Contents (Elt F) → (⟨S850000x1, .i32⟩ : BufTy).Contents (Elt F)),
    StableHlo.binary main_v240 main_v253 main_v254 ((fun x i => Host.gather gather_S50000x110_S850000x1_S850000x110_1_0_n_n_0_1_1110 x i) : (⟨S50000x110, .f32⟩ : BufTy).Contents (Elt F) → (⟨S850000x1, .i32⟩ : BufTy).Contents (Elt F) → (⟨S850000x110, .f32⟩ : BufTy).Contents (Elt F)),
    StableHlo.nary ![main_v247, main_v254, main_v133] main_v255 (fun u => concatenate S850000x222 1 [⟨S850000x110, u 0⟩, ⟨S850000x110, u 1⟩, ⟨S850000x2, u 2⟩] concatenates_S850000x110_S850000x110_S850000x2_S850000x222_d1) ]
/-- The buffers run 9 writes. -/
abbrev run9_W : List (Ref sig .tc) :=
  [main_c_48, main_v250, main_v251, main_v252, main_v253, main_v254, main_v255]

/-- Run 10: statements of window 5, in stage PE1. -/
abbrev run10 : List (HloOp τ sig (Elt F)) :=
  [ StableHlo.unary main_arg15 main_v256 ((extractStridedSlice S1x222x128 ![1, 0, 0] · slices_S2x222x128_S1x222x128_1_0_0) : (⟨S2x222x128, .f32⟩ : BufTy).Contents (Elt F) → (⟨S1x222x128, .f32⟩ : BufTy).Contents (Elt F)),
    StableHlo.reshape main_v256 main_v257 rfl shapeCasts_S1x222x128_S222x128,
    StableHlo.binary main_v255 main_v257 main_v258 ((fun l r => Host.dotGeneral dot_S850000x222_S222x128_S850000x128_1_0_0_1_n_n none l r) : (⟨S850000x222, .f32⟩ : BufTy).Contents (Elt F) → (⟨S222x128, .f32⟩ : BufTy).Contents (Elt F) → (⟨S850000x128, .f32⟩ : BufTy).Contents (Elt F)),
    StableHlo.unary main_arg16 main_v259 ((extractStridedSlice S1x128 ![1, 0] · slices_S2x128_S1x128_1_0) : (⟨S2x128, .f32⟩ : BufTy).Contents (Elt F) → (⟨S1x128, .f32⟩ : BufTy).Contents (Elt F)),
    StableHlo.reshape main_v259 main_v260 rfl shapeCasts_S1x128_S128,
    StableHlo.unary main_v260 main_v261 (broadcastInDim S1x128 ![1] bcast_S128_S1x128_1 : (⟨S128, .f32⟩ : BufTy).Contents (Elt F) → (⟨S1x128, .f32⟩ : BufTy).Contents (Elt F)),
    StableHlo.unary main_v261 main_v262 (broadcastInDim S850000x128 ![0, 1] bcast_S1x128_S850000x128_0_1 : (⟨S1x128, .f32⟩ : BufTy).Contents (Elt F) → (⟨S850000x128, .f32⟩ : BufTy).Contents (Elt F)),
    StableHlo.binary main_v258 main_v262 main_v263 (addf : (⟨S850000x128, .f32⟩ : BufTy).Contents (Elt F) → (⟨S850000x128, .f32⟩ : BufTy).Contents (Elt F) → (⟨S850000x128, .f32⟩ : BufTy).Contents (Elt F)),
    StableHlo.TRef.unary (.of main_v263) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S850000x128 ![] bcast_S_S850000x128),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S850000x128 ![] bcast_S_S850000x128),
    StableHlo.TRef.binary main_call3.v4 main_call3.v3 main_call3.v5 Host.divf,
    StableHlo.TRef.binary (.of main_v263) main_call3.v5 main_call3.v6 mulf,
    StableHlo.unary main_arg17 main_v265 ((extractStridedSlice S1x128x32 ![1, 0, 0] · slices_S2x128x32_S1x128x32_1_0_0) : (⟨S2x128x32, .f32⟩ : BufTy).Contents (Elt F) → (⟨S1x128x32, .f32⟩ : BufTy).Contents (Elt F)),
    StableHlo.reshape main_v265 main_v266 rfl shapeCasts_S1x128x32_S128x32,
    StableHlo.binary main_v264 main_v266 main_v267 ((fun l r => Host.dotGeneral dot_S850000x128_S128x32_S850000x32_1_0_0_1_n_n none l r) : (⟨S850000x128, .f32⟩ : BufTy).Contents (Elt F) → (⟨S128x32, .f32⟩ : BufTy).Contents (Elt F) → (⟨S850000x32, .f32⟩ : BufTy).Contents (Elt F)),
    StableHlo.unary main_arg18 main_v268 ((extractStridedSlice S1x32 ![1, 0] · slices_S2x32_S1x32_1_0) : (⟨S2x32, .f32⟩ : BufTy).Contents (Elt F) → (⟨S1x32, .f32⟩ : BufTy).Contents (Elt F)),
    StableHlo.reshape main_v268 main_v269 rfl shapeCasts_S1x32_S32,
    StableHlo.unary main_v269 main_v270 (broadcastInDim S1x32 ![1] bcast_S32_S1x32_1 : (⟨S32, .f32⟩ : BufTy).Contents (Elt F) → (⟨S1x32, .f32⟩ : BufTy).Contents (Elt F)),
    StableHlo.unary main_v270 main_v271 (broadcastInDim S850000x32 ![0, 1] bcast_S1x32_S850000x32_0_1 : (⟨S1x32, .f32⟩ : BufTy).Contents (Elt F) → (⟨S850000x32, .f32⟩ : BufTy).Contents (Elt F)),
    StableHlo.binary main_v267 main_v271 main_v272 (addf : (⟨S850000x32, .f32⟩ : BufTy).Contents (Elt F) → (⟨S850000x32, .f32⟩ : BufTy).Contents (Elt F) → (⟨S850000x32, .f32⟩ : BufTy).Contents (Elt F)),
    StableHlo.TRef.unary (.of main_v272) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S850000x32 ![] bcast_S_S850000x32),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S850000x32 ![] bcast_S_S850000x32),
    StableHlo.TRef.binary main_call4.v4 main_call4.v3 main_call4.v5 Host.divf,
    StableHlo.TRef.binary (.of main_v272) main_call4.v5 main_call4.v6 mulf ]
/-- The buffers run 10 writes. -/
abbrev run10_W : List (Ref sig .tc) :=
  [main_v256, main_v257, main_v258, main_v259, main_v260, main_v261, main_v262, main_v263, main_call3_v0, main_call3_v1, main_call3_cst, main_call3_v2, main_call3_v3, main_call3_cst_0, main_call3_v4, main_call3_v5, main_v264, main_v265, main_v266, main_v267, main_v268, main_v269, main_v270, main_v271, main_v272, main_call4_v0, main_call4_v1, main_call4_cst, main_call4_v2, main_call4_v3, main_call4_cst_0, main_call4_v4, main_call4_v5, main_v273]

/-- Run 11: statements of window 5, in stage P3. -/
abbrev run11 : List (HloOp τ sig (Elt F)) :=
  [ StableHlo.nullary main_cst_49 (constant S_ .f32 0x00000000#32),
    StableHlo.unary main_cst_49 main_v274 (broadcastInDim S50000x32 ![] bcast_S_S50000x32 : (⟨S_, .f32⟩ : BufTy).Contents (Elt F) → (⟨S50000x32, .f32⟩ : BufTy).Contents (Elt F)),
    StableHlo.unary main_v112 main_v275 (broadcastInDim S850000x1 ![0] bcast_S850000_S850000x1_0 : (⟨S850000, .i32⟩ : BufTy).Contents (Elt F) → (⟨S850000x1, .i32⟩ : BufTy).Contents (Elt F)),
    StableHlo.ternary main_v274 main_v275 main_v273 main_v276 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    StableHlo.nullary main_cst_50 (constant S_ .f32 0x00000000#32),
    StableHlo.binary main_v240 main_cst_50 main_v277 ((fun x v => Host.reduceAdd x v reducesTo_S50000x110_S50000_d1 h_S_) : (⟨S50000x110, .f32⟩ : BufTy).Contents (Elt F) → (⟨S_, .f32⟩ : BufTy).Contents (Elt F) → (⟨S50000, .f32⟩ : BufTy).Contents (Elt F)),
    StableHlo.nullary main_cst_51 (constant S_ .f32 0x00000000#32),
    StableHlo.unary main_cst_51 main_v278 (broadcastInDim S64 ![] bcast_S_S64 : (⟨S_, .f32⟩ : BufTy).Contents (Elt F) → (⟨S64, .f32⟩ : BufTy).Contents (Elt F)),
    StableHlo.unary main_arg4 main_v279 (broadcastInDim S50000x1 ![0] bcast_S50000_S50000x1_0 : (⟨S50000, .i32⟩ : BufTy).Contents (Elt F) → (⟨S50000x1, .i32⟩ : BufTy).Contents (Elt F)),
    StableHlo.ternary main_v278 main_v279 main_v277 main_v280 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.binary main_v280 main_v141 main_v281 (Host.divf : (⟨S64, .f32⟩ : BufTy).Contents (Elt F) → (⟨S64, .f32⟩ : BufTy).Contents (Elt F) → (⟨S64, .f32⟩ : BufTy).Contents (Elt F)),
    StableHlo.nullary main_c_52 (constantI S_ 32 0#32),
    StableHlo.unary main_c_52 main_v282 (broadcastInDim S50000 ![] bcast_S_S50000 : (⟨S_, .i32⟩ : BufTy).Contents (Elt F) → (⟨S50000, .i32⟩ : BufTy).Contents (Elt F)),
    StableHlo.binary main_arg4 main_v282 main_v283 (cmpi .slt : (⟨S50000, .i32⟩ : BufTy).Contents (Elt F) → (⟨S50000, .i32⟩ : BufTy).Contents (Elt F) → (⟨S50000, .i1⟩ : BufTy).Contents (Elt F)),
    StableHlo.nullary main_c_53 (constantI S_ 32 64#32),
    StableHlo.unary main_c_53 main_v284 (broadcastInDim S50000 ![] bcast_S_S50000 : (⟨S_, .i32⟩ : BufTy).Contents (Elt F) → (⟨S50000, .i32⟩ : BufTy).Contents (Elt F)),
    StableHlo.binary main_arg4 main_v284 main_v285 (addi : (⟨S50000, .i32⟩ : BufTy).Contents (Elt F) → (⟨S50000, .i32⟩ : BufTy).Contents (Elt F) → (⟨S50000, .i32⟩ : BufTy).Contents (Elt F)),
    StableHlo.ternary main_v283 main_v285 main_arg4 main_v286 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v286 main_v287 (broadcastInDim S50000x1 ![0] bcast_S50000_S50000x1_0 : (⟨S50000, .i32⟩ : BufTy).Contents (Elt F) → (⟨S50000x1, .i32⟩ : BufTy).Contents (Elt F)),
    StableHlo.binary main_v281 main_v287 main_v288 ((fun x i => Host.gather gather_S64_S50000x1_S50000_n_0_n_n_0_1_1 x i) : (⟨S64, .f32⟩ : BufTy).Contents (Elt F) → (⟨S50000x1, .i32⟩ : BufTy).Contents (Elt F) → (⟨S50000, .f32⟩ : BufTy).Contents (Elt F)),
    StableHlo.unary main_v288 main_v289 (broadcastInDim S50000x1 ![0] bcast_S50000_S50000x1_0 : (⟨S50000, .f32⟩ : BufTy).Contents (Elt F) → (⟨S50000x1, .f32⟩ : BufTy).Contents (Elt F)),
    StableHlo.unary main_v289 main_v290 (broadcastInDim S50000x110 ![0, 1] bcast_S50000x1_S50000x110_0_1 : (⟨S50000x1, .f32⟩ : BufTy).Contents (Elt F) → (⟨S50000x110, .f32⟩ : BufTy).Contents (Elt F)),
    StableHlo.binary main_v240 main_v290 main_v291 (subf : (⟨S50000x110, .f32⟩ : BufTy).Contents (Elt F) → (⟨S50000x110, .f32⟩ : BufTy).Contents (Elt F) → (⟨S50000x110, .f32⟩ : BufTy).Contents (Elt F)),
    StableHlo.binary main_v291 main_v291 main_v292 (mulf : (⟨S50000x110, .f32⟩ : BufTy).Contents (Elt F) → (⟨S50000x110, .f32⟩ : BufTy).Contents (Elt F) → (⟨S50000x110, .f32⟩ : BufTy).Contents (Elt F)),
    StableHlo.nullary main_cst_54 (constant S_ .f32 0x00000000#32),
    StableHlo.binary main_v292 main_cst_54 main_v293 ((fun x v => Host.reduceAdd x v reducesTo_S50000x110_S50000_d1 h_S_) : (⟨S50000x110, .f32⟩ : BufTy).Contents (Elt F) → (⟨S_, .f32⟩ : BufTy).Contents (Elt F) → (⟨S50000, .f32⟩ : BufTy).Contents (Elt F)),
    StableHlo.nullary main_cst_55 (constant S_ .f32 0x00000000#32),
    StableHlo.unary main_cst_55 main_v294 (broadcastInDim S64 ![] bcast_S_S64 : (⟨S_, .f32⟩ : BufTy).Contents (Elt F) → (⟨S64, .f32⟩ : BufTy).Contents (Elt F)),
    StableHlo.unary main_arg4 main_v295 (broadcastInDim S50000x1 ![0] bcast_S50000_S50000x1_0 : (⟨S50000, .i32⟩ : BufTy).Contents (Elt F) → (⟨S50000x1, .i32⟩ : BufTy).Contents (Elt F)),
    StableHlo.ternary main_v294 main_v295 main_v293 main_v296 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.binary main_v296 main_v141 main_v297 (Host.divf : (⟨S64, .f32⟩ : BufTy).Contents (Elt F) → (⟨S64, .f32⟩ : BufTy).Contents (Elt F) → (⟨S64, .f32⟩ : BufTy).Contents (Elt F)),
    StableHlo.nullary main_c_56 (constantI S_ 32 0#32),
    StableHlo.unary main_c_56 main_v298 (broadcastInDim S50000 ![] bcast_S_S50000 : (⟨S_, .i32⟩ : BufTy).Contents (Elt F) → (⟨S50000, .i32⟩ : BufTy).Contents (Elt F)),
    StableHlo.binary main_arg4 main_v298 main_v299 (cmpi .slt : (⟨S50000, .i32⟩ : BufTy).Contents (Elt F) → (⟨S50000, .i32⟩ : BufTy).Contents (Elt F) → (⟨S50000, .i1⟩ : BufTy).Contents (Elt F)),
    StableHlo.nullary main_c_57 (constantI S_ 32 64#32) ]
/-- The buffers run 11 writes. -/
abbrev run11_W : List (Ref sig .tc) :=
  [main_cst_49, main_v274, main_v275, main_v276, main_cst_50, main_v277, main_cst_51, main_v278, main_v279, main_v280, main_v281, main_c_52, main_v282, main_v283, main_c_53, main_v284, main_v285, main_v286, main_v287, main_v288, main_v289, main_v290, main_v291, main_v292, main_cst_54, main_v293, main_cst_55, main_v294, main_v295, main_v296, main_v297, main_c_56, main_v298, main_v299, main_c_57]

/-- Run 12: statements of window 6, in stage P3. -/
abbrev run12 : List (HloOp τ sig (Elt F)) :=
  [ StableHlo.unary main_c_57 main_v300 (broadcastInDim S50000 ![] bcast_S_S50000 : (⟨S_, .i32⟩ : BufTy).Contents (Elt F) → (⟨S50000, .i32⟩ : BufTy).Contents (Elt F)),
    StableHlo.binary main_arg4 main_v300 main_v301 (addi : (⟨S50000, .i32⟩ : BufTy).Contents (Elt F) → (⟨S50000, .i32⟩ : BufTy).Contents (Elt F) → (⟨S50000, .i32⟩ : BufTy).Contents (Elt F)),
    StableHlo.ternary main_v299 main_v301 main_arg4 main_v302 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v302 main_v303 (broadcastInDim S50000x1 ![0] bcast_S50000_S50000x1_0 : (⟨S50000, .i32⟩ : BufTy).Contents (Elt F) → (⟨S50000x1, .i32⟩ : BufTy).Contents (Elt F)),
    StableHlo.binary main_v297 main_v303 main_v304 ((fun x i => Host.gather gather_S64_S50000x1_S50000_n_0_n_n_0_1_1 x i) : (⟨S64, .f32⟩ : BufTy).Contents (Elt F) → (⟨S50000x1, .i32⟩ : BufTy).Contents (Elt F) → (⟨S50000, .f32⟩ : BufTy).Contents (Elt F)),
    StableHlo.unary main_v304 main_v305 (broadcastInDim S50000x1 ![0] bcast_S50000_S50000x1_0 : (⟨S50000, .f32⟩ : BufTy).Contents (Elt F) → (⟨S50000x1, .f32⟩ : BufTy).Contents (Elt F)),
    StableHlo.unary main_arg23 main_v306 ((extractStridedSlice S1x110 ![1, 0] · slices_S2x110_S1x110_1_0) : (⟨S2x110, .f32⟩ : BufTy).Contents (Elt F) → (⟨S1x110, .f32⟩ : BufTy).Contents (Elt F)),
    StableHlo.reshape main_v306 main_v307 rfl shapeCasts_S1x110_S110,
    StableHlo.nullary main_cst_58 (constant S_ .f32 0x3727C5AC#32),
    StableHlo.unary main_cst_58 main_v308 (broadcastInDim S50000x1 ![] bcast_S_S50000x1 : (⟨S_, .f32⟩ : BufTy).Contents (Elt F) → (⟨S50000x1, .f32⟩ : BufTy).Contents (Elt F)),
    StableHlo.binary main_v305 main_v308 main_v309 (addf : (⟨S50000x1, .f32⟩ : BufTy).Contents (Elt F) → (⟨S50000x1, .f32⟩ : BufTy).Contents (Elt F) → (⟨S50000x1, .f32⟩ : BufTy).Contents (Elt F)),
    StableHlo.unary main_v309 main_v310 (Host.sqrt : (⟨S50000x1, .f32⟩ : BufTy).Contents (Elt F) → (⟨S50000x1, .f32⟩ : BufTy).Contents (Elt F)),
    StableHlo.unary main_v310 main_v311 (broadcastInDim S50000x110 ![0, 1] bcast_S50000x1_S50000x110_0_1 : (⟨S50000x1, .f32⟩ : BufTy).Contents (Elt F) → (⟨S50000x110, .f32⟩ : BufTy).Contents (Elt F)),
    StableHlo.binary main_v291 main_v311 main_v312 (Host.divf : (⟨S50000x110, .f32⟩ : BufTy).Contents (Elt F) → (⟨S50000x110, .f32⟩ : BufTy).Contents (Elt F) → (⟨S50000x110, .f32⟩ : BufTy).Contents (Elt F)),
    StableHlo.unary main_v307 main_v313 (broadcastInDim S1x110 ![1] bcast_S110_S1x110_1 : (⟨S110, .f32⟩ : BufTy).Contents (Elt F) → (⟨S1x110, .f32⟩ : BufTy).Contents (Elt F)),
    StableHlo.unary main_v313 main_v314 (broadcastInDim S50000x110 ![0, 1] bcast_S1x110_S50000x110_0_1 : (⟨S1x110, .f32⟩ : BufTy).Contents (Elt F) → (⟨S50000x110, .f32⟩ : BufTy).Contents (Elt F)),
    StableHlo.binary main_v314 main_v312 main_v315 (mulf : (⟨S50000x110, .f32⟩ : BufTy).Contents (Elt F) → (⟨S50000x110, .f32⟩ : BufTy).Contents (Elt F) → (⟨S50000x110, .f32⟩ : BufTy).Contents (Elt F)),
    StableHlo.unary main_arg24 main_v316 ((extractStridedSlice S1x110 ![1, 0] · slices_S2x110_S1x110_1_0) : (⟨S2x110, .f32⟩ : BufTy).Contents (Elt F) → (⟨S1x110, .f32⟩ : BufTy).Contents (Elt F)),
    StableHlo.reshape main_v316 main_v317 rfl shapeCasts_S1x110_S110,
    StableHlo.unary main_v317 main_v318 (broadcastInDim S1x110 ![1] bcast_S110_S1x110_1 : (⟨S110, .f32⟩ : BufTy).Contents (Elt F) → (⟨S1x110, .f32⟩ : BufTy).Contents (Elt F)),
    StableHlo.unary main_v318 main_v319 (broadcastInDim S50000x110 ![0, 1] bcast_S1x110_S50000x110_0_1 : (⟨S1x110, .f32⟩ : BufTy).Contents (Elt F) → (⟨S50000x110, .f32⟩ : BufTy).Contents (Elt F)),
    StableHlo.binary main_v315 main_v319 main_v320 (addf : (⟨S50000x110, .f32⟩ : BufTy).Contents (Elt F) → (⟨S50000x110, .f32⟩ : BufTy).Contents (Elt F) → (⟨S50000x110, .f32⟩ : BufTy).Contents (Elt F)),
    StableHlo.binary main_v320 main_v276 main_v321 ((fun a b => concatenate S50000x142 1 [⟨S50000x110, a⟩, ⟨S50000x32, b⟩] concatenates_S50000x110_S50000x32_S50000x142_d1) : (⟨S50000x110, .f32⟩ : BufTy).Contents (Elt F) → (⟨S50000x32, .f32⟩ : BufTy).Contents (Elt F) → (⟨S50000x142, .f32⟩ : BufTy).Contents (Elt F)) ]
/-- The buffers run 12 writes. -/
abbrev run12_W : List (Ref sig .tc) :=
  [main_v300, main_v301, main_v302, main_v303, main_v304, main_v305, main_v306, main_v307, main_cst_58, main_v308, main_v309, main_v310, main_v311, main_v312, main_v313, main_v314, main_v315, main_v316, main_v317, main_v318, main_v319, main_v320, main_v321]

/-- Run 13: statements of window 6, in stage PN1. -/
abbrev run13 : List (HloOp τ sig (Elt F)) :=
  [ StableHlo.unary main_arg19 main_v322 ((extractStridedSlice S1x142x128 ![1, 0, 0] · slices_S2x142x128_S1x142x128_1_0_0) : (⟨S2x142x128, .f32⟩ : BufTy).Contents (Elt F) → (⟨S1x142x128, .f32⟩ : BufTy).Contents (Elt F)),
    StableHlo.reshape main_v322 main_v323 rfl shapeCasts_S1x142x128_S142x128,
    StableHlo.binary main_v321 main_v323 main_v324 ((fun l r => Host.dotGeneral dot_S50000x142_S142x128_S50000x128_1_0_0_1_n_n none l r) : (⟨S50000x142, .f32⟩ : BufTy).Contents (Elt F) → (⟨S142x128, .f32⟩ : BufTy).Contents (Elt F) → (⟨S50000x128, .f32⟩ : BufTy).Contents (Elt F)),
    StableHlo.unary main_arg20 main_v325 ((extractStridedSlice S1x128 ![1, 0] · slices_S2x128_S1x128_1_0) : (⟨S2x128, .f32⟩ : BufTy).Contents (Elt F) → (⟨S1x128, .f32⟩ : BufTy).Contents (Elt F)),
    StableHlo.reshape main_v325 main_v326 rfl shapeCasts_S1x128_S128,
    StableHlo.unary main_v326 main_v327 (broadcastInDim S1x128 ![1] bcast_S128_S1x128_1 : (⟨S128, .f32⟩ : BufTy).Contents (Elt F) → (⟨S1x128, .f32⟩ : BufTy).Contents (Elt F)),
    StableHlo.unary main_v327 main_v328 (broadcastInDim S50000x128 ![0, 1] bcast_S1x128_S50000x128_0_1 : (⟨S1x128, .f32⟩ : BufTy).Contents (Elt F) → (⟨S50000x128, .f32⟩ : BufTy).Contents (Elt F)),
    StableHlo.binary main_v324 main_v328 main_v329 (addf : (⟨S50000x128, .f32⟩ : BufTy).Contents (Elt F) → (⟨S50000x128, .f32⟩ : BufTy).Contents (Elt F) → (⟨S50000x128, .f32⟩ : BufTy).Contents (Elt F)),
    StableHlo.TRef.unary (.of main_v329) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S50000x128 ![] bcast_S_S50000x128),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S50000x128 ![] bcast_S_S50000x128),
    StableHlo.TRef.binary main_call5.v4 main_call5.v3 main_call5.v5 Host.divf,
    StableHlo.TRef.binary (.of main_v329) main_call5.v5 main_call5.v6 mulf,
    StableHlo.unary main_arg21 main_v331 ((extractStridedSlice S1x128x110 ![1, 0, 0] · slices_S2x128x110_S1x128x110_1_0_0) : (⟨S2x128x110, .f32⟩ : BufTy).Contents (Elt F) → (⟨S1x128x110, .f32⟩ : BufTy).Contents (Elt F)),
    StableHlo.reshape main_v331 main_v332 rfl shapeCasts_S1x128x110_S128x110,
    StableHlo.binary main_v330 main_v332 main_v333 ((fun l r => Host.dotGeneral dot_S50000x128_S128x110_S50000x110_1_0_0_1_n_n none l r) : (⟨S50000x128, .f32⟩ : BufTy).Contents (Elt F) → (⟨S128x110, .f32⟩ : BufTy).Contents (Elt F) → (⟨S50000x110, .f32⟩ : BufTy).Contents (Elt F)),
    StableHlo.unary main_arg22 main_v334 ((extractStridedSlice S1x110 ![1, 0] · slices_S2x110_S1x110_1_0) : (⟨S2x110, .f32⟩ : BufTy).Contents (Elt F) → (⟨S1x110, .f32⟩ : BufTy).Contents (Elt F)),
    StableHlo.reshape main_v334 main_v335 rfl shapeCasts_S1x110_S110,
    StableHlo.unary main_v335 main_v336 (broadcastInDim S1x110 ![1] bcast_S110_S1x110_1 : (⟨S110, .f32⟩ : BufTy).Contents (Elt F) → (⟨S1x110, .f32⟩ : BufTy).Contents (Elt F)),
    StableHlo.unary main_v336 main_v337 (broadcastInDim S50000x110 ![0, 1] bcast_S1x110_S50000x110_0_1 : (⟨S1x110, .f32⟩ : BufTy).Contents (Elt F) → (⟨S50000x110, .f32⟩ : BufTy).Contents (Elt F)),
    StableHlo.binary main_v333 main_v337 main_v338 (addf : (⟨S50000x110, .f32⟩ : BufTy).Contents (Elt F) → (⟨S50000x110, .f32⟩ : BufTy).Contents (Elt F) → (⟨S50000x110, .f32⟩ : BufTy).Contents (Elt F)),
    StableHlo.binary main_v240 main_v338 main_v339 (addf : (⟨S50000x110, .f32⟩ : BufTy).Contents (Elt F) → (⟨S50000x110, .f32⟩ : BufTy).Contents (Elt F) → (⟨S50000x110, .f32⟩ : BufTy).Contents (Elt F)) ]
/-- The buffers run 13 writes. -/
abbrev run13_W : List (Ref sig .tc) :=
  [main_v322, main_v323, main_v324, main_v325, main_v326, main_v327, main_v328, main_v329, main_call5_v0, main_call5_v1, main_call5_cst, main_call5_v2, main_call5_v3, main_call5_cst_0, main_call5_v4, main_call5_v5, main_v330, main_v331, main_v332, main_v333, main_v334, main_v335, main_v336, main_v337, main_v338, main_v339]

/-- Run 14: statements of window 6, in stage P4. -/
abbrev run14 : List (HloOp τ sig (Elt F)) :=
  [ StableHlo.nullary main_cst_59 (constant S_ .f32 0x00000000#32),
    StableHlo.unary main_cst_59 main_v340 (broadcastInDim S64x110 ![] bcast_S_S64x110 : (⟨S_, .f32⟩ : BufTy).Contents (Elt F) → (⟨S64x110, .f32⟩ : BufTy).Contents (Elt F)),
    StableHlo.unary main_arg4 main_v341 (broadcastInDim S50000x1 ![0] bcast_S50000_S50000x1_0 : (⟨S50000, .i32⟩ : BufTy).Contents (Elt F) → (⟨S50000x1, .i32⟩ : BufTy).Contents (Elt F)),
    StableHlo.ternary main_v340 main_v341 main_v339 main_v342 ((fun x i u => Host.scatterAdd scatter_S64x110_S50000x1_S50000x110_1_0_0_1 x i u) : (⟨S64x110, .f32⟩ : BufTy).Contents (Elt F) → (⟨S50000x1, .i32⟩ : BufTy).Contents (Elt F) → (⟨S50000x110, .f32⟩ : BufTy).Contents (Elt F) → (⟨S64x110, .f32⟩ : BufTy).Contents (Elt F)),
    StableHlo.unary main_v139 main_v343 (broadcastInDim S64x1 ![0] bcast_S64_S64x1_0 : (⟨S64, .f32⟩ : BufTy).Contents (Elt F) → (⟨S64x1, .f32⟩ : BufTy).Contents (Elt F)),
    StableHlo.unary main_v343 main_v344 (broadcastInDim S64x110 ![0, 1] bcast_S64x1_S64x110_0_1 : (⟨S64x1, .f32⟩ : BufTy).Contents (Elt F) → (⟨S64x110, .f32⟩ : BufTy).Contents (Elt F)),
    StableHlo.binary main_v342 main_v344 main_v345 (Host.divf : (⟨S64x110, .f32⟩ : BufTy).Contents (Elt F) → (⟨S64x110, .f32⟩ : BufTy).Contents (Elt F) → (⟨S64x110, .f32⟩ : BufTy).Contents (Elt F)) ]
/-- The buffers run 14 writes. -/
abbrev run14_W : List (Ref sig .tc) :=
  [main_cst_59, main_v340, main_v341, main_v342, main_v343, main_v344, main_v345]

/-- Statement window 0 as runs. -/
abbrev part0 : List (HloOp τ sig (Elt F)) := run0
/-- Statement window 1 as runs. -/
abbrev part1 : List (HloOp τ sig (Elt F)) := run1
/-- Statement window 2 as runs. -/
abbrev part2 : List (HloOp τ sig (Elt F)) := run2
/-- Statement window 3 as runs. -/
abbrev part3 : List (HloOp τ sig (Elt F)) := run3 ++ run4 ++ run5
/-- Statement window 4 as runs. -/
abbrev part4 : List (HloOp τ sig (Elt F)) := run6 ++ run7 ++ run8
/-- Statement window 5 as runs. -/
abbrev part5 : List (HloOp τ sig (Elt F)) := run9 ++ run10 ++ run11
/-- Statement window 6 as runs. -/
abbrev part6 : List (HloOp τ sig (Elt F)) := run12 ++ run13 ++ run14
/-- Stage P0 as runs. -/
abbrev P0 : List (HloOp τ sig (Elt F)) := run0 ++ run1 ++ run2 ++ run3
abbrev P0_W : List (Ref sig .tc) := run0_W ++ run1_W ++ run2_W ++ run3_W
/-- Stage PE0 as runs. -/
abbrev PE0 : List (HloOp τ sig (Elt F)) := run4
abbrev PE0_W : List (Ref sig .tc) := run4_W
/-- Stage P1 as runs. -/
abbrev P1 : List (HloOp τ sig (Elt F)) := run5 ++ run6
abbrev P1_W : List (Ref sig .tc) := run5_W ++ run6_W
/-- Stage PN0 as runs. -/
abbrev PN0 : List (HloOp τ sig (Elt F)) := run7
abbrev PN0_W : List (Ref sig .tc) := run7_W
/-- Stage P2 as runs. -/
abbrev P2 : List (HloOp τ sig (Elt F)) := run8 ++ run9
abbrev P2_W : List (Ref sig .tc) := run8_W ++ run9_W
/-- Stage PE1 as runs. -/
abbrev PE1 : List (HloOp τ sig (Elt F)) := run10
abbrev PE1_W : List (Ref sig .tc) := run10_W
/-- Stage P3 as runs. -/
abbrev P3 : List (HloOp τ sig (Elt F)) := run11 ++ run12
abbrev P3_W : List (Ref sig .tc) := run11_W ++ run12_W
/-- Stage PN1 as runs. -/
abbrev PN1 : List (HloOp τ sig (Elt F)) := run13
abbrev PN1_W : List (Ref sig .tc) := run13_W
/-- Stage P4 as runs. -/
abbrev P4 : List (HloOp τ sig (Elt F)) := run14
abbrev P4_W : List (Ref sig .tc) := run14_W
/-- The whole of @main. -/
abbrev ops : List (HloOp τ sig (Elt F)) := P0 ++ PE0 ++ P1 ++ PN0 ++ P2 ++ PE1 ++ P3 ++ PN1 ++ P4

end Cert.ReferenceIdeal.Hand

end
-- ==== Proof.RefRun.lean ====
import proofs.«430199_j90752658965038_1_alg».proof.Proof.RefOps
import Idealize.ShloMosaic.Lib.StableHlo.Run

/-! The reference's @main is the sequence of its host operations (`main_eq`), so every fair execution ends with each buffer at the fold of the operations over the launch contents (`run_main`); no operation writes an argument (`ops_arg`). -/

set_option synthInstance.maxSize 4096

noncomputable section

namespace Cert.ReferenceIdeal.Hand

open Idealize.ShloMosaic Idealize.SL.Sem Cert.ReferenceIdeal Cert.ReferenceIdeal.Gen
open Idealize.ShloMosaic.StableHlo

variable {F : FTy → Type} [FloatOps F]

theorem seq_cat {Λ : Labels} {p q : Prog (TpuEff nD τ sig (Elt F) Λ .tc) PUnit} {l₁ l₂ : List (HloOp τ sig (Elt F))}
    (h₁ : p = StableHlo.seq l₁) (h₂ : q = StableHlo.seq l₂) : (p >>= fun _ => q) = StableHlo.seq (l₁ ++ l₂) := by
  subst h₁ h₂
  exact (StableHlo.seq_append l₁ l₂).symm

theorem after_cat : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by
    rw [List.cons_append, StableHlo.after_cons, StableHlo.after_cons, after_cat l₁ l₂]

theorem writes_mono {l : List (HloOp τ sig (Elt F))} {W W' : List (Ref sig .tc)} (hW : W ⊆ W')
    (h : l.Forall fun op => op.writes ⊆ (W.map (Proc.devRef (τ := τ) .tc)).toFinset) :
    l.Forall fun op => op.writes ⊆ (W'.map (Proc.devRef (τ := τ) .tc)).toFinset :=
  h.imp fun op hop => hop.trans fun b hb =>
    List.mem_toFinset.mpr (List.map_subset _ hW (List.mem_toFinset.mp hb))

theorem writes_cat {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_append.mpr ⟨writes_mono (List.subset_append_left W₁ W₂) h₁, writes_mono (List.subset_append_right W₁ W₂) h₂⟩

theorem forall_cat {p : HloOp τ sig (Elt F) → Prop} {l₁ l₂ : List (HloOp τ sig (Elt F))} (h₁ : l₁.Forall p) (h₂ : l₂.Forall p) :
    (l₁ ++ l₂).Forall p :=
  List.forall_append.mpr ⟨h₁, h₂⟩

set_option maxRecDepth 4096 in
theorem part0_eq (c : Dev nD) : main_part0 (F := F) c = StableHlo.seq (part0 (F := F)) := by
  simp only [main_part0, StableHlo.seq, bind_assoc, pure_bind]
  rfl

set_option maxRecDepth 4096 in
theorem part1_eq (c : Dev nD) : main_part1 (F := F) c = StableHlo.seq (part1 (F := F)) := by
  simp only [main_part1, StableHlo.seq, bind_assoc, pure_bind]
  rfl

set_option maxRecDepth 4096 in
theorem part2_eq (c : Dev nD) : main_part2 (F := F) c = StableHlo.seq (part2 (F := F)) := by
  simp only [main_part2, StableHlo.seq, bind_assoc, pure_bind]
  rfl

set_option maxRecDepth 4096 in
theorem part3_eq (c : Dev nD) : main_part3 (F := F) c = StableHlo.seq (part3 (F := F)) := by
  simp only [main_part3, fn_silu.body, fn_silu_0.body, fn_silu_1.body, StableHlo.seq, bind_assoc, pure_bind]
  rfl

set_option maxRecDepth 4096 in
theorem part4_eq (c : Dev nD) : main_part4 (F := F) c = StableHlo.seq (part4 (F := F)) := by
  simp only [main_part4, fn_silu.body, fn_silu_0.body, fn_silu_1.body, StableHlo.seq, bind_assoc, pure_bind]
  rfl

set_option maxRecDepth 4096 in
theorem part5_eq (c : Dev nD) : main_part5 (F := F) c = StableHlo.seq (part5 (F := F)) := by
  simp only [main_part5, fn_silu.body, fn_silu_0.body, fn_silu_1.body, StableHlo.seq, bind_assoc, pure_bind]
  rfl

set_option maxRecDepth 4096 in
theorem part6_eq (c : Dev nD) : main_part6 (F := F) c = StableHlo.seq (part6 (F := F)) := by
  simp only [main_part6, fn_silu.body, fn_silu_0.body, fn_silu_1.body, StableHlo.seq, bind_assoc, pure_bind]
  rfl

theorem ops_parts : (ops : List (HloOp τ sig (Elt F)))
    = part0 ++ (part1 ++ (part2 ++ (part3 ++ (part4 ++ (part5 ++ part6))))) := by
  simp only [ops, P0, PE0, P1, PN0, P2, PE1, P3, PN1, P4, part0, part1, part2, part3, part4, part5, part6, List.append_assoc]

theorem main_eq (c : Dev nD) : main (F := F) c = StableHlo.seq (ops (F := F)) :=
  (seq_cat (part0_eq c) (seq_cat (part1_eq c) (seq_cat (part2_eq c) (seq_cat (part3_eq c)
    (seq_cat (part4_eq c) (seq_cat (part5_eq c) (part6_eq c))))))).trans (congrArg StableHlo.seq ops_parts.symm)

/-- What the run theorem and the frame ask of a list of operations, with `W` a table of the buffers it writes. -/
def Tame (l : List (HloOp τ sig (Elt F))) (W : List (Ref sig .tc)) : Prop :=
  (l.Forall fun op => op.bufs ⊆ StableHlo.tcRefs τ sig) ∧ (l.Forall fun op => op.fresh = ∅)
    ∧ l.Forall fun op => op.writes ⊆ (W.map (Proc.devRef (τ := τ) .tc)).toFinset

theorem Tame.cat {l₁ l₂ : List (HloOp τ sig (Elt F))} {W₁ W₂ : List (Ref sig .tc)} (h₁ : Tame l₁ W₁) (h₂ : Tame l₂ W₂) :
    Tame (l₁ ++ l₂) (W₁ ++ W₂) :=
  ⟨forall_cat h₁.1 h₂.1, forall_cat h₁.2.1 h₂.2.1, writes_cat h₁.2.2 h₂.2.2⟩

/-- A reference outside the table keeps its contents through the list. -/
theorem Tame.keeps {l : List (HloOp τ sig (Elt F))} {W : List (Ref sig .tc)} (h : Tame l W) (V : Valuation τ sig (Elt F))
    (r : Ref sig .tc) (hr : r ∉ W) : StableHlo.after l V (Proc.devRef .tc r) = V (Proc.devRef .tc r) :=
  StableHlo.after_of_writes_sub l V h.2.2 hr

set_option maxRecDepth 4096 in
theorem run0_tame : Tame (F := F) run0 run0_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run1_tame : Tame (F := F) run1 run1_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run2_tame : Tame (F := F) run2 run2_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run3_tame : Tame (F := F) run3 run3_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run4_tame : Tame (F := F) run4 run4_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run5_tame : Tame (F := F) run5 run5_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run6_tame : Tame (F := F) run6 run6_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run7_tame : Tame (F := F) run7 run7_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run8_tame : Tame (F := F) run8 run8_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run9_tame : Tame (F := F) run9 run9_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run10_tame : Tame (F := F) run10 run10_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run11_tame : Tame (F := F) run11 run11_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run12_tame : Tame (F := F) run12 run12_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run13_tame : Tame (F := F) run13 run13_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

set_option maxRecDepth 4096 in
theorem run14_tame : Tame (F := F) run14 run14_W := by
  refine ⟨?_, ?_, ?_⟩
  · simp only [List.Forall, StableHlo.nullary_bufs_sub, StableHlo.unary_bufs_sub, StableHlo.binary_bufs_sub, StableHlo.ternary_bufs_sub, StableHlo.reshape_bufs_sub, StableHlo.nary_bufs_sub, and_self]
  · simp only [List.Forall]; repeat' constructor
  · simp only [List.Forall]
    repeat' constructor
    all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))

theorem P0_tame : Tame (F := F) P0 P0_W := ((run0_tame.cat run1_tame).cat run2_tame).cat run3_tame
theorem PE0_tame : Tame (F := F) PE0 PE0_W := run4_tame
theorem P1_tame : Tame (F := F) P1 P1_W := run5_tame.cat run6_tame
theorem PN0_tame : Tame (F := F) PN0 PN0_W := run7_tame
theorem P2_tame : Tame (F := F) P2 P2_W := run8_tame.cat run9_tame
theorem PE1_tame : Tame (F := F) PE1 PE1_W := run10_tame
theorem P3_tame : Tame (F := F) P3 P3_W := run11_tame.cat run12_tame
theorem PN1_tame : Tame (F := F) PN1 PN1_W := run13_tame
theorem P4_tame : Tame (F := F) P4 P4_W := run14_tame

theorem ops_tame : Tame (F := F) ops (P0_W ++ PE0_W ++ P1_W ++ PN0_W ++ P2_W ++ PE1_W ++ P3_W ++ PN1_W ++ P4_W) :=
  (((((((P0_tame.cat PE0_tame).cat P1_tame).cat PN0_tame).cat P2_tame).cat PE1_tame).cat P3_tame).cat PN1_tame).cat P4_tame

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after (ops (F := F)) (StableHlo.launchContents m c) (Proc.devRef .tc b) :=
  StableHlo.run_seq scopedRefs_eq scopedSems_eq defs main (fun _ => ops) main_eq (fun _ => ops_tame.1) m ρ
    (fun _ => List.forall_iff_forall_mem.mp ops_tame.2.1)

theorem after_ops (V : Valuation τ sig (Elt F)) : StableHlo.after (ops (F := F)) V
    = StableHlo.after P4 (StableHlo.after PN1 (StableHlo.after P3 (StableHlo.after PE1 (StableHlo.after P2 (StableHlo.after PN0 (StableHlo.after P1 (StableHlo.after PE0 (StableHlo.after P0 V)))))))) := by
  show StableHlo.after (P0 ++ PE0 ++ P1 ++ PN0 ++ P2 ++ PE1 ++ P3 ++ PN1 ++ P4) V = _
  rw [after_cat _ P4, after_cat _ PN1, after_cat _ P3, after_cat _ PE1, after_cat _ P2, after_cat _ PN0, after_cat _ P1, after_cat P0 PE0]

/-- The program's argument arrays. -/
abbrev args : List (Ref sig .tc) :=
  [main_arg0, main_arg1, main_arg2, main_arg3, main_arg4, main_arg5, main_arg6, main_arg7, main_arg8, main_arg9, main_arg10, main_arg11, main_arg12,
   main_arg13, main_arg14, main_arg15, main_arg16, main_arg17, main_arg18, main_arg19, main_arg20, main_arg21, main_arg22, main_arg23, main_arg24]

theorem args_P0 : ∀ a ∈ args, a ∉ P0_W := by decide
theorem args_PE0 : ∀ a ∈ args, a ∉ PE0_W := by decide
theorem args_P1 : ∀ a ∈ args, a ∉ P1_W := by decide
theorem args_PN0 : ∀ a ∈ args, a ∉ PN0_W := by decide
theorem args_P2 : ∀ a ∈ args, a ∉ P2_W := by decide
theorem args_PE1 : ∀ a ∈ args, a ∉ PE1_W := by decide
theorem args_P3 : ∀ a ∈ args, a ∉ P3_W := by decide
theorem args_PN1 : ∀ a ∈ args, a ∉ PN1_W := by decide
theorem args_P4 : ∀ a ∈ args, a ∉ P4_W := by decide

/-- No operation writes an argument: every written buffer is a later reference. -/
theorem ops_arg (V : Valuation τ sig (Elt F)) {a : Ref sig .tc} (ha : a ∈ args) :
    StableHlo.after (ops (F := F)) V (Proc.devRef .tc a) = V (Proc.devRef .tc a) := by
  rw [after_ops, P4_tame.keeps _ a (args_P4 a ha), PN1_tame.keeps _ a (args_PN1 a ha), P3_tame.keeps _ a (args_P3 a ha),
    PE1_tame.keeps _ a (args_PE1 a ha), P2_tame.keeps _ a (args_P2 a ha), PN0_tame.keeps _ a (args_PN0 a ha),
    P1_tame.keeps _ a (args_P1 a ha), PE0_tame.keeps _ a (args_PE0 a ha), P0_tame.keeps _ a (args_P0 a ha)]

end Cert.ReferenceIdeal.Hand

end
-- ==== Proof.Spec.lean ====
import Idealize.ShloMosaic.PureOps.Ideal
import Idealize.ShloMosaic.Lib.ValueIdx

/-! The two dense blocks as functions of whole arrays over the extended reals: an affine map, `y ↦ y · σ(y)`, a second affine map; the edge block applies `y · σ(y)` once more, the node block adds its input features. -/

noncomputable section

open scoped BigOperators

namespace Cert.Spec

open Idealize.ShloMosaic Idealize.ShloMosaic.ValueIdx

def silu (y : EReal) : EReal := y * Ideal.logistic y

def hidden {R D : Nat} (x : FVec Ideal ⟨2, ![R, D]⟩ .f32) (w1 : FVec Ideal ⟨2, ![D, 128]⟩ .f32)
    (b1 : FVec Ideal ⟨2, ![1, 128]⟩ .f32) (r : Fin R) (k : Fin 128) : EReal :=
  silu ((∑ l : Fin D, x (ix2 r l) * w1 (ix2 l k)) + b1 (ix2 (0 : Fin 1) k))

def affine2 {R D M : Nat} (x : FVec Ideal ⟨2, ![R, D]⟩ .f32) (w1 : FVec Ideal ⟨2, ![D, 128]⟩ .f32)
    (b1 : FVec Ideal ⟨2, ![1, 128]⟩ .f32) (w2 : FVec Ideal ⟨2, ![128, M]⟩ .f32) (b2 : FVec Ideal ⟨2, ![1, M]⟩ .f32)
    (r : Fin R) (c : Fin M) : EReal :=
  (∑ k : Fin 128, hidden x w1 b1 r k * w2 (ix2 k c)) + b2 (ix2 (0 : Fin 1) c)

def edgeAt (m0 : FVec Ideal ⟨2, ![850000, 222]⟩ .f32) (w1 : FVec Ideal ⟨2, ![222, 128]⟩ .f32)
    (b1 : FVec Ideal ⟨2, ![1, 128]⟩ .f32) (w2 : FVec Ideal ⟨2, ![128, 32]⟩ .f32) (b2 : FVec Ideal ⟨2, ![1, 32]⟩ .f32)
    (r : Fin 850000) (c : Fin 32) : EReal :=
  silu (affine2 m0 w1 b1 w2 b2 r c)

def edgeSpec (m0 : FVec Ideal ⟨2, ![850000, 222]⟩ .f32) (w1 : FVec Ideal ⟨2, ![222, 128]⟩ .f32)
    (b1 : FVec Ideal ⟨2, ![1, 128]⟩ .f32) (w2 : FVec Ideal ⟨2, ![128, 32]⟩ .f32) (b2 : FVec Ideal ⟨2, ![1, 32]⟩ .f32) :
    FVec Ideal ⟨2, ![850000, 32]⟩ .f32 :=
  fun i => edgeAt m0 w1 b1 w2 b2 (i 0) (i 1)

def nodeAt (h : FVec Ideal ⟨2, ![50000, 142]⟩ .f32) (f : FVec Ideal ⟨2, ![50000, 110]⟩ .f32)
    (w1 : FVec Ideal ⟨2, ![142, 128]⟩ .f32) (b1 : FVec Ideal ⟨2, ![1, 128]⟩ .f32)
    (w2 : FVec Ideal ⟨2, ![128, 110]⟩ .f32) (b2 : FVec Ideal ⟨2, ![1, 110]⟩ .f32)
    (r : Fin 50000) (c : Fin 110) : EReal :=
  f (ix2 r c) + affine2 h w1 b1 w2 b2 r c

def nodeSpec (h : FVec Ideal ⟨2, ![50000, 142]⟩ .f32) (f : FVec Ideal ⟨2, ![50000, 110]⟩ .f32)
    (w1 : FVec Ideal ⟨2, ![142, 128]⟩ .f32) (b1 : FVec Ideal ⟨2, ![1, 128]⟩ .f32)
    (w2 : FVec Ideal ⟨2, ![128, 110]⟩ .f32) (b2 : FVec Ideal ⟨2, ![1, 110]⟩ .f32) :
    FVec Ideal ⟨2, ![50000, 110]⟩ .f32 :=
  fun i => nodeAt h f w1 b1 w2 b2 (i 0) (i 1)

end Cert.Spec

end
-- ==== Proof.LibDot.lean ====
import Idealize.ShloMosaic.Lib.StackMember
import Idealize.ShloMosaic.Lib.ValueIdx
import Idealize.ShloMosaic.PureOps.Ideal.Laws

/-! A product of an m×k by a k×n matrix accumulated into zero, read at an index over the extended reals, is the sum over the
    contracted coordinate. -/

noncomputable section

open scoped BigOperators

namespace Cert.Lib

open Idealize.ShloMosaic Idealize.ShloMosaic.TcCoe Idealize.ShloMosaic.ValueIdx

theorem matmul_plain_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  subst hd
  simp only [matmul]
  rw [Ideal.matmul_constant_zero_apply]
  exact (Ideal.dotGeneral_apply _ prec _ A B _).symm.trans (StackMember.dotGeneral_plain_apply prec A B a b)

end Cert.Lib

end
-- ==== Proof.KIEdgeVal0.lean ====
import proofs.«430199_j90752658965038_1_alg».proof.Proof.KIRegion0
import proofs.«430199_j90752658965038_1_alg».proof.Proof.Spec
import proofs.«430199_j90752658965038_1_alg».proof.Proof.LibDot
import Idealize.ShloMosaic.Lib.Pipeline.Value
import Idealize.ShloMosaic.Lib.ValueIdx
import Idealize.ShloMosaic.Lib.ValueLayout
import Idealize.ShloMosaic.PureOps.Ideal.Laws

/-! The edge region's output array is `edgeSpec` of its operand arrays: a point's payload is the spec on its 5000 rows, which depend on the same rows of the input, and the points' row blocks tile the array. -/

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

private theorem mm1_apply (a : FVec Ideal S5000x222 .bf16) (b : FVec Ideal S222x128 .bf16) (p : Fin 5000) (c : Fin 128) :
    matmul dot_S5000x222_S222x128_S5000x128_1_0_0_1_n_n none a b (constant S5000x128 .f32 0x00000000#32) (ix2 p c)
      = ∑ l : Fin 222, a (ix2 p l) * b (ix2 l c) :=
  Cert.Lib.matmul_plain_apply _ rfl none a b p c

private theorem mm2_apply (a : FVec Ideal S5000x128 .bf16) (b : FVec Ideal S128x32 .bf16) (p : Fin 5000) (c : Fin 32) :
    matmul dot_S5000x128_S128x32_S5000x32_1_0_0_1_n_n none a b (constant S5000x32 .f32 0x00000000#32) (ix2 p c)
      = ∑ l : Fin 128, a (ix2 p l) * b (ix2 l c) :=
  Cert.Lib.matmul_plain_apply _ rfl none a b p c

private theorem bias128_apply (b : FVec Ideal S1x128 .f32) (p : Fin 5000) (c : Fin 128) :
    broadcastTo S5000x128 b broadcasts_S1x128_S5000x128 (ix2 p c) = b (ix2 (0 : Fin 1) c) := by
  refine broadcastTo_apply b _ (ix2 p c) (ix2 (0 : Fin 1) c) fun a => ?_
  match a with
  | ⟨0, _⟩ => rfl
  | ⟨1, _⟩ => rfl

private theorem bias32_apply (b : FVec Ideal S1x32 .f32) (p : Fin 5000) (c : Fin 32) :
    broadcastTo S5000x32 b broadcasts_S1x32_S5000x32 (ix2 p c) = b (ix2 (0 : Fin 1) c) := by
  refine broadcastTo_apply b _ (ix2 p c) (ix2 (0 : Fin 1) c) fun a => ?_
  match a with
  | ⟨0, _⟩ => rfl
  | ⟨1, _⟩ => rfl

private theorem logistic_at {s : Shape} {φ : FTy} (a : FVec Ideal s φ) (i : s.Idx) : logistic a i = Ideal.logistic (a i) := rfl

theorem pay0_apply (x0 : Vec Ideal S5000x222 .f32) (x1 : Vec Ideal S222x128 .f32) (x2 : Vec Ideal S1x128 .f32)
    (x3 : Vec Ideal S128x32 .f32) (x4 : Vec Ideal S1x32 .f32) (p : Fin 5000) (q : Fin 32) :
    k0_pay1 x0 x1 x2 x3 x4 (ix2 p q) = Cert.Spec.silu (Cert.Spec.affine2 x0 x1 x2 x3 x4 p q) := by
  unfold k0_pay1
  simp only [shapeCast_self]
  simp only [mulf_apply, addf_apply, logistic_at, mm2_apply, bias32_apply, truncf_apply, mm1_apply, bias128_apply]
  rfl

theorem pay0_eq_edge (X0 : Vec Ideal S850000x222 .f32) (W1 : Vec Ideal S222x128 .f32) (B1 : Vec Ideal S1x128 .f32)
    (W2 : Vec Ideal S128x32 .f32) (B2 : Vec Ideal S1x32 .f32)
    (x0 : Vec Ideal S5000x222 .f32) (x1 : Vec Ideal S222x128 .f32) (x2 : Vec Ideal S1x128 .f32)
    (x3 : Vec Ideal S128x32 .f32) (x4 : Vec Ideal S1x32 .f32) (p : Fin 5000) (q : Fin 32) (i : S850000x32.Idx)
    (h0 : ∀ l : Fin 222, x0 (ix2 p l) = X0 (ix2 (i 0) l)) (hq : i 1 = q)
    (h1 : x1 = W1) (h2 : x2 = B1) (h3 : x3 = W2) (h4 : x4 = B2) :
    k0_pay1 x0 x1 x2 x3 x4 (ix2 p q) = Cert.Spec.edgeSpec X0 W1 B1 W2 B2 i := by
  subst h1 h2 h3 h4
  rw [pay0_apply]
  show Cert.Spec.silu (Cert.Spec.affine2 x0 x1 x2 x3 x4 p q) = Cert.Spec.silu (Cert.Spec.affine2 X0 x1 x2 x3 x4 (i 0) (i 1))
  rw [hq]
  unfold Cert.Spec.affine2 Cert.Spec.hidden
  simp only [h0]

variable (V : (c : Dev nD) → (b : Ref sig .tc) → Buf (Elt Ideal) ((c : Thread nD τ).loc b))

abbrev arr0_0 (c : Dev nD) : Vec Ideal S850000x222 .f32 := V c (Pipeline.arrRef spec0 0)
abbrev arr0_1 (c : Dev nD) : Vec Ideal S222x128 .f32 := V c (Pipeline.arrRef spec0 1)
abbrev arr0_2 (c : Dev nD) : Vec Ideal S1x128 .f32 := V c (Pipeline.arrRef spec0 2)
abbrev arr0_3 (c : Dev nD) : Vec Ideal S128x32 .f32 := V c (Pipeline.arrRef spec0 3)
abbrev arr0_4 (c : Dev nD) : Vec Ideal S1x32 .f32 := V c (Pipeline.arrRef spec0 4)

abbrev blk0_0 (c : Dev nD) (t : Fin cfg0.N) : Vec Ideal S5000x222 .f32 := iblk0 V c 0 t
abbrev blk0_1 (c : Dev nD) (t : Fin cfg0.N) : Vec Ideal S222x128 .f32 := iblk0 V c 1 t
abbrev blk0_2 (c : Dev nD) (t : Fin cfg0.N) : Vec Ideal S1x128 .f32 := iblk0 V c 2 t
abbrev blk0_3 (c : Dev nD) (t : Fin cfg0.N) : Vec Ideal S128x32 .f32 := iblk0 V c 3 t
abbrev blk0_4 (c : Dev nD) (t : Fin cfg0.N) : Vec Ideal S1x32 .f32 := iblk0 V c 4 t

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem blk0_0_apply (c : Dev nD) (t : Fin cfg0.N) (p : Fin 5000) (l : Fin 222) (r : Fin 850000)
    (hr : r.val = 5000 * t.val + p.val) : blk0_0 V c t (ix2 p l) = arr0_0 V c (ix2 r l) := by
  show V c (Pipeline.arrRef spec0 0) (((cfg0.win 0).blk t).view.emb (ix2 p l)) = V c (Pipeline.arrRef spec0 0) (ix2 r l)
  obtain ⟨e00, e01, -⟩ := idx_facts0 t
  refine congrArg _ (funext fun a => Fin.ext ?_)
  match a with
  | ⟨0, _⟩ => show win0_0.index t (0 : Fin 2) * 5000 + 1 * p.val = r.val; omega
  | ⟨1, _⟩ => show win0_0.index t (1 : Fin 2) * 222 + 1 * l.val = l.val; omega

theorem blk0_1_eq (c : Dev nD) (t : Fin cfg0.N) : blk0_1 V c t = arr0_1 V c := by
  funext y
  show V c (Pipeline.arrRef spec0 1) (((cfg0.win 1).blk t).view.emb y) = V c (Pipeline.arrRef spec0 1) y
  obtain ⟨-, -, e0, e1, -⟩ := idx_facts0 t
  refine congrArg _ (funext fun a => Fin.ext ?_)
  match a with
  | ⟨0, _⟩ => show win0_1.index t (0 : Fin 2) * 222 + 1 * (y 0).val = (y 0).val; omega
  | ⟨1, _⟩ => show win0_1.index t (1 : Fin 2) * 128 + 1 * (y 1).val = (y 1).val; omega

theorem blk0_2_eq (c : Dev nD) (t : Fin cfg0.N) : blk0_2 V c t = arr0_2 V c := by
  funext y
  show V c (Pipeline.arrRef spec0 2) (((cfg0.win 2).blk t).view.emb y) = V c (Pipeline.arrRef spec0 2) y
  obtain ⟨-, -, -, -, e0, e1, -⟩ := idx_facts0 t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk0_3_eq (c : Dev nD) (t : Fin cfg0.N) : blk0_3 V c t = arr0_3 V c := by
  funext y
  show V c (Pipeline.arrRef spec0 3) (((cfg0.win 3).blk t).view.emb y) = V c (Pipeline.arrRef spec0 3) y
  obtain ⟨-, -, -, -, -, -, e0, e1, -⟩ := idx_facts0 t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 32 + 1 * (y 1).val = (y 1).val; omega

theorem blk0_4_eq (c : Dev nD) (t : Fin cfg0.N) : blk0_4 V c t = arr0_4 V c := by
  funext y
  show V c (Pipeline.arrRef spec0 4) (((cfg0.win 4).blk t).view.emb y) = V c (Pipeline.arrRef spec0 4) y
  obtain ⟨-, -, -, -, -, -, -, -, e0, e1, -⟩ := idx_facts0 t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

theorem hz0 : (![0, 0] : Fin 2 → Nat) = fun _ => 0 := funext fun a => by fin_cases a <;> rfl

theorem flushed0_eq (c : Dev nD) (t : Fin cfg0.N) :
    (dat0 V c).flushed 5 t = ((cfg0.win 5).blk t).view.read (Elt Ideal)
      (Cert.Spec.edgeSpec (arr0_0 V c) (arr0_1 V c) (arr0_2 V c) (arr0_3 V c) (arr0_4 V c)) := by
  show (cfg0.win 5).cut (grid0.coords t) ((dat0 V c).after 5 t) = _
  rw [after0_5]
  unfold out0_5
  rw [View.canon_unit_zero hz0]
  simp only [View.ld_unit_zero (S := S5000x222) hz0, View.ld_unit_zero (S := S222x128) hz0, View.ld_unit_zero (S := S1x128) hz0,
    View.ld_unit_zero (S := S128x32) hz0, View.ld_unit_zero (S := S1x32) hz0]
  funext j
  obtain ⟨p, q, rfl⟩ : ∃ (p : Fin 5000) (q : Fin 32), j = ix2 p q := ⟨j 0, j 1, eq_ix2 j⟩
  obtain ⟨-, -, -, -, -, -, -, -, -, -, e50, e51⟩ := idx_facts0 t
  show k0_pay1 (blk0_0 V c t) (blk0_1 V c t) (blk0_2 V c t) (blk0_3 V c t) (blk0_4 V c t) (ix2 p q)
    = Cert.Spec.edgeSpec (arr0_0 V c) (arr0_1 V c) (arr0_2 V c) (arr0_3 V c) (arr0_4 V c) (((cfg0.win 5).blk t).view.emb (ix2 p q))
  refine pay0_eq_edge (arr0_0 V c) (arr0_1 V c) (arr0_2 V c) (arr0_3 V c) (arr0_4 V c)
    (blk0_0 V c t) (blk0_1 V c t) (blk0_2 V c t) (blk0_3 V c t) (blk0_4 V c t) p q (((cfg0.win 5).blk t).view.emb (ix2 p q))
    (fun l => blk0_0_apply V c t p l _ ?_) (Fin.ext ?_) (blk0_1_eq V c t) (blk0_2_eq V c t) (blk0_3_eq V c t) (blk0_4_eq V c t)
  · show win0_5.index t (0 : Fin 2) * 5000 + 1 * p.val = 5000 * t.val + p.val; omega
  · show win0_5.index t (1 : Fin 2) * 32 + 1 * q.val = q.val; omega

theorem mem_blk0 (t : Fin cfg0.N) (i : S850000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole (Pipeline.arrRef spec0 5)).slice (win0_5.rect t)).set ↔ _
  rw [View.set_slice_whole, Rect.mem_set_unit]
  exact Iff.rfl

theorem cover0 (i : S850000x32.Idx) : ∃ t : Fin cfg0.N, (cfg0.win 5).flush t = true ∧ i ∈ ((cfg0.win 5).blk t).view.set := by
  have hi0 : (i 0).val < 850000 := (i 0).isLt
  have hi1 : (i 1).val < 32 := (i 1).isLt
  have hN : cfg0.N = 170 := N_0
  have ht : (i 0).val / 5000 < cfg0.N := by rw [hN]; omega
  obtain ⟨-, -, -, -, -, -, -, -, -, -, e50, e51⟩ := idx_facts0 ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 32 ≤ (i 1).val ∧ (i 1).val < win0_5.index ⟨(i 0).val / 5000, ht⟩ (1 : Fin 2) * 32 + 32
    omega

theorem edge0_final (V : (c : Dev nD) → (b : Ref sig .tc) → Buf (Elt Ideal) ((c : Thread nD τ).loc b)) (c : Dev nD) :
    (dat0 (F := Ideal) V c).arrAt 5 cfg0.N
      = Cert.Spec.edgeSpec (V c main_v156) (V c main_v158) (V c main_v165) (V c main_v162) (V c main_v166) :=
  (dat0 V c).arrAt_eq_of_cover 5
    (Cert.Spec.edgeSpec (V c main_v156) (V c main_v158) (V c main_v165) (V c main_v162) (V c main_v166))
    (fun t _ => flushed0_eq V c t) cover0

end Cert.KernelIdeal.Fr

end
-- ==== Proof.KIEdgeVal2.lean ====
import proofs.«430199_j90752658965038_1_alg».proof.Proof.KIRegion2
import proofs.«430199_j90752658965038_1_alg».proof.Proof.Spec
import proofs.«430199_j90752658965038_1_alg».proof.Proof.LibDot
import Idealize.ShloMosaic.Lib.Pipeline.Value
import Idealize.ShloMosaic.Lib.ValueIdx
import Idealize.ShloMosaic.Lib.ValueLayout
import Idealize.ShloMosaic.PureOps.Ideal.Laws

/-! The edge region's output array is `edgeSpec` of its operand arrays: a point's payload is the spec on its 5000 rows, which depend on the same rows of the input, and the points' row blocks tile the array. -/

set_option maxRecDepth 16384

noncomputable section

open scoped BigOperators

namespace Cert.KernelIdeal.Fr.P2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

private theorem mm1_apply (a : FVec Ideal S5000x222 .bf16) (b : FVec Ideal S222x128 .bf16) (p : Fin 5000) (c : Fin 128) :
    matmul dot_S5000x222_S222x128_S5000x128_1_0_0_1_n_n none a b (constant S5000x128 .f32 0x00000000#32) (ix2 p c)
      = ∑ l : Fin 222, a (ix2 p l) * b (ix2 l c) :=
  Cert.Lib.matmul_plain_apply _ rfl none a b p c

private theorem mm2_apply (a : FVec Ideal S5000x128 .bf16) (b : FVec Ideal S128x32 .bf16) (p : Fin 5000) (c : Fin 32) :
    matmul dot_S5000x128_S128x32_S5000x32_1_0_0_1_n_n none a b (constant S5000x32 .f32 0x00000000#32) (ix2 p c)
      = ∑ l : Fin 128, a (ix2 p l) * b (ix2 l c) :=
  Cert.Lib.matmul_plain_apply _ rfl none a b p c

private theorem bias128_apply (b : FVec Ideal S1x128 .f32) (p : Fin 5000) (c : Fin 128) :
    broadcastTo S5000x128 b broadcasts_S1x128_S5000x128 (ix2 p c) = b (ix2 (0 : Fin 1) c) := by
  refine broadcastTo_apply b _ (ix2 p c) (ix2 (0 : Fin 1) c) fun a => ?_
  match a with
  | ⟨0, _⟩ => rfl
  | ⟨1, _⟩ => rfl

private theorem bias32_apply (b : FVec Ideal S1x32 .f32) (p : Fin 5000) (c : Fin 32) :
    broadcastTo S5000x32 b broadcasts_S1x32_S5000x32 (ix2 p c) = b (ix2 (0 : Fin 1) c) := by
  refine broadcastTo_apply b _ (ix2 p c) (ix2 (0 : Fin 1) c) fun a => ?_
  match a with
  | ⟨0, _⟩ => rfl
  | ⟨1, _⟩ => rfl

private theorem logistic_at {s : Shape} {φ : FTy} (a : FVec Ideal s φ) (i : s.Idx) : logistic a i = Ideal.logistic (a i) := rfl

theorem pay0_apply (x0 : Vec Ideal S5000x222 .f32) (x1 : Vec Ideal S222x128 .f32) (x2 : Vec Ideal S1x128 .f32)
    (x3 : Vec Ideal S128x32 .f32) (x4 : Vec Ideal S1x32 .f32) (p : Fin 5000) (q : Fin 32) :
    k2_pay1 x0 x1 x2 x3 x4 (ix2 p q) = Cert.Spec.silu (Cert.Spec.affine2 x0 x1 x2 x3 x4 p q) := by
  unfold k2_pay1
  simp only [shapeCast_self]
  simp only [mulf_apply, addf_apply, logistic_at, mm2_apply, bias32_apply, truncf_apply, mm1_apply, bias128_apply]
  rfl

theorem pay0_eq_edge (X0 : Vec Ideal S850000x222 .f32) (W1 : Vec Ideal S222x128 .f32) (B1 : Vec Ideal S1x128 .f32)
    (W2 : Vec Ideal S128x32 .f32) (B2 : Vec Ideal S1x32 .f32)
    (x0 : Vec Ideal S5000x222 .f32) (x1 : Vec Ideal S222x128 .f32) (x2 : Vec Ideal S1x128 .f32)
    (x3 : Vec Ideal S128x32 .f32) (x4 : Vec Ideal S1x32 .f32) (p : Fin 5000) (q : Fin 32) (i : S850000x32.Idx)
    (h0 : ∀ l : Fin 222, x0 (ix2 p l) = X0 (ix2 (i 0) l)) (hq : i 1 = q)
    (h1 : x1 = W1) (h2 : x2 = B1) (h3 : x3 = W2) (h4 : x4 = B2) :
    k2_pay1 x0 x1 x2 x3 x4 (ix2 p q) = Cert.Spec.edgeSpec X0 W1 B1 W2 B2 i := by
  subst h1 h2 h3 h4
  rw [pay0_apply]
  show Cert.Spec.silu (Cert.Spec.affine2 x0 x1 x2 x3 x4 p q) = Cert.Spec.silu (Cert.Spec.affine2 X0 x1 x2 x3 x4 (i 0) (i 1))
  rw [hq]
  unfold Cert.Spec.affine2 Cert.Spec.hidden
  simp only [h0]

variable (V : (c : Dev nD) → (b : Ref sig .tc) → Buf (Elt Ideal) ((c : Thread nD τ).loc b))

abbrev arr0_0 (c : Dev nD) : Vec Ideal S850000x222 .f32 := V c (Pipeline.arrRef spec2 0)
abbrev arr0_1 (c : Dev nD) : Vec Ideal S222x128 .f32 := V c (Pipeline.arrRef spec2 1)
abbrev arr0_2 (c : Dev nD) : Vec Ideal S1x128 .f32 := V c (Pipeline.arrRef spec2 2)
abbrev arr0_3 (c : Dev nD) : Vec Ideal S128x32 .f32 := V c (Pipeline.arrRef spec2 3)
abbrev arr0_4 (c : Dev nD) : Vec Ideal S1x32 .f32 := V c (Pipeline.arrRef spec2 4)

abbrev blk0_0 (c : Dev nD) (t : Fin cfg2.N) : Vec Ideal S5000x222 .f32 := iblk2 V c 0 t
abbrev blk0_1 (c : Dev nD) (t : Fin cfg2.N) : Vec Ideal S222x128 .f32 := iblk2 V c 1 t
abbrev blk0_2 (c : Dev nD) (t : Fin cfg2.N) : Vec Ideal S1x128 .f32 := iblk2 V c 2 t
abbrev blk0_3 (c : Dev nD) (t : Fin cfg2.N) : Vec Ideal S128x32 .f32 := iblk2 V c 3 t
abbrev blk0_4 (c : Dev nD) (t : Fin cfg2.N) : Vec Ideal S1x32 .f32 := iblk2 V c 4 t

theorem idx_facts0 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem blk0_0_apply (c : Dev nD) (t : Fin cfg2.N) (p : Fin 5000) (l : Fin 222) (r : Fin 850000)
    (hr : r.val = 5000 * t.val + p.val) : blk0_0 V c t (ix2 p l) = arr0_0 V c (ix2 r l) := by
  show V c (Pipeline.arrRef spec2 0) (((cfg2.win 0).blk t).view.emb (ix2 p l)) = V c (Pipeline.arrRef spec2 0) (ix2 r l)
  obtain ⟨e00, e01, -⟩ := idx_facts0 t
  refine congrArg _ (funext fun a => Fin.ext ?_)
  match a with
  | ⟨0, _⟩ => show win2_0.index t (0 : Fin 2) * 5000 + 1 * p.val = r.val; omega
  | ⟨1, _⟩ => show win2_0.index t (1 : Fin 2) * 222 + 1 * l.val = l.val; omega

theorem blk0_1_eq (c : Dev nD) (t : Fin cfg2.N) : blk0_1 V c t = arr0_1 V c := by
  funext y
  show V c (Pipeline.arrRef spec2 1) (((cfg2.win 1).blk t).view.emb y) = V c (Pipeline.arrRef spec2 1) y
  obtain ⟨-, -, e0, e1, -⟩ := idx_facts0 t
  refine congrArg _ (funext fun a => Fin.ext ?_)
  match a with
  | ⟨0, _⟩ => show win2_1.index t (0 : Fin 2) * 222 + 1 * (y 0).val = (y 0).val; omega
  | ⟨1, _⟩ => show win2_1.index t (1 : Fin 2) * 128 + 1 * (y 1).val = (y 1).val; omega

theorem blk0_2_eq (c : Dev nD) (t : Fin cfg2.N) : blk0_2 V c t = arr0_2 V c := by
  funext y
  show V c (Pipeline.arrRef spec2 2) (((cfg2.win 2).blk t).view.emb y) = V c (Pipeline.arrRef spec2 2) y
  obtain ⟨-, -, -, -, e0, e1, -⟩ := idx_facts0 t
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem blk0_3_eq (c : Dev nD) (t : Fin cfg2.N) : blk0_3 V c t = arr0_3 V c := by
  funext y
  show V c (Pipeline.arrRef spec2 3) (((cfg2.win 3).blk t).view.emb y) = V c (Pipeline.arrRef spec2 3) y
  obtain ⟨-, -, -, -, -, -, e0, e1, -⟩ := idx_facts0 t
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 32 + 1 * (y 1).val = (y 1).val; omega

theorem blk0_4_eq (c : Dev nD) (t : Fin cfg2.N) : blk0_4 V c t = arr0_4 V c := by
  funext y
  show V c (Pipeline.arrRef spec2 4) (((cfg2.win 4).blk t).view.emb y) = V c (Pipeline.arrRef spec2 4) y
  obtain ⟨-, -, -, -, -, -, -, -, e0, e1, -⟩ := idx_facts0 t
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 32 + 1 * (y 1).val = (y 1).val; omega

theorem hz0 : (![0, 0] : Fin 2 → Nat) = fun _ => 0 := funext fun a => by fin_cases a <;> rfl

theorem flushed0_eq (c : Dev nD) (t : Fin cfg2.N) :
    (dat2 V c).flushed 5 t = ((cfg2.win 5).blk t).view.read (Elt Ideal)
      (Cert.Spec.edgeSpec (arr0_0 V c) (arr0_1 V c) (arr0_2 V c) (arr0_3 V c) (arr0_4 V c)) := by
  show (cfg2.win 5).cut (grid2.coords t) ((dat2 V c).after 5 t) = _
  rw [after2_5]
  unfold out2_5
  rw [View.canon_unit_zero hz0]
  simp only [View.ld_unit_zero (S := S5000x222) hz0, View.ld_unit_zero (S := S222x128) hz0, View.ld_unit_zero (S := S1x128) hz0,
    View.ld_unit_zero (S := S128x32) hz0, View.ld_unit_zero (S := S1x32) hz0]
  funext j
  obtain ⟨p, q, rfl⟩ : ∃ (p : Fin 5000) (q : Fin 32), j = ix2 p q := ⟨j 0, j 1, eq_ix2 j⟩
  obtain ⟨-, -, -, -, -, -, -, -, -, -, e50, e51⟩ := idx_facts0 t
  show k2_pay1 (blk0_0 V c t) (blk0_1 V c t) (blk0_2 V c t) (blk0_3 V c t) (blk0_4 V c t) (ix2 p q)
    = Cert.Spec.edgeSpec (arr0_0 V c) (arr0_1 V c) (arr0_2 V c) (arr0_3 V c) (arr0_4 V c) (((cfg2.win 5).blk t).view.emb (ix2 p q))
  refine pay0_eq_edge (arr0_0 V c) (arr0_1 V c) (arr0_2 V c) (arr0_3 V c) (arr0_4 V c)
    (blk0_0 V c t) (blk0_1 V c t) (blk0_2 V c t) (blk0_3 V c t) (blk0_4 V c t) p q (((cfg2.win 5).blk t).view.emb (ix2 p q))
    (fun l => blk0_0_apply V c t p l _ ?_) (Fin.ext ?_) (blk0_1_eq V c t) (blk0_2_eq V c t) (blk0_3_eq V c t) (blk0_4_eq V c t)
  · show win2_5.index t (0 : Fin 2) * 5000 + 1 * p.val = 5000 * t.val + p.val; omega
  · show win2_5.index t (1 : Fin 2) * 32 + 1 * q.val = q.val; omega

theorem mem_blk0 (t : Fin cfg2.N) (i : S850000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole (Pipeline.arrRef spec2 5)).slice (win2_5.rect t)).set ↔ _
  rw [View.set_slice_whole, Rect.mem_set_unit]
  exact Iff.rfl

theorem cover2 (i : S850000x32.Idx) : ∃ t : Fin cfg2.N, (cfg2.win 5).flush t = true ∧ i ∈ ((cfg2.win 5).blk t).view.set := by
  have hi0 : (i 0).val < 850000 := (i 0).isLt
  have hi1 : (i 1).val < 32 := (i 1).isLt
  have hN : cfg2.N = 170 := N_2
  have ht : (i 0).val / 5000 < cfg2.N := by rw [hN]; omega
  obtain ⟨-, -, -, -, -, -, -, -, -, -, e50, e51⟩ := idx_facts0 ⟨(i 0).val / 5000, ht⟩
  have e50' : win2_5.index ⟨(i 0).val / 5000, ht⟩ (0 : Fin 2) = (i 0).val / 5000 := e50
  refine ⟨⟨(i 0).val / 5000, ht⟩, flush2_5 _, ?_⟩
  rw [mem_blk0]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    omega
  | ⟨1, _⟩ =>
    show win2_5.index ⟨(i 0).val / 5000, ht⟩ (1 : Fin 2) * 32 ≤ (i 1).val ∧ (i 1).val < win2_5.index ⟨(i 0).val / 5000, ht⟩ (1 : Fin 2) * 32 + 32
    omega

theorem edge2_final (V : (c : Dev nD) → (b : Ref sig .tc) → Buf (Elt Ideal) ((c : Thread nD τ).loc b)) (c : Dev nD) :
    (dat2 (F := Ideal) V c).arrAt 5 cfg2.N
      = Cert.Spec.edgeSpec (V c main_v241) (V c main_v243) (V c main_v250) (V c main_v247) (V c main_v251) :=
  (dat2 V c).arrAt_eq_of_cover 5
    (Cert.Spec.edgeSpec (V c main_v241) (V c main_v243) (V c main_v250) (V c main_v247) (V c main_v251))
    (fun t _ => flushed0_eq V c t) cover2

end Cert.KernelIdeal.Fr.P2

end
-- ==== Proof.KINodeVal1.lean ====
import proofs.«430199_j90752658965038_1_alg».proof.Proof.KIRegion1
import proofs.«430199_j90752658965038_1_alg».proof.Proof.Spec
import proofs.«430199_j90752658965038_1_alg».proof.Proof.LibDot
import Idealize.ShloMosaic.Lib.Pipeline.Value
import Idealize.ShloMosaic.Lib.ValueIdx
import Idealize.ShloMosaic.Lib.ValueLayout
import Idealize.ShloMosaic.PureOps.Ideal.Laws

/-! The node region's output array is `nodeSpec` of its operand arrays: a point's payload is the spec on its 5000 rows, and the points' row blocks tile the array. -/

set_option maxRecDepth 16384

noncomputable section

open scoped BigOperators

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem matmul_S5000x142_S142x128_apply (x : FVec Ideal S5000x142 .bf16) (w : FVec Ideal S142x128 .bf16)
    (p : Fin 5000) (k : Fin 128) :
    matmul dot_S5000x142_S142x128_S5000x128_1_0_0_1_n_n none x w (constant (F := Ideal) S5000x128 .f32 0x00000000#32) (ix2 p k)
      = ∑ l : Fin 142, x (ix2 p l) * w (ix2 l k) :=
  Cert.Lib.matmul_plain_apply _ rfl none x w p k

theorem matmul_S5000x128_S128x110_apply (x : FVec Ideal S5000x128 .bf16) (w : FVec Ideal S128x110 .bf16)
    (p : Fin 5000) (q : Fin 110) :
    matmul dot_S5000x128_S128x110_S5000x110_1_0_0_1_n_n none x w (constant (F := Ideal) S5000x110 .f32 0x00000000#32) (ix2 p q)
      = ∑ k : Fin 128, x (ix2 p k) * w (ix2 k q) :=
  Cert.Lib.matmul_plain_apply _ rfl none x w p q

theorem logistic_apply {s : Shape} {φ : FTy} (x : FVec Ideal s φ) (i : s.Idx) : logistic x i = Ideal.logistic (x i) := rfl

theorem k1_pay1_apply (xh : Vec Ideal S5000x142 .f32) (w1 : Vec Ideal S142x128 .f32) (b1 : Vec Ideal S1x128 .f32)
    (w2 : Vec Ideal S128x110 .f32) (b2 : Vec Ideal S1x110 .f32) (xf : Vec Ideal S5000x110 .f32) (p : Fin 5000) (q : Fin 110) :
    k1_pay1 (F := Ideal) xh w1 b1 w2 b2 xf (ix2 p q)
      = xf (ix2 p q) + Cert.Spec.affine2 xh w1 b1 w2 b2 p q := by
  unfold k1_pay1
  simp only [shapeCast_self]
  rw [addf_apply, addf_apply, matmul_S5000x128_S128x110_apply, broadcastTo_1b_ab_apply]
  unfold Cert.Spec.affine2 Cert.Spec.hidden Cert.Spec.silu
  congr 2
  refine Finset.sum_congr rfl fun k _ => ?_
  rw [truncf_apply, truncf_apply, mulf_apply, logistic_apply, addf_apply, matmul_S5000x142_S142x128_apply, broadcastTo_1b_ab_apply]
  rfl

section Region

variable (V : (c : Dev nD) → (b : Ref sig .tc) → Buf (Elt Ideal) ((c : Thread nD τ).loc b))

abbrev arr1_0 (c : Dev nD) : Vec Ideal S50000x142 .f32 := V c (Pipeline.arrRef spec1 0)
abbrev arr1_1 (c : Dev nD) : Vec Ideal S50000x110 .f32 := V c (Pipeline.arrRef spec1 1)
abbrev arr1_2 (c : Dev nD) : Vec Ideal S142x128 .f32 := V c (Pipeline.arrRef spec1 2)
abbrev arr1_3 (c : Dev nD) : Vec Ideal S1x128 .f32 := V c (Pipeline.arrRef spec1 3)
abbrev arr1_4 (c : Dev nD) : Vec Ideal S128x110 .f32 := V c (Pipeline.arrRef spec1 4)
abbrev arr1_5 (c : Dev nD) : Vec Ideal S1x110 .f32 := V c (Pipeline.arrRef spec1 5)

theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

theorem val_lt_N1 (t : Fin cfg1.N) : t.val < 10 := by have := t.isLt; have e : cfg1.N = 10 := N_1; omega

theorem row_lt1 (t : Fin cfg1.N) (p : Fin 5000) : 5000 * t.val + p.val < 50000 := by
  have := val_lt_N1 t; have := p.isLt; omega

theorem iblk1_0_apply (c : Dev nD) (t : Fin cfg1.N) (p : Fin 5000) (l : Fin 142) :
    (iblk1 (F := Ideal) V c 0 t : Vec Ideal S5000x142 .f32) (ix2 p l) = arr1_0 V c (ix2 ⟨5000 * t.val + p.val, row_lt1 t p⟩ l) := by
  obtain ⟨⟨h0, h1⟩, -⟩ := idx_facts1 t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 5000 + 1 * p.val = 5000 * t.val + p.val; rw [h0]; omega
  | ⟨1, _⟩ => show win1_0.index t (1 : Fin 2) * 142 + 1 * l.val = l.val; rw [h1]; omega

theorem iblk1_1_apply (c : Dev nD) (t : Fin cfg1.N) (p : Fin 5000) (q : Fin 110) :
    (iblk1 (F := Ideal) V c 1 t : Vec Ideal S5000x110 .f32) (ix2 p q) = arr1_1 V c (ix2 ⟨5000 * t.val + p.val, row_lt1 t p⟩ q) := by
  obtain ⟨-, ⟨h0, h1⟩, -⟩ := idx_facts1 t
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 5000 + 1 * p.val = 5000 * t.val + p.val; rw [h0]; omega
  | ⟨1, _⟩ => show win1_1.index t (1 : Fin 2) * 110 + 1 * q.val = q.val; rw [h1]; omega

theorem iblk1_2_eq (c : Dev nD) (t : Fin cfg1.N) : (iblk1 (F := Ideal) V c 2 t : Vec Ideal S142x128 .f32) = arr1_2 V c := by
  obtain ⟨-, -, ⟨h0, h1⟩, -⟩ := idx_facts1 t
  funext y
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 142 + 1 * (y 0).val = (y 0).val; rw [h0]; omega
  | ⟨1, _⟩ => show win1_2.index t (1 : Fin 2) * 128 + 1 * (y 1).val = (y 1).val; rw [h1]; omega

theorem iblk1_3_eq (c : Dev nD) (t : Fin cfg1.N) : (iblk1 (F := Ideal) V c 3 t : Vec Ideal S1x128 .f32) = arr1_3 V c := by
  obtain ⟨-, -, -, ⟨h0, h1⟩, -⟩ := idx_facts1 t
  funext y
  unfold iblk1
  rw [View.read_apply]
  show V c (Pipeline.arrRef spec1 3) _ = V c (Pipeline.arrRef spec1 3) _
  congr 1
  funext a; apply Fin.ext
  match a with
  | ⟨0, _⟩ => show win1_3.index t (0 : Fin 2) * 1 + 1 * (y 0).val = (y 0).val; rw [h0]; omega
  | ⟨1, _⟩ => show win1_3.index t (1 : Fin 2) * 128 + 1 * (y 1).val = (y 1).val; rw [h1]; omega

theorem iblk1_4_eq (c : Dev nD) (t : Fin cfg1.N) : (iblk1 (F := Ideal) V c 4 t : Vec Ideal S128x110 .f32) = arr1_4 V c := by
  obtain ⟨-, -, -, -, ⟨h0, h1⟩, -⟩ := idx_facts1 t
  funext y
  unfold iblk1
  rw [View.read_apply]
  show V c (Pipeline.arrRef spec1 4) _ = V c (Pipeline.arrRef spec1 4) _
  congr 1
  funext a; apply Fin.ext
  match a with
  | ⟨0, _⟩ => show win1_4.index t (0 : Fin 2) * 128 + 1 * (y 0).val = (y 0).val; rw [h0]; omega
  | ⟨1, _⟩ => show win1_4.index t (1 : Fin 2) * 110 + 1 * (y 1).val = (y 1).val; rw [h1]; omega

theorem iblk1_5_eq (c : Dev nD) (t : Fin cfg1.N) : (iblk1 (F := Ideal) V c 5 t : Vec Ideal S1x110 .f32) = arr1_5 V c := by
  obtain ⟨-, -, -, -, -, ⟨h0, h1⟩, -⟩ := idx_facts1 t
  funext y
  unfold iblk1
  rw [View.read_apply]
  show V c (Pipeline.arrRef spec1 5) _ = V c (Pipeline.arrRef spec1 5) _
  congr 1
  funext a; apply Fin.ext
  match a with
  | ⟨0, _⟩ => show win1_5.index t (0 : Fin 2) * 1 + 1 * (y 0).val = (y 0).val; rw [h0]; omega
  | ⟨1, _⟩ => show win1_5.index t (1 : Fin 2) * 110 + 1 * (y 1).val = (y 1).val; rw [h1]; omega

theorem k1_pay1_rows (H : Vec Ideal S50000x142 .f32) (Fe : Vec Ideal S50000x110 .f32) (w1 : Vec Ideal S142x128 .f32)
    (b1 : Vec Ideal S1x128 .f32) (w2 : Vec Ideal S128x110 .f32) (b2 : Vec Ideal S1x110 .f32)
    (xh : Vec Ideal S5000x142 .f32) (xf : Vec Ideal S5000x110 .f32) (r : Fin 50000) (p : Fin 5000) (q : Fin 110)
    (hh : ∀ l : Fin 142, xh (ix2 p l) = H (ix2 r l)) (hf : xf (ix2 p q) = Fe (ix2 r q)) :
    k1_pay1 (F := Ideal) xh w1 b1 w2 b2 xf (ix2 p q) = Cert.Spec.nodeSpec H Fe w1 b1 w2 b2 (ix2 r q) := by
  rw [k1_pay1_apply, hf]
  show _ = Fe (ix2 r q) + Cert.Spec.affine2 H w1 b1 w2 b2 r q
  unfold Cert.Spec.affine2 Cert.Spec.hidden
  simp only [hh]

theorem hz1 : (![0, 0] : Fin 2 → Nat) = fun _ => 0 := funext fun a => by fin_cases a <;> rfl

theorem read_blk1_6_apply (G : Vec Ideal S50000x110 .f32) (t : Fin cfg1.N) (p : Fin 5000) (q : Fin 110) :
    (((cfg1.win 6).blk t).view.read (Elt Ideal) G : Vec Ideal S5000x110 .f32) (ix2 p q) = G (ix2 ⟨5000 * t.val + p.val, row_lt1 t p⟩ q) := by
  obtain ⟨-, -, -, -, -, -, h0, h1⟩ := idx_facts1 t
  rw [View.read_apply]
  show G _ = G _
  congr 1
  funext a; apply Fin.ext
  match a with
  | ⟨0, _⟩ => show win1_6.index t (0 : Fin 2) * 5000 + 1 * p.val = 5000 * t.val + p.val; rw [h0]; omega
  | ⟨1, _⟩ => show win1_6.index t (1 : Fin 2) * 110 + 1 * q.val = q.val; rw [h1]; omega

abbrev node1 (c : Dev nD) : Vec Ideal S50000x110 .f32 :=
  Cert.Spec.nodeSpec (arr1_0 V c) (arr1_1 V c) (arr1_2 V c) (arr1_3 V c) (arr1_4 V c) (arr1_5 V c)

theorem flushed1_6_eq (c : Dev nD) (t : Fin cfg1.N) :
    (dat1 (F := Ideal) V c).flushed 6 t = ((cfg1.win 6).blk t).view.read (Elt Ideal) (node1 V c) := by
  show (cfg1.win 6).cut (grid1.coords t) ((dat1 (F := Ideal) V c).after 6 t) = _
  rw [after1_6]
  unfold out1_6
  rw [View.canon_unit_zero hz1]
  simp only [View.ld_unit_zero (S := S5000x142) hz1, View.ld_unit_zero (S := S5000x110) hz1,
    View.ld_unit_zero (S := S142x128) hz1, View.ld_unit_zero (S := S1x128) hz1,
    View.ld_unit_zero (S := S128x110) hz1, View.ld_unit_zero (S := S1x110) hz1]
  rw [iblk1_2_eq, iblk1_3_eq, iblk1_4_eq, iblk1_5_eq]
  funext y
  obtain ⟨p, q, rfl⟩ : ∃ (p : Fin 5000) (q : Fin 110), y = ix2 p q := ⟨y 0, y 1, eq_ix2 (n0 := 5000) (n1 := 110) y⟩
  refine (k1_pay1_rows (arr1_0 V c) (arr1_1 V c) (arr1_2 V c) (arr1_3 V c) (arr1_4 V c) (arr1_5 V c)
    (iblk1 (F := Ideal) V c 0 t) (iblk1 (F := Ideal) V c 1 t) ⟨5000 * t.val + p.val, row_lt1 t p⟩ p q
    (fun l => iblk1_0_apply V c t p l) (iblk1_1_apply V c t p q)).trans ?_
  exact (read_blk1_6_apply (node1 V c) t p q).symm

theorem mem_blk1_6 (t : Fin cfg1.N) (i : S50000x110.Idx) :
    i ∈ ((cfg1.win 6).blk t).view.set ↔ ∀ a : Fin 2, win1_6.index t a * S5000x110.size a ≤ (i a).val
      ∧ (i a).val < win1_6.index t a * S5000x110.size a + S5000x110.size a := by
  show i ∈ ((View.whole (Pipeline.arrRef spec1 6)).slice (win1_6.rect t)).set ↔ _
  rw [View.set_slice_whole, Rect.mem_set_unit]
  exact Iff.rfl

theorem rows_cover1_6 (i : S50000x110.Idx) :
    ∃ t : Fin cfg1.N, (cfg1.win 6).flush t = true ∧ i ∈ ((cfg1.win 6).blk t).view.set := by
  have hi0 : (i 0).val < 50000 := (i 0).isLt
  have hi1 : (i 1).val < 110 := (i 1).isLt
  have hN : cfg1.N = 10 := N_1
  have ht : (i 0).val / 5000 < cfg1.N := by rw [hN]; omega
  obtain ⟨-, -, -, -, -, -, h0, h1⟩ := idx_facts1 ⟨(i 0).val / 5000, ht⟩
  refine ⟨⟨(i 0).val / 5000, ht⟩, flush1_6 _, ?_⟩
  rw [mem_blk1_6]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win1_6.index ⟨(i 0).val / 5000, ht⟩ (1 : Fin 2) * 110 ≤ (i 1).val
      ∧ (i 1).val < win1_6.index ⟨(i 0).val / 5000, ht⟩ (1 : Fin 2) * 110 + 110
    rw [h1]; omega

theorem final1_6 (c : Dev nD) : (dat1 (F := Ideal) V c).arrAt 6 cfg1.N = node1 V c :=
  (dat1 (F := Ideal) V c).arrAt_eq_of_cover 6 (node1 V c) (fun t _ => flushed1_6_eq V c t) rows_cover1_6

end Region

theorem node1_final (V : (c : Dev nD) → (b : Ref sig .tc) → Buf (Elt Ideal) ((c : Thread nD τ).loc b)) (c : Dev nD) :
    (dat1 (F := Ideal) V c).arrAt 6 cfg1.N
      = Cert.Spec.nodeSpec (V c main_v215) (V c main_v105) (V c main_v217) (V c main_v224) (V c main_v221) (V c main_v225) :=
  final1_6 V c

end Cert.KernelIdeal.Fr

end
-- ==== Proof.KINodeVal3.lean ====
import proofs.«430199_j90752658965038_1_alg».proof.Proof.KIRegion3
import proofs.«430199_j90752658965038_1_alg».proof.Proof.Spec
import proofs.«430199_j90752658965038_1_alg».proof.Proof.LibDot
import Idealize.ShloMosaic.Lib.Pipeline.Value
import Idealize.ShloMosaic.Lib.ValueIdx
import Idealize.ShloMosaic.Lib.ValueLayout
import Idealize.ShloMosaic.PureOps.Ideal.Laws

/-! The node region's output array is `nodeSpec` of its operand arrays: a point's payload is the spec on its 5000 rows, and the points' row blocks tile the array. -/

set_option maxRecDepth 16384

noncomputable section

open scoped BigOperators

namespace Cert.KernelIdeal.Fr.P3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem matmul_S5000x142_S142x128_apply (x : FVec Ideal S5000x142 .bf16) (w : FVec Ideal S142x128 .bf16)
    (p : Fin 5000) (k : Fin 128) :
    matmul dot_S5000x142_S142x128_S5000x128_1_0_0_1_n_n none x w (constant (F := Ideal) S5000x128 .f32 0x00000000#32) (ix2 p k)
      = ∑ l : Fin 142, x (ix2 p l) * w (ix2 l k) :=
  Cert.Lib.matmul_plain_apply _ rfl none x w p k

theorem matmul_S5000x128_S128x110_apply (x : FVec Ideal S5000x128 .bf16) (w : FVec Ideal S128x110 .bf16)
    (p : Fin 5000) (q : Fin 110) :
    matmul dot_S5000x128_S128x110_S5000x110_1_0_0_1_n_n none x w (constant (F := Ideal) S5000x110 .f32 0x00000000#32) (ix2 p q)
      = ∑ k : Fin 128, x (ix2 p k) * w (ix2 k q) :=
  Cert.Lib.matmul_plain_apply _ rfl none x w p q

theorem logistic_apply {s : Shape} {φ : FTy} (x : FVec Ideal s φ) (i : s.Idx) : logistic x i = Ideal.logistic (x i) := rfl

theorem k3_pay1_apply (xh : Vec Ideal S5000x142 .f32) (w1 : Vec Ideal S142x128 .f32) (b1 : Vec Ideal S1x128 .f32)
    (w2 : Vec Ideal S128x110 .f32) (b2 : Vec Ideal S1x110 .f32) (xf : Vec Ideal S5000x110 .f32) (p : Fin 5000) (q : Fin 110) :
    k3_pay1 (F := Ideal) xh w1 b1 w2 b2 xf (ix2 p q)
      = xf (ix2 p q) + Cert.Spec.affine2 xh w1 b1 w2 b2 p q := by
  unfold k3_pay1
  simp only [shapeCast_self]
  rw [addf_apply, addf_apply, matmul_S5000x128_S128x110_apply, broadcastTo_1b_ab_apply]
  unfold Cert.Spec.affine2 Cert.Spec.hidden Cert.Spec.silu
  congr 2
  refine Finset.sum_congr rfl fun k _ => ?_
  rw [truncf_apply, truncf_apply, mulf_apply, logistic_apply, addf_apply, matmul_S5000x142_S142x128_apply, broadcastTo_1b_ab_apply]
  rfl

section Region

variable (V : (c : Dev nD) → (b : Ref sig .tc) → Buf (Elt Ideal) ((c : Thread nD τ).loc b))

abbrev arr1_0 (c : Dev nD) : Vec Ideal S50000x142 .f32 := V c (Pipeline.arrRef spec3 0)
abbrev arr1_1 (c : Dev nD) : Vec Ideal S50000x110 .f32 := V c (Pipeline.arrRef spec3 1)
abbrev arr1_2 (c : Dev nD) : Vec Ideal S142x128 .f32 := V c (Pipeline.arrRef spec3 2)
abbrev arr1_3 (c : Dev nD) : Vec Ideal S1x128 .f32 := V c (Pipeline.arrRef spec3 3)
abbrev arr1_4 (c : Dev nD) : Vec Ideal S128x110 .f32 := V c (Pipeline.arrRef spec3 4)
abbrev arr1_5 (c : Dev nD) : Vec Ideal S1x110 .f32 := V c (Pipeline.arrRef spec3 5)

theorem idx_facts1 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

theorem val_lt_N1 (t : Fin cfg3.N) : t.val < 10 := by have := t.isLt; have e : cfg3.N = 10 := N_3; omega

theorem row_lt1 (t : Fin cfg3.N) (p : Fin 5000) : 5000 * t.val + p.val < 50000 := by
  have := val_lt_N1 t; have := p.isLt; omega

theorem iblk3_0_apply (c : Dev nD) (t : Fin cfg3.N) (p : Fin 5000) (l : Fin 142) :
    (iblk3 (F := Ideal) V c 0 t : Vec Ideal S5000x142 .f32) (ix2 p l) = arr1_0 V c (ix2 ⟨5000 * t.val + p.val, row_lt1 t p⟩ l) := by
  obtain ⟨⟨h0, h1⟩, -⟩ := idx_facts1 t
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 5000 + 1 * p.val = 5000 * t.val + p.val; rw [h0]; omega
  | ⟨1, _⟩ => show win3_0.index t (1 : Fin 2) * 142 + 1 * l.val = l.val; rw [h1]; omega

theorem iblk3_1_apply (c : Dev nD) (t : Fin cfg3.N) (p : Fin 5000) (q : Fin 110) :
    (iblk3 (F := Ideal) V c 1 t : Vec Ideal S5000x110 .f32) (ix2 p q) = arr1_1 V c (ix2 ⟨5000 * t.val + p.val, row_lt1 t p⟩ q) := by
  obtain ⟨-, ⟨h0, h1⟩, -⟩ := idx_facts1 t
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 5000 + 1 * p.val = 5000 * t.val + p.val; rw [h0]; omega
  | ⟨1, _⟩ => show win3_1.index t (1 : Fin 2) * 110 + 1 * q.val = q.val; rw [h1]; omega

theorem iblk3_2_eq (c : Dev nD) (t : Fin cfg3.N) : (iblk3 (F := Ideal) V c 2 t : Vec Ideal S142x128 .f32) = arr1_2 V c := by
  obtain ⟨-, -, ⟨h0, h1⟩, -⟩ := idx_facts1 t
  funext y
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 142 + 1 * (y 0).val = (y 0).val; rw [h0]; omega
  | ⟨1, _⟩ => show win3_2.index t (1 : Fin 2) * 128 + 1 * (y 1).val = (y 1).val; rw [h1]; omega

theorem iblk3_3_eq (c : Dev nD) (t : Fin cfg3.N) : (iblk3 (F := Ideal) V c 3 t : Vec Ideal S1x128 .f32) = arr1_3 V c := by
  obtain ⟨-, -, -, ⟨h0, h1⟩, -⟩ := idx_facts1 t
  funext y
  unfold iblk3
  rw [View.read_apply]
  show V c (Pipeline.arrRef spec3 3) _ = V c (Pipeline.arrRef spec3 3) _
  congr 1
  funext a; apply Fin.ext
  match a with
  | ⟨0, _⟩ => show win3_3.index t (0 : Fin 2) * 1 + 1 * (y 0).val = (y 0).val; rw [h0]; omega
  | ⟨1, _⟩ => show win3_3.index t (1 : Fin 2) * 128 + 1 * (y 1).val = (y 1).val; rw [h1]; omega

theorem iblk3_4_eq (c : Dev nD) (t : Fin cfg3.N) : (iblk3 (F := Ideal) V c 4 t : Vec Ideal S128x110 .f32) = arr1_4 V c := by
  obtain ⟨-, -, -, -, ⟨h0, h1⟩, -⟩ := idx_facts1 t
  funext y
  unfold iblk3
  rw [View.read_apply]
  show V c (Pipeline.arrRef spec3 4) _ = V c (Pipeline.arrRef spec3 4) _
  congr 1
  funext a; apply Fin.ext
  match a with
  | ⟨0, _⟩ => show win3_4.index t (0 : Fin 2) * 128 + 1 * (y 0).val = (y 0).val; rw [h0]; omega
  | ⟨1, _⟩ => show win3_4.index t (1 : Fin 2) * 110 + 1 * (y 1).val = (y 1).val; rw [h1]; omega

theorem iblk3_5_eq (c : Dev nD) (t : Fin cfg3.N) : (iblk3 (F := Ideal) V c 5 t : Vec Ideal S1x110 .f32) = arr1_5 V c := by
  obtain ⟨-, -, -, -, -, ⟨h0, h1⟩, -⟩ := idx_facts1 t
  funext y
  unfold iblk3
  rw [View.read_apply]
  show V c (Pipeline.arrRef spec3 5) _ = V c (Pipeline.arrRef spec3 5) _
  congr 1
  funext a; apply Fin.ext
  match a with
  | ⟨0, _⟩ => show win3_5.index t (0 : Fin 2) * 1 + 1 * (y 0).val = (y 0).val; rw [h0]; omega
  | ⟨1, _⟩ => show win3_5.index t (1 : Fin 2) * 110 + 1 * (y 1).val = (y 1).val; rw [h1]; omega

theorem k3_pay1_rows (H : Vec Ideal S50000x142 .f32) (Fe : Vec Ideal S50000x110 .f32) (w1 : Vec Ideal S142x128 .f32)
    (b1 : Vec Ideal S1x128 .f32) (w2 : Vec Ideal S128x110 .f32) (b2 : Vec Ideal S1x110 .f32)
    (xh : Vec Ideal S5000x142 .f32) (xf : Vec Ideal S5000x110 .f32) (r : Fin 50000) (p : Fin 5000) (q : Fin 110)
    (hh : ∀ l : Fin 142, xh (ix2 p l) = H (ix2 r l)) (hf : xf (ix2 p q) = Fe (ix2 r q)) :
    k3_pay1 (F := Ideal) xh w1 b1 w2 b2 xf (ix2 p q) = Cert.Spec.nodeSpec H Fe w1 b1 w2 b2 (ix2 r q) := by
  rw [k3_pay1_apply, hf]
  show _ = Fe (ix2 r q) + Cert.Spec.affine2 H w1 b1 w2 b2 r q
  unfold Cert.Spec.affine2 Cert.Spec.hidden
  simp only [hh]

theorem hz1 : (![0, 0] : Fin 2 → Nat) = fun _ => 0 := funext fun a => by fin_cases a <;> rfl

theorem read_blk1_6_apply (G : Vec Ideal S50000x110 .f32) (t : Fin cfg3.N) (p : Fin 5000) (q : Fin 110) :
    (((cfg3.win 6).blk t).view.read (Elt Ideal) G : Vec Ideal S5000x110 .f32) (ix2 p q) = G (ix2 ⟨5000 * t.val + p.val, row_lt1 t p⟩ q) := by
  obtain ⟨-, -, -, -, -, -, h0, h1⟩ := idx_facts1 t
  rw [View.read_apply]
  show G _ = G _
  congr 1
  funext a; apply Fin.ext
  match a with
  | ⟨0, _⟩ => show win3_6.index t (0 : Fin 2) * 5000 + 1 * p.val = 5000 * t.val + p.val; rw [h0]; omega
  | ⟨1, _⟩ => show win3_6.index t (1 : Fin 2) * 110 + 1 * q.val = q.val; rw [h1]; omega

abbrev node3 (c : Dev nD) : Vec Ideal S50000x110 .f32 :=
  Cert.Spec.nodeSpec (arr1_0 V c) (arr1_1 V c) (arr1_2 V c) (arr1_3 V c) (arr1_4 V c) (arr1_5 V c)

theorem flushed1_6_eq (c : Dev nD) (t : Fin cfg3.N) :
    (dat3 (F := Ideal) V c).flushed 6 t = ((cfg3.win 6).blk t).view.read (Elt Ideal) (node3 V c) := by
  show (cfg3.win 6).cut (grid3.coords t) ((dat3 (F := Ideal) V c).after 6 t) = _
  rw [after3_6]
  unfold out3_6
  rw [View.canon_unit_zero hz1]
  simp only [View.ld_unit_zero (S := S5000x142) hz1, View.ld_unit_zero (S := S5000x110) hz1,
    View.ld_unit_zero (S := S142x128) hz1, View.ld_unit_zero (S := S1x128) hz1,
    View.ld_unit_zero (S := S128x110) hz1, View.ld_unit_zero (S := S1x110) hz1]
  rw [iblk3_2_eq, iblk3_3_eq, iblk3_4_eq, iblk3_5_eq]
  funext y
  obtain ⟨p, q, rfl⟩ : ∃ (p : Fin 5000) (q : Fin 110), y = ix2 p q := ⟨y 0, y 1, eq_ix2 (n0 := 5000) (n1 := 110) y⟩
  refine (k3_pay1_rows (arr1_0 V c) (arr1_1 V c) (arr1_2 V c) (arr1_3 V c) (arr1_4 V c) (arr1_5 V c)
    (iblk3 (F := Ideal) V c 0 t) (iblk3 (F := Ideal) V c 1 t) ⟨5000 * t.val + p.val, row_lt1 t p⟩ p q
    (fun l => iblk3_0_apply V c t p l) (iblk3_1_apply V c t p q)).trans ?_
  exact (read_blk1_6_apply (node3 V c) t p q).symm

theorem mem_blk1_6 (t : Fin cfg3.N) (i : S50000x110.Idx) :
    i ∈ ((cfg3.win 6).blk t).view.set ↔ ∀ a : Fin 2, win3_6.index t a * S5000x110.size a ≤ (i a).val
      ∧ (i a).val < win3_6.index t a * S5000x110.size a + S5000x110.size a := by
  show i ∈ ((View.whole (Pipeline.arrRef spec3 6)).slice (win3_6.rect t)).set ↔ _
  rw [View.set_slice_whole, Rect.mem_set_unit]
  exact Iff.rfl

theorem rows_cover1_6 (i : S50000x110.Idx) :
    ∃ t : Fin cfg3.N, (cfg3.win 6).flush t = true ∧ i ∈ ((cfg3.win 6).blk t).view.set := by
  have hi0 : (i 0).val < 50000 := (i 0).isLt
  have hi1 : (i 1).val < 110 := (i 1).isLt
  have hN : cfg3.N = 10 := N_3
  have ht : (i 0).val / 5000 < cfg3.N := by rw [hN]; omega
  obtain ⟨-, -, -, -, -, -, h0, h1⟩ := idx_facts1 ⟨(i 0).val / 5000, ht⟩
  refine ⟨⟨(i 0).val / 5000, ht⟩, flush3_6 _, ?_⟩
  rw [mem_blk1_6]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [h0]; show (i 0).val / 5000 * 5000 ≤ (i 0).val ∧ (i 0).val < (i 0).val / 5000 * 5000 + 5000; omega
  | ⟨1, _⟩ =>
    show win3_6.index ⟨(i 0).val / 5000, ht⟩ (1 : Fin 2) * 110 ≤ (i 1).val
      ∧ (i 1).val < win3_6.index ⟨(i 0).val / 5000, ht⟩ (1 : Fin 2) * 110 + 110
    rw [h1]; omega

theorem final1_6 (c : Dev nD) : (dat3 (F := Ideal) V c).arrAt 6 cfg3.N = node3 V c :=
  (dat3 (F := Ideal) V c).arrAt_eq_of_cover 6 (node3 V c) (fun t _ => flushed1_6_eq V c t) rows_cover1_6

end Region

theorem node3_final (V : (c : Dev nD) → (b : Ref sig .tc) → Buf (Elt Ideal) ((c : Thread nD τ).loc b)) (c : Dev nD) :
    (dat3 (F := Ideal) V c).arrAt 6 cfg3.N
      = Cert.Spec.nodeSpec (V c main_v300) (V c main_v226) (V c main_v302) (V c main_v309) (V c main_v306) (V c main_v310) :=
  final1_6 V c

end Cert.KernelIdeal.Fr.P3

end
-- ==== Proof.RefBlocks.lean ====
import proofs.«430199_j90752658965038_1_alg».proof.Proof.RefOps
import proofs.«430199_j90752658965038_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.StackMember

/-! The reference's edge and node stages are `edgeSpec` and `nodeSpec` of their operands: a `dot_general` with one contracted axis is a sum over that axis, a one-row bias is spread over the rows, and `x · (1 / (1 + e^(-x)))` is `x · σ(x)`. -/

set_option maxRecDepth 16384

noncomputable section

open scoped BigOperators

namespace Cert.ReferenceIdeal.Hand

open Idealize.ShloMosaic Idealize.ShloMosaic.TcCoe Idealize.ShloMosaic.ValueIdx Idealize.ShloMosaic.StableHlo
open Idealize.SL.Sem
open Cert.ReferenceIdeal Cert.ReferenceIdeal.Gen

private theorem silu_host_apply {T : Shape} (h : (⟨0, ![]⟩ : Shape).BroadcastsInDim T ![]) (x : FVec Ideal T .f32) (i : T.Idx) :
    mulf x (Host.divf (broadcastInDim T ![] h (constant (F := Ideal) ⟨0, ![]⟩ .f32 0x3F800000#32))
      (addf (broadcastInDim T ![] h (constant (F := Ideal) ⟨0, ![]⟩ .f32 0x3F800000#32)) (Host.exp (Host.negf x)))) i
      = Cert.Spec.silu (x i) := by
  show x i * Ideal.div (broadcastInDim T ![] h (constant (F := Ideal) ⟨0, ![]⟩ .f32 0x3F800000#32) i)
      (broadcastInDim T ![] h (constant (F := Ideal) ⟨0, ![]⟩ .f32 0x3F800000#32) i + Ideal.exp (-(x i))) = _
  rw [broadcastInDim_scalar_apply, constant_apply, Ideal.ofBits_one_f32]
  rfl

private theorem row_bcast_apply {α : Type} {R n : Nat} (h : (⟨2, ![1, n]⟩ : Shape).BroadcastsInDim ⟨2, ![R, n]⟩ ![0, 1])
    (b : (⟨2, ![1, n]⟩ : Shape).Idx → α) (r : Fin R) (c : Fin n) :
    broadcastInDim ⟨2, ![R, n]⟩ ![0, 1] h b (ix2 r c) = b (ix2 (0 : Fin 1) c) := by
  refine broadcastInDim_apply _ h b _ _ fun a => ?_
  match a with
  | ⟨0, _⟩ => rfl
  | ⟨1, _⟩ =>
    show c.val = if n = 1 then 0 else c.val
    split
    · have := c.isLt; omega
    · rfl

private theorem dot_rows_apply {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (a : Fin M) (b : Fin N) :
    Host.dotGeneral d none A B (ix2 a b) = ∑ c : Fin K, A (ix2 a c) * B (ix2 c b) := by
  subst hd; exact StackMember.dotGeneral_plain_apply none A B a b

private abbrev siluHost {T : Shape} (h : (⟨0, ![]⟩ : Shape).BroadcastsInDim T ![]) (x : FVec Ideal T .f32) : FVec Ideal T .f32 :=
  mulf x (Host.divf (broadcastInDim T ![] h (constant (F := Ideal) ⟨0, ![]⟩ .f32 0x3F800000#32))
    (addf (broadcastInDim T ![] h (constant (F := Ideal) ⟨0, ![]⟩ .f32 0x3F800000#32)) (Host.exp (Host.negf x))))

theorem edge_host_eq_spec (m0 : FVec Ideal S850000x222 .f32) (w1 : FVec Ideal S222x128 .f32) (b1 : FVec Ideal S1x128 .f32)
    (w2 : FVec Ideal S128x32 .f32) (b2 : FVec Ideal S1x32 .f32) :
    siluHost bcast_S_S850000x32
        (addf (Host.dotGeneral dot_S850000x128_S128x32_S850000x32_1_0_0_1_n_n none
            (siluHost bcast_S_S850000x128
              (addf (Host.dotGeneral dot_S850000x222_S222x128_S850000x128_1_0_0_1_n_n none m0 w1)
                (broadcastInDim S850000x128 ![0, 1] bcast_S1x128_S850000x128_0_1 b1))) w2)
          (broadcastInDim S850000x32 ![0, 1] bcast_S1x32_S850000x32_0_1 b2))
      = Cert.Spec.edgeSpec m0 w1 b1 w2 b2 := by
  funext i
  obtain ⟨r, c, rfl⟩ : ∃ (r : Fin 850000) (c : Fin 32), i = ix2 r c := ⟨i 0, i 1, eq_ix2 i⟩
  rw [siluHost, silu_host_apply, addf_apply, dot_rows_apply dot_S850000x128_S128x32_S850000x32_1_0_0_1_n_n rfl, row_bcast_apply]
  show _ = Cert.Spec.silu ((∑ k : Fin 128, Cert.Spec.hidden m0 w1 b1 r k * w2 (ix2 k c)) + b2 (ix2 (0 : Fin 1) c))
  refine congrArg (fun s => Cert.Spec.silu (s + b2 (ix2 (0 : Fin 1) c))) (Finset.sum_congr rfl fun k _ => ?_)
  rw [siluHost, silu_host_apply, addf_apply, dot_rows_apply dot_S850000x222_S222x128_S850000x128_1_0_0_1_n_n rfl, row_bcast_apply]
  rfl

theorem ref_edge0 (W : Valuation τ sig (Elt Ideal)) :
    after (PE0 (F := Ideal)) W (Proc.devRef .tc main_v174)
      = Cert.Spec.edgeSpec (W (Proc.devRef .tc main_v156)) (after (PE0 (F := Ideal)) W (Proc.devRef .tc main_v158))
          (after (PE0 (F := Ideal)) W (Proc.devRef .tc main_v162)) (after (PE0 (F := Ideal)) W (Proc.devRef .tc main_v167))
          (after (PE0 (F := Ideal)) W (Proc.devRef .tc main_v171)) := by
  after_results_simp
  exact edge_host_eq_spec _ _ _ _ _

theorem ref_edge1 (W : Valuation τ sig (Elt Ideal)) :
    after (PE1 (F := Ideal)) W (Proc.devRef .tc main_v273)
      = Cert.Spec.edgeSpec (W (Proc.devRef .tc main_v255)) (after (PE1 (F := Ideal)) W (Proc.devRef .tc main_v257))
          (after (PE1 (F := Ideal)) W (Proc.devRef .tc main_v261)) (after (PE1 (F := Ideal)) W (Proc.devRef .tc main_v266))
          (after (PE1 (F := Ideal)) W (Proc.devRef .tc main_v270)) := by
  after_results_simp
  exact edge_host_eq_spec _ _ _ _ _
theorem node_host_eq_spec (x : FVec Ideal S50000x142 .f32) (f : FVec Ideal S50000x110 .f32) (w1 : FVec Ideal S142x128 .f32)
    (b1 : FVec Ideal S1x128 .f32) (w2 : FVec Ideal S128x110 .f32) (b2 : FVec Ideal S1x110 .f32) :
    addf f
        (addf (Host.dotGeneral dot_S50000x128_S128x110_S50000x110_1_0_0_1_n_n none
            (siluHost bcast_S_S50000x128
              (addf (Host.dotGeneral dot_S50000x142_S142x128_S50000x128_1_0_0_1_n_n none x w1)
                (broadcastInDim S50000x128 ![0, 1] bcast_S1x128_S50000x128_0_1 b1))) w2)
          (broadcastInDim S50000x110 ![0, 1] bcast_S1x110_S50000x110_0_1 b2))
      = Cert.Spec.nodeSpec x f w1 b1 w2 b2 := by
  funext i
  obtain ⟨r, c, rfl⟩ : ∃ (r : Fin 50000) (c : Fin 110), i = ix2 r c := ⟨i 0, i 1, eq_ix2 i⟩
  rw [addf_apply, addf_apply, dot_rows_apply dot_S50000x128_S128x110_S50000x110_1_0_0_1_n_n rfl, row_bcast_apply]
  show _ = f (ix2 r c) + ((∑ k : Fin 128, Cert.Spec.hidden x w1 b1 r k * w2 (ix2 k c)) + b2 (ix2 (0 : Fin 1) c))
  refine congrArg (fun s => f (ix2 r c) + (s + b2 (ix2 (0 : Fin 1) c))) (Finset.sum_congr rfl fun k _ => ?_)
  rw [siluHost, silu_host_apply, addf_apply, dot_rows_apply dot_S50000x142_S142x128_S50000x128_1_0_0_1_n_n rfl, row_bcast_apply]
  rfl

theorem ref_node0 (W : Valuation τ sig (Elt Ideal)) :
    after (PN0 (F := Ideal)) W (Proc.devRef .tc main_v240)
      = Cert.Spec.nodeSpec (W (Proc.devRef .tc main_v222)) (W (Proc.devRef .tc main_v105)) (after (PN0 (F := Ideal)) W (Proc.devRef .tc main_v224))
          (after (PN0 (F := Ideal)) W (Proc.devRef .tc main_v228)) (after (PN0 (F := Ideal)) W (Proc.devRef .tc main_v233))
          (after (PN0 (F := Ideal)) W (Proc.devRef .tc main_v237)) := by
  after_results_simp
  exact node_host_eq_spec _ _ _ _ _ _

theorem ref_node1 (W : Valuation τ sig (Elt Ideal)) :
    after (PN1 (F := Ideal)) W (Proc.devRef .tc main_v339)
      = Cert.Spec.nodeSpec (W (Proc.devRef .tc main_v321)) (W (Proc.devRef .tc main_v240)) (after (PN1 (F := Ideal)) W (Proc.devRef .tc main_v323))
          (after (PN1 (F := Ideal)) W (Proc.devRef .tc main_v327)) (after (PN1 (F := Ideal)) W (Proc.devRef .tc main_v332))
          (after (PN1 (F := Ideal)) W (Proc.devRef .tc main_v336)) := by
  after_results_simp
  exact node_host_eq_spec _ _ _ _ _ _

end Cert.ReferenceIdeal.Hand

end
-- ==== Proof.StagesDefs.lean ====
import proofs.«430199_j90752658965038_1_alg».proof.Proof.Gen.KernelIdeal.Launch
import proofs.«430199_j90752658965038_1_alg».proof.Proof.RefOps
import Idealize.ShloMosaic.Lib.StableHlo.Run
import Idealize.ShloMosaic.Lib.ValueIdx
import Idealize.ShloMosaic.Lib.ValueLayout
import Idealize.ShloMosaic.Lib.Pipeline.Value

/-! Agreement of the two programs' buffer contents on the twenty-five arguments. -/

set_option maxRecDepth 16384

noncomputable section

namespace Cert.Proof.Stages

open Idealize.ShloMosaic Idealize.ShloMosaic.TcCoe Idealize.SL.Sem

def ArgsAgree (WK : Valuation Cert.KernelIdeal.τ Cert.KernelIdeal.sig (Elt Ideal)) (WR : Valuation Cert.ReferenceIdeal.τ Cert.ReferenceIdeal.sig (Elt Ideal)) : Prop :=
  WR (Proc.devRef .tc Cert.ReferenceIdeal.main_arg0) = WK (Proc.devRef .tc Cert.KernelIdeal.main_arg0)
  ∧ WR (Proc.devRef .tc Cert.ReferenceIdeal.main_arg1) = WK (Proc.devRef .tc Cert.KernelIdeal.main_arg1)
  ∧ WR (Proc.devRef .tc Cert.ReferenceIdeal.main_arg2) = WK (Proc.devRef .tc Cert.KernelIdeal.main_arg2)
  ∧ WR (Proc.devRef .tc Cert.ReferenceIdeal.main_arg3) = WK (Proc.devRef .tc Cert.KernelIdeal.main_arg3)
  ∧ WR (Proc.devRef .tc Cert.ReferenceIdeal.main_arg4) = WK (Proc.devRef .tc Cert.KernelIdeal.main_arg4)
  ∧ WR (Proc.devRef .tc Cert.ReferenceIdeal.main_arg5) = WK (Proc.devRef .tc Cert.KernelIdeal.main_arg5)
  ∧ WR (Proc.devRef .tc Cert.ReferenceIdeal.main_arg6) = WK (Proc.devRef .tc Cert.KernelIdeal.main_arg6)
  ∧ WR (Proc.devRef .tc Cert.ReferenceIdeal.main_arg7) = WK (Proc.devRef .tc Cert.KernelIdeal.main_arg7)
  ∧ WR (Proc.devRef .tc Cert.ReferenceIdeal.main_arg8) = WK (Proc.devRef .tc Cert.KernelIdeal.main_arg8)
  ∧ WR (Proc.devRef .tc Cert.ReferenceIdeal.main_arg9) = WK (Proc.devRef .tc Cert.KernelIdeal.main_arg9)
  ∧ WR (Proc.devRef .tc Cert.ReferenceIdeal.main_arg10) = WK (Proc.devRef .tc Cert.KernelIdeal.main_arg10)
  ∧ WR (Proc.devRef .tc Cert.ReferenceIdeal.main_arg11) = WK (Proc.devRef .tc Cert.KernelIdeal.main_arg11)
  ∧ WR (Proc.devRef .tc Cert.ReferenceIdeal.main_arg12) = WK (Proc.devRef .tc Cert.KernelIdeal.main_arg12)
  ∧ WR (Proc.devRef .tc Cert.ReferenceIdeal.main_arg13) = WK (Proc.devRef .tc Cert.KernelIdeal.main_arg13)
  ∧ WR (Proc.devRef .tc Cert.ReferenceIdeal.main_arg14) = WK (Proc.devRef .tc Cert.KernelIdeal.main_arg14)
  ∧ WR (Proc.devRef .tc Cert.ReferenceIdeal.main_arg15) = WK (Proc.devRef .tc Cert.KernelIdeal.main_arg15)
  ∧ WR (Proc.devRef .tc Cert.ReferenceIdeal.main_arg16) = WK (Proc.devRef .tc Cert.KernelIdeal.main_arg16)
  ∧ WR (Proc.devRef .tc Cert.ReferenceIdeal.main_arg17) = WK (Proc.devRef .tc Cert.KernelIdeal.main_arg17)
  ∧ WR (Proc.devRef .tc Cert.ReferenceIdeal.main_arg18) = WK (Proc.devRef .tc Cert.KernelIdeal.main_arg18)
  ∧ WR (Proc.devRef .tc Cert.ReferenceIdeal.main_arg19) = WK (Proc.devRef .tc Cert.KernelIdeal.main_arg19)
  ∧ WR (Proc.devRef .tc Cert.ReferenceIdeal.main_arg20) = WK (Proc.devRef .tc Cert.KernelIdeal.main_arg20)
  ∧ WR (Proc.devRef .tc Cert.ReferenceIdeal.main_arg21) = WK (Proc.devRef .tc Cert.KernelIdeal.main_arg21)
  ∧ WR (Proc.devRef .tc Cert.ReferenceIdeal.main_arg22) = WK (Proc.devRef .tc Cert.KernelIdeal.main_arg22)
  ∧ WR (Proc.devRef .tc Cert.ReferenceIdeal.main_arg23) = WK (Proc.devRef .tc Cert.KernelIdeal.main_arg23)
  ∧ WR (Proc.devRef .tc Cert.ReferenceIdeal.main_arg24) = WK (Proc.devRef .tc Cert.KernelIdeal.main_arg24)

end Cert.Proof.Stages

end
-- ==== Proof.Stage0a.lean ====
import proofs.«430199_j90752658965038_1_alg».proof.Proof.Gen.KernelIdeal.Launch
import proofs.«430199_j90752658965038_1_alg».proof.Proof.RefOps
import proofs.«430199_j90752658965038_1_alg».proof.Proof.StagesDefs
import Idealize.ShloMosaic.Lib.StableHlo.Run
import Idealize.ShloMosaic.Lib.ValueIdx
import Idealize.ShloMosaic.Lib.ValueLayout
import Idealize.ShloMosaic.Lib.Pipeline.Value

/-! The first host stretch (part a): both programs apply the same operations to equal arguments, so the results agree buffer by buffer. -/

set_option maxRecDepth 16384

noncomputable section

namespace Cert.Proof.Stages

open Idealize.ShloMosaic Idealize.ShloMosaic.TcCoe Idealize.SL.Sem

section Fold

variable {τ : Topo} {sig : RefSig} {Val : EltTy → Type}

private theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

private theorem not_mem_writes {op : HloOp τ sig Val} {r y : Ref sig .tc} (hw : op.writes = {Proc.devRef .tc y}) (h : r ≠ y) :
    Proc.devRef (τ := τ) .tc r ∉ op.writes := by
  rw [hw, Finset.mem_singleton]; exact StableHlo.devRef_ne_of_ne h

private theorem result_keep (op : HloOp τ sig Val) (V : Valuation τ sig Val) {r : Ref sig .tc}
    (h : Proc.devRef (τ := τ) .tc r ∉ op.writes) : op.result V (no_index (Proc.devRef .tc r)) = V (Proc.devRef .tc r) :=
  op.result_of_not_mem V h

end Fold

local macro "after_eval" : tactic =>
  `(tactic| (simp (disch := first | exact not_mem_writes rfl (by decide) | decide) only [StableHlo.after_cons, StableHlo.after_nil, after_append,
      result_keep, Matrix.cons_val,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result']))

section Cat

variable {α : Type}

private def cat2 (t : Shape) (a : Fin t.rank) (s₀ s₁ : Shape) (h : Shape.Concatenates [s₀, s₁] t a)
    (x₀ : s₀.Idx → α) (x₁ : s₁.Idx → α) : t.Idx → α :=
  concatenate t a [⟨s₀, x₀⟩, ⟨s₁, x₁⟩] h

private theorem concatenate_two (t : Shape) (a : Fin t.rank) (s₀ s₁ : Shape) (h : Shape.Concatenates [s₀, s₁] t a)
    (x₀ : s₀.Idx → α) (x₁ : s₁.Idx → α) :
    concatenate t a [⟨s₀, x₀⟩, ⟨s₁, x₁⟩] h = cat2 t a s₀ s₁ h x₀ x₁ := rfl

private theorem concatenate_eleven_congr {t : Shape} {a : Fin t.rank} {s0 s1 s2 s3 s4 s5 s6 s7 s8 s9 s10 : Shape}
    {h : Shape.Concatenates [s0, s1, s2, s3, s4, s5, s6, s7, s8, s9, s10] t a}
    {x0 y0 : s0.Idx → α} {x1 y1 : s1.Idx → α} {x2 y2 : s2.Idx → α} {x3 y3 : s3.Idx → α} {x4 y4 : s4.Idx → α} {x5 y5 : s5.Idx → α} {x6 y6 : s6.Idx → α} {x7 y7 : s7.Idx → α} {x8 y8 : s8.Idx → α} {x9 y9 : s9.Idx → α} {x10 y10 : s10.Idx → α}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) :
    concatenate t a [⟨s0, x0⟩, ⟨s1, x1⟩, ⟨s2, x2⟩, ⟨s3, x3⟩, ⟨s4, x4⟩, ⟨s5, x5⟩, ⟨s6, x6⟩, ⟨s7, x7⟩, ⟨s8, x8⟩, ⟨s9, x9⟩, ⟨s10, x10⟩] h
      = concatenate t a [⟨s0, y0⟩, ⟨s1, y1⟩, ⟨s2, y2⟩, ⟨s3, y3⟩, ⟨s4, y4⟩, ⟨s5, y5⟩, ⟨s6, y6⟩, ⟨s7, y7⟩, ⟨s8, y8⟩, ⟨s9, y9⟩, ⟨s10, y10⟩] h := by
  subst e0 e1 e2 e3 e4 e5 e6 e7 e8 e9 e10
  rfl

end Cat

set_option maxHeartbeats 8000000 in
theorem stage0_v105 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.P0 (F := Ideal)) WR (Proc.devRef .tc Cert.ReferenceIdeal.main_v105) = StableHlo.after (Cert.KernelIdeal.Gen.hostOps0 (F := Ideal)) WK (Proc.devRef .tc Cert.KernelIdeal.main_v105) := by
  obtain ⟨a0, a1, a2, a3, a4, a5, a6, a7, a8, a9, a10, a11, a12, a13, a14, a15, a16, a17, a18, a19, a20, a21, a22, a23, a24⟩ := hA
  simp only [Cert.KernelIdeal.Gen.hostOps0, Cert.ReferenceIdeal.Hand.P0, Cert.ReferenceIdeal.Hand.run0, Cert.ReferenceIdeal.Hand.run1, Cert.ReferenceIdeal.Hand.run2, Cert.ReferenceIdeal.Hand.run3]
  after_eval
  refine concatenate_eleven_congr ?_ ?_ ?_ ?_ ?_ ?_ ?_ ?_ ?_ ?_ ?_
  all_goals (after_eval; simp only [a0, a5, a6, a7, a8, a9, a10, a11, a12, a13, a14]; rfl)

set_option maxHeartbeats 4000000 in
theorem stage0_v133 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.P0 (F := Ideal)) WR (Proc.devRef .tc Cert.ReferenceIdeal.main_v133) = StableHlo.after (Cert.KernelIdeal.Gen.hostOps0 (F := Ideal)) WK (Proc.devRef .tc Cert.KernelIdeal.main_v133) := by
  obtain ⟨a0, a1, a2, a3, a4, a5, a6, a7, a8, a9, a10, a11, a12, a13, a14, a15, a16, a17, a18, a19, a20, a21, a22, a23, a24⟩ := hA
  simp only [Cert.KernelIdeal.Gen.hostOps0, Cert.ReferenceIdeal.Hand.P0, Cert.ReferenceIdeal.Hand.run0, Cert.ReferenceIdeal.Hand.run1, Cert.ReferenceIdeal.Hand.run2, Cert.ReferenceIdeal.Hand.run3, concatenate_two]
  after_eval
  simp only [a1, a2, a3]
  rfl

set_option maxHeartbeats 4000000 in
theorem stage0_v139 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.P0 (F := Ideal)) WR (Proc.devRef .tc Cert.ReferenceIdeal.main_v139) = StableHlo.after (Cert.KernelIdeal.Gen.hostOps0 (F := Ideal)) WK (Proc.devRef .tc Cert.KernelIdeal.main_v139) := by
  obtain ⟨a0, a1, a2, a3, a4, a5, a6, a7, a8, a9, a10, a11, a12, a13, a14, a15, a16, a17, a18, a19, a20, a21, a22, a23, a24⟩ := hA
  simp only [Cert.KernelIdeal.Gen.hostOps0, Cert.ReferenceIdeal.Hand.P0, Cert.ReferenceIdeal.Hand.run0, Cert.ReferenceIdeal.Hand.run1, Cert.ReferenceIdeal.Hand.run2, Cert.ReferenceIdeal.Hand.run3]
  after_eval
  rw [a4]
  rfl

end Cert.Proof.Stages

end
-- ==== Proof.RowBias.lean ====
import Idealize.ShloMosaic.Lib.ValueIdx
import Idealize.ShloMosaic.Lib.ValueLayout
import Idealize.ShloMosaic.Lib.Pipeline.Value

/-! A vector reshaped to a one-row matrix is its broadcast along the new leading axis. -/

noncomputable section

namespace Cert.Proof.Stages

open Idealize.ShloMosaic

theorem row_reshape_eq_broadcast {α : Type} {n : Nat} (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ ![1] hb v := by
  funext i
  obtain ⟨a, b, rfl⟩ : ∃ (a : Fin 1) (b : Fin n), i = ValueIdx.ix2 a b := ⟨i 0, i 1, ValueIdx.eq_ix2 i⟩
  rw [ValueIdx.shapeCast_a_1a_apply v hc a b]
  symm
  refine broadcastInDim_apply _ hb v _ (ValueIdx.ix1 b) fun a' => ?_
  match a' with
  | ⟨0, _⟩ =>
    show b.val = if n = 1 then 0 else b.val
    by_cases h1 : n = 1
    · rw [if_pos h1]; have := b.isLt; omega
    · rw [if_neg h1]

end Cert.Proof.Stages

end
-- ==== Proof.Stage0b.lean ====
import proofs.«430199_j90752658965038_1_alg».proof.Proof.Gen.KernelIdeal.Launch
import proofs.«430199_j90752658965038_1_alg».proof.Proof.RefOps
import proofs.«430199_j90752658965038_1_alg».proof.Proof.StagesDefs
import proofs.«430199_j90752658965038_1_alg».proof.Proof.RowBias
import Idealize.ShloMosaic.Lib.StableHlo.Run
import Idealize.ShloMosaic.Lib.ValueIdx
import Idealize.ShloMosaic.Lib.ValueLayout
import Idealize.ShloMosaic.Lib.Pipeline.Value

/-! The first host stretch (part b): the first edge block's weight and bias operands agree. -/

set_option maxRecDepth 16384

noncomputable section

namespace Cert.Proof.Stages

open Idealize.ShloMosaic Idealize.ShloMosaic.TcCoe Idealize.SL.Sem
open Idealize.ShloMosaic.StableHlo

set_option maxHeartbeats 4000000 in
theorem stage0_w1 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PE0 (F := Ideal)) WR (Proc.devRef .tc Cert.ReferenceIdeal.main_v158) = StableHlo.after (Cert.KernelIdeal.Gen.hostOps0 (F := Ideal)) WK (Proc.devRef .tc Cert.KernelIdeal.main_v158) := by
  simp only [Cert.KernelIdeal.Gen.hostOps0, Cert.ReferenceIdeal.Hand.PE0, Cert.ReferenceIdeal.Hand.run4]
  after_results_simp
  obtain ⟨a0, a1, a2, a3, a4, a5, a6, a7, a8, a9, a10, a11, a12, a13, a14, a15, a16, a17, a18, a19, a20, a21, a22, a23, a24⟩ := hA
  rw [a15]
  rfl

set_option maxHeartbeats 4000000 in
theorem stage0_b1 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PE0 (F := Ideal)) WR (Proc.devRef .tc Cert.ReferenceIdeal.main_v162) = StableHlo.after (Cert.KernelIdeal.Gen.hostOps0 (F := Ideal)) WK (Proc.devRef .tc Cert.KernelIdeal.main_v165) := by
  simp only [Cert.KernelIdeal.Gen.hostOps0, Cert.ReferenceIdeal.Hand.PE0, Cert.ReferenceIdeal.Hand.run4]
  after_results_simp
  obtain ⟨a0, a1, a2, a3, a4, a5, a6, a7, a8, a9, a10, a11, a12, a13, a14, a15, a16, a17, a18, a19, a20, a21, a22, a23, a24⟩ := hA
  rw [a16]
  exact (row_reshape_eq_broadcast _ _ _).symm

set_option maxHeartbeats 4000000 in
theorem stage0_w2 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PE0 (F := Ideal)) WR (Proc.devRef .tc Cert.ReferenceIdeal.main_v167) = StableHlo.after (Cert.KernelIdeal.Gen.hostOps0 (F := Ideal)) WK (Proc.devRef .tc Cert.KernelIdeal.main_v162) := by
  simp only [Cert.KernelIdeal.Gen.hostOps0, Cert.ReferenceIdeal.Hand.PE0, Cert.ReferenceIdeal.Hand.run4]
  after_results_simp
  obtain ⟨a0, a1, a2, a3, a4, a5, a6, a7, a8, a9, a10, a11, a12, a13, a14, a15, a16, a17, a18, a19, a20, a21, a22, a23, a24⟩ := hA
  rw [a17]
  rfl

set_option maxHeartbeats 4000000 in
theorem stage0_b2 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PE0 (F := Ideal)) WR (Proc.devRef .tc Cert.ReferenceIdeal.main_v171) = StableHlo.after (Cert.KernelIdeal.Gen.hostOps0 (F := Ideal)) WK (Proc.devRef .tc Cert.KernelIdeal.main_v166) := by
  simp only [Cert.KernelIdeal.Gen.hostOps0, Cert.ReferenceIdeal.Hand.PE0, Cert.ReferenceIdeal.Hand.run4]
  after_results_simp
  obtain ⟨a0, a1, a2, a3, a4, a5, a6, a7, a8, a9, a10, a11, a12, a13, a14, a15, a16, a17, a18, a19, a20, a21, a22, a23, a24⟩ := hA
  rw [a18]
  exact (row_reshape_eq_broadcast _ _ _).symm

end Cert.Proof.Stages

end
-- ==== Proof.Stage0c.lean ====
import proofs.«430199_j90752658965038_1_alg».proof.Proof.Gen.KernelIdeal.Launch
import proofs.«430199_j90752658965038_1_alg».proof.Proof.RefOps
import proofs.«430199_j90752658965038_1_alg».proof.Proof.StagesDefs
import Idealize.ShloMosaic.Lib.StableHlo.Run
import Idealize.ShloMosaic.Lib.ValueIdx
import Idealize.ShloMosaic.Lib.ValueLayout
import Idealize.ShloMosaic.Lib.Pipeline.Value

/-! The first host stretch (part c): the same operations on equal arguments give equal results. -/

set_option maxRecDepth 16384

noncomputable section

namespace Cert.Proof.Stages

open Idealize.ShloMosaic Idealize.ShloMosaic.TcCoe Idealize.SL.Sem

private theorem concatenate_pair_congr {α : Type} {t s₁ s₂ : Shape} (a : Fin t.rank) (x₁ x₁' : s₁.Idx → α) (x₂ x₂' : s₂.Idx → α)
    (h : Shape.Concatenates ([(⟨s₁, x₁⟩ : (s : Shape) × (s.Idx → α)), ⟨s₂, x₂⟩].map (·.1)) t a)
    (h' : Shape.Concatenates ([(⟨s₁, x₁'⟩ : (s : Shape) × (s.Idx → α)), ⟨s₂, x₂'⟩].map (·.1)) t a)
    (e₁ : x₁ = x₁') (e₂ : x₂ = x₂') :
    concatenate t a [⟨s₁, x₁⟩, ⟨s₂, x₂⟩] h = concatenate t a [⟨s₁, x₁'⟩, ⟨s₂, x₂'⟩] h' := by
  subst e₁ e₂; rfl

set_option maxHeartbeats 4000000 in
theorem stage0_v109 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.P0 (F := Ideal)) WR (Proc.devRef .tc Cert.ReferenceIdeal.main_v109) = StableHlo.after (Cert.KernelIdeal.Gen.hostOps0 (F := Ideal)) WK (Proc.devRef .tc Cert.KernelIdeal.main_v109) := by
  obtain ⟨a0, a1, a2, a3, a4, a5, a6, a7, a8, a9, a10, a11, a12, a13, a14, a15, a16, a17, a18, a19, a20, a21, a22, a23, a24⟩ := hA
  simp only [Cert.KernelIdeal.Gen.hostOps0, Cert.ReferenceIdeal.Hand.P0, Cert.ReferenceIdeal.Hand.run0, Cert.ReferenceIdeal.Hand.run1,
    Cert.ReferenceIdeal.Hand.run2, Cert.ReferenceIdeal.Hand.run3, List.append_assoc, List.cons_append, List.nil_append]
  after_results_simp
  refine concatenate_pair_congr _ _ _ _ _ _ _ ?_ ?_
  · show @Eq ((Proc.devRef (τ := Cert.ReferenceIdeal.τ) .tc Cert.ReferenceIdeal.main_v108).ty.Contents (Elt Ideal)) _ _
    after_results_simp
    simp only [a1]
    rfl
  · show @Eq ((Proc.devRef (τ := Cert.ReferenceIdeal.τ) .tc Cert.ReferenceIdeal.main_v106).ty.Contents (Elt Ideal)) _ _
    after_results_simp <;> rfl

set_option maxHeartbeats 4000000 in
theorem stage0_v112 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.P0 (F := Ideal)) WR (Proc.devRef .tc Cert.ReferenceIdeal.main_v112) = StableHlo.after (Cert.KernelIdeal.Gen.hostOps0 (F := Ideal)) WK (Proc.devRef .tc Cert.KernelIdeal.main_v112) := by
  obtain ⟨a0, a1, a2, a3, a4, a5, a6, a7, a8, a9, a10, a11, a12, a13, a14, a15, a16, a17, a18, a19, a20, a21, a22, a23, a24⟩ := hA
  simp only [Cert.KernelIdeal.Gen.hostOps0, Cert.ReferenceIdeal.Hand.P0, Cert.ReferenceIdeal.Hand.run0, Cert.ReferenceIdeal.Hand.run1,
    Cert.ReferenceIdeal.Hand.run2, Cert.ReferenceIdeal.Hand.run3, List.append_assoc, List.cons_append, List.nil_append]
  after_results_simp
  refine concatenate_pair_congr _ _ _ _ _ _ _ ?_ ?_
  · show @Eq ((Proc.devRef (τ := Cert.ReferenceIdeal.τ) .tc Cert.ReferenceIdeal.main_v111).ty.Contents (Elt Ideal)) _ _
    after_results_simp
    simp only [a1]
    rfl
  · show @Eq ((Proc.devRef (τ := Cert.ReferenceIdeal.τ) .tc Cert.ReferenceIdeal.main_v106).ty.Contents (Elt Ideal)) _ _
    after_results_simp <;> rfl

set_option maxHeartbeats 4000000 in
theorem stage0_v141 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.P0 (F := Ideal)) WR (Proc.devRef .tc Cert.ReferenceIdeal.main_v141) = StableHlo.after (Cert.KernelIdeal.Gen.hostOps0 (F := Ideal)) WK (Proc.devRef .tc Cert.KernelIdeal.main_v141) := by
  obtain ⟨a0, a1, a2, a3, a4, a5, a6, a7, a8, a9, a10, a11, a12, a13, a14, a15, a16, a17, a18, a19, a20, a21, a22, a23, a24⟩ := hA
  simp only [Cert.KernelIdeal.Gen.hostOps0, Cert.ReferenceIdeal.Hand.P0, Cert.ReferenceIdeal.Hand.run0, Cert.ReferenceIdeal.Hand.run1,
    Cert.ReferenceIdeal.Hand.run2, Cert.ReferenceIdeal.Hand.run3, List.append_assoc, List.cons_append, List.nil_append]
  after_results_simp
  simp only [a4]
  rfl

end Cert.Proof.Stages

end
-- ==== Proof.Stage0d.lean ====
import proofs.«430199_j90752658965038_1_alg».proof.Proof.Gen.KernelIdeal.Launch
import proofs.«430199_j90752658965038_1_alg».proof.Proof.RefOps
import proofs.«430199_j90752658965038_1_alg».proof.Proof.StagesDefs
import Idealize.ShloMosaic.Lib.StableHlo.Run
import Idealize.ShloMosaic.Lib.ValueIdx
import Idealize.ShloMosaic.Lib.ValueLayout
import Idealize.ShloMosaic.Lib.Pipeline.Value

/-! The first host stretch (part d): the same operations on equal arguments give equal results. -/

set_option maxRecDepth 16384

noncomputable section

namespace Cert.Proof.Stages

open Idealize.ShloMosaic Idealize.ShloMosaic.TcCoe Idealize.SL.Sem

section Fold

variable {τ : Topo} {sig : RefSig} {Val : EltTy → Type}

private theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

private theorem not_mem_writes {op : HloOp τ sig Val} {r y : Ref sig .tc} (hw : op.writes = {Proc.devRef .tc y}) (h : r ≠ y) :
    Proc.devRef (τ := τ) .tc r ∉ op.writes := by
  rw [hw, Finset.mem_singleton]; exact StableHlo.devRef_ne_of_ne h

private theorem result_keep (op : HloOp τ sig Val) (V : Valuation τ sig Val) {r : Ref sig .tc}
    (h : Proc.devRef (τ := τ) .tc r ∉ op.writes) : op.result V (no_index (Proc.devRef .tc r)) = V (Proc.devRef .tc r) :=
  op.result_of_not_mem V h

end Fold

local macro "after_eval" : tactic =>
  `(tactic| (simp (disch := first | exact not_mem_writes rfl (by decide) | decide) only [StableHlo.after_cons, StableHlo.after_nil, after_append,
      result_keep, Matrix.cons_val,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result']))

section Cat

variable {α : Type}

private def cat2 (t : Shape) (a : Fin t.rank) (s₀ s₁ : Shape) (h : Shape.Concatenates [s₀, s₁] t a)
    (x₀ : s₀.Idx → α) (x₁ : s₁.Idx → α) : t.Idx → α :=
  concatenate t a [⟨s₀, x₀⟩, ⟨s₁, x₁⟩] h

private theorem concatenate_two (t : Shape) (a : Fin t.rank) (s₀ s₁ : Shape) (h : Shape.Concatenates [s₀, s₁] t a)
    (x₀ : s₀.Idx → α) (x₁ : s₁.Idx → α) :
    concatenate t a [⟨s₀, x₀⟩, ⟨s₁, x₁⟩] h = cat2 t a s₀ s₁ h x₀ x₁ := rfl

private theorem concatenate_eleven_congr {t : Shape} {a : Fin t.rank} {s0 s1 s2 s3 s4 s5 s6 s7 s8 s9 s10 : Shape}
    {h : Shape.Concatenates [s0, s1, s2, s3, s4, s5, s6, s7, s8, s9, s10] t a}
    {x0 y0 : s0.Idx → α} {x1 y1 : s1.Idx → α} {x2 y2 : s2.Idx → α} {x3 y3 : s3.Idx → α} {x4 y4 : s4.Idx → α} {x5 y5 : s5.Idx → α} {x6 y6 : s6.Idx → α} {x7 y7 : s7.Idx → α} {x8 y8 : s8.Idx → α} {x9 y9 : s9.Idx → α} {x10 y10 : s10.Idx → α}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) :
    concatenate t a [⟨s0, x0⟩, ⟨s1, x1⟩, ⟨s2, x2⟩, ⟨s3, x3⟩, ⟨s4, x4⟩, ⟨s5, x5⟩, ⟨s6, x6⟩, ⟨s7, x7⟩, ⟨s8, x8⟩, ⟨s9, x9⟩, ⟨s10, x10⟩] h
      = concatenate t a [⟨s0, y0⟩, ⟨s1, y1⟩, ⟨s2, y2⟩, ⟨s3, y3⟩, ⟨s4, y4⟩, ⟨s5, y5⟩, ⟨s6, y6⟩, ⟨s7, y7⟩, ⟨s8, y8⟩, ⟨s9, y9⟩, ⟨s10, y10⟩] h := by
  subst e0 e1 e2 e3 e4 e5 e6 e7 e8 e9 e10
  rfl

private theorem concatenate_three_congr {t : Shape} {a : Fin t.rank} {s0 s1 s2 : Shape}
    {h : Shape.Concatenates [s0, s1, s2] t a}
    {x0 y0 : s0.Idx → α} {x1 y1 : s1.Idx → α} {x2 y2 : s2.Idx → α}
    (e0 : x0 = y0) (e1 : x1 = y1) (e2 : x2 = y2) :
    concatenate t a [⟨s0, x0⟩, ⟨s1, x1⟩, ⟨s2, x2⟩] h = concatenate t a [⟨s0, y0⟩, ⟨s1, y1⟩, ⟨s2, y2⟩] h := by
  subst e0 e1 e2
  rfl

end Cat

set_option maxHeartbeats 16000000 in
theorem stage0_v156 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.P0 (F := Ideal)) WR (Proc.devRef .tc Cert.ReferenceIdeal.main_v156) = StableHlo.after (Cert.KernelIdeal.Gen.hostOps0 (F := Ideal)) WK (Proc.devRef .tc Cert.KernelIdeal.main_v156) := by
  obtain ⟨a0, a1, a2, a3, a4, a5, a6, a7, a8, a9, a10, a11, a12, a13, a14, a15, a16, a17, a18, a19, a20, a21, a22, a23, a24⟩ := hA
  simp only [Cert.KernelIdeal.Gen.hostOps0, Cert.ReferenceIdeal.Hand.P0, Cert.ReferenceIdeal.Hand.run0, Cert.ReferenceIdeal.Hand.run1, Cert.ReferenceIdeal.Hand.run2, Cert.ReferenceIdeal.Hand.run3, concatenate_two]
  after_eval
  refine concatenate_three_congr ?_ ?_ ?_
  ·
    after_eval
    simp only [a1]
    refine congrArg₂ (Host.gather _) ?_ rfl
    refine concatenate_eleven_congr ?_ ?_ ?_ ?_ ?_ ?_ ?_ ?_ ?_ ?_ ?_
    all_goals (after_eval; simp only [a0, a5, a6, a7, a8, a9, a10, a11, a12, a13, a14]; rfl)
  ·
    after_eval
    simp only [a1]
    refine congrArg₂ (Host.gather _) ?_ rfl
    refine concatenate_eleven_congr ?_ ?_ ?_ ?_ ?_ ?_ ?_ ?_ ?_ ?_ ?_
    all_goals (after_eval; simp only [a0, a5, a6, a7, a8, a9, a10, a11, a12, a13, a14]; rfl)
  ·
    after_eval
    simp only [a1, a2, a3]
    rfl

end Cert.Proof.Stages

end
-- ==== Proof.Stage1.lean ====
import proofs.«430199_j90752658965038_1_alg».proof.Proof.Gen.KernelIdeal.Launch
import proofs.«430199_j90752658965038_1_alg».proof.Proof.RefOps
import proofs.«430199_j90752658965038_1_alg».proof.Proof.StagesDefs
import proofs.«430199_j90752658965038_1_alg».proof.Proof.RowBias
import Idealize.ShloMosaic.Lib.StableHlo.Run
import Idealize.ShloMosaic.Lib.ValueIdx
import Idealize.ShloMosaic.Lib.ValueLayout
import Idealize.ShloMosaic.Lib.Pipeline.Value

/-! The stretch between the first edge block and the first node block: the same operations on equal inputs. -/

set_option maxRecDepth 16384

noncomputable section

namespace Cert.Proof.Stages

open Idealize.ShloMosaic Idealize.ShloMosaic.TcCoe Idealize.SL.Sem
open Idealize.ShloMosaic.StableHlo

set_option maxHeartbeats 4000000 in
theorem stage1_h (WK : Valuation Cert.KernelIdeal.τ Cert.KernelIdeal.sig (Elt Ideal)) (WR : Valuation Cert.ReferenceIdeal.τ Cert.ReferenceIdeal.sig (Elt Ideal)) (hA : ArgsAgree WK WR)
    (h0 : WR (Proc.devRef .tc Cert.ReferenceIdeal.main_v112) = WK (Proc.devRef .tc Cert.KernelIdeal.main_v112))
    (h1 : WR (Proc.devRef .tc Cert.ReferenceIdeal.main_v174) = WK (Proc.devRef .tc Cert.KernelIdeal.main_v167))
    (h2 : WR (Proc.devRef .tc Cert.ReferenceIdeal.main_v105) = WK (Proc.devRef .tc Cert.KernelIdeal.main_v105))
    (h3 : WR (Proc.devRef .tc Cert.ReferenceIdeal.main_v141) = WK (Proc.devRef .tc Cert.KernelIdeal.main_v141)) :
    StableHlo.after (Cert.ReferenceIdeal.Hand.P1 (F := Ideal)) WR (Proc.devRef .tc Cert.ReferenceIdeal.main_v222) = StableHlo.after (Cert.KernelIdeal.Gen.hostOps1 (F := Ideal)) WK (Proc.devRef .tc Cert.KernelIdeal.main_v215) := by
  simp only [Cert.KernelIdeal.Gen.hostOps1, Cert.ReferenceIdeal.Hand.P1, Cert.ReferenceIdeal.Hand.run5, Cert.ReferenceIdeal.Hand.run6,
    List.append_assoc, List.cons_append, List.nil_append]
  after_results_simp
  obtain ⟨a0, a1, a2, a3, a4, a5, a6, a7, a8, a9, a10, a11, a12, a13, a14, a15, a16, a17, a18, a19, a20, a21, a22, a23, a24⟩ := hA
  refine congrArg₂ (fun a b => concatenate Cert.ReferenceIdeal.S50000x142 1 [⟨Cert.ReferenceIdeal.S50000x110, a⟩, ⟨Cert.ReferenceIdeal.S50000x32, b⟩] Cert.ReferenceIdeal.Gen.concatenates_S50000x110_S50000x32_S50000x142_d1) ?_ ?_
  ·
    after_results_simp
    simp only [a4, a23, a24, h0, h1, h2, h3]
    rfl
  ·
    after_results_simp
    simp only [a4, a23, a24, h0, h1, h2, h3]
    rfl

set_option maxHeartbeats 4000000 in
theorem stage1_w1 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PN0 (F := Ideal)) WR (Proc.devRef .tc Cert.ReferenceIdeal.main_v224) = StableHlo.after (Cert.KernelIdeal.Gen.hostOps1 (F := Ideal)) WK (Proc.devRef .tc Cert.KernelIdeal.main_v217) := by
  simp only [Cert.KernelIdeal.Gen.hostOps1, Cert.ReferenceIdeal.Hand.PN0, Cert.ReferenceIdeal.Hand.run7]
  after_results_simp
  obtain ⟨a0, a1, a2, a3, a4, a5, a6, a7, a8, a9, a10, a11, a12, a13, a14, a15, a16, a17, a18, a19, a20, a21, a22, a23, a24⟩ := hA
  rw [a19]
  rfl

set_option maxHeartbeats 4000000 in
theorem stage1_b1 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PN0 (F := Ideal)) WR (Proc.devRef .tc Cert.ReferenceIdeal.main_v228) = StableHlo.after (Cert.KernelIdeal.Gen.hostOps1 (F := Ideal)) WK (Proc.devRef .tc Cert.KernelIdeal.main_v224) := by
  simp only [Cert.KernelIdeal.Gen.hostOps1, Cert.ReferenceIdeal.Hand.PN0, Cert.ReferenceIdeal.Hand.run7]
  after_results_simp
  obtain ⟨a0, a1, a2, a3, a4, a5, a6, a7, a8, a9, a10, a11, a12, a13, a14, a15, a16, a17, a18, a19, a20, a21, a22, a23, a24⟩ := hA
  rw [a20]
  exact (row_reshape_eq_broadcast _ _ _).symm

set_option maxHeartbeats 4000000 in
theorem stage1_w2 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PN0 (F := Ideal)) WR (Proc.devRef .tc Cert.ReferenceIdeal.main_v233) = StableHlo.after (Cert.KernelIdeal.Gen.hostOps1 (F := Ideal)) WK (Proc.devRef .tc Cert.KernelIdeal.main_v221) := by
  simp only [Cert.KernelIdeal.Gen.hostOps1, Cert.ReferenceIdeal.Hand.PN0, Cert.ReferenceIdeal.Hand.run7]
  after_results_simp
  obtain ⟨a0, a1, a2, a3, a4, a5, a6, a7, a8, a9, a10, a11, a12, a13, a14, a15, a16, a17, a18, a19, a20, a21, a22, a23, a24⟩ := hA
  rw [a21]
  rfl

set_option maxHeartbeats 4000000 in
theorem stage1_b2 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PN0 (F := Ideal)) WR (Proc.devRef .tc Cert.ReferenceIdeal.main_v237) = StableHlo.after (Cert.KernelIdeal.Gen.hostOps1 (F := Ideal)) WK (Proc.devRef .tc Cert.KernelIdeal.main_v225) := by
  simp only [Cert.KernelIdeal.Gen.hostOps1, Cert.ReferenceIdeal.Hand.PN0, Cert.ReferenceIdeal.Hand.run7]
  after_results_simp
  obtain ⟨a0, a1, a2, a3, a4, a5, a6, a7, a8, a9, a10, a11, a12, a13, a14, a15, a16, a17, a18, a19, a20, a21, a22, a23, a24⟩ := hA
  rw [a22]
  exact (row_reshape_eq_broadcast _ _ _).symm

end Cert.Proof.Stages

end
-- ==== Proof.Stage2.lean ====
import proofs.«430199_j90752658965038_1_alg».proof.Proof.Gen.KernelIdeal.Launch
import proofs.«430199_j90752658965038_1_alg».proof.Proof.RefOps
import proofs.«430199_j90752658965038_1_alg».proof.Proof.StagesDefs
import proofs.«430199_j90752658965038_1_alg».proof.Proof.RowBias
import Idealize.ShloMosaic.Lib.StableHlo.Run
import Idealize.ShloMosaic.Lib.ValueIdx
import Idealize.ShloMosaic.Lib.ValueLayout
import Idealize.ShloMosaic.Lib.Pipeline.Value

/-! The stretch between the first node block and the second edge block: the same operations on equal inputs. -/

set_option maxRecDepth 16384

noncomputable section

namespace Cert.Proof.Stages

open Idealize.ShloMosaic Idealize.ShloMosaic.TcCoe Idealize.SL.Sem

private theorem after_append' {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

private theorem after_take_drop {τ : Topo} {sig : RefSig} {Val : EltTy → Type} (n : ℕ) (l : List (HloOp τ sig Val)) (V : Valuation τ sig Val) :
    StableHlo.after l V = StableHlo.after (l.drop n) (StableHlo.after (l.take n) V) := by
  rw [← after_append', List.take_append_drop]

private theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

set_option maxHeartbeats 4000000 in
theorem stage2_m (WK : Valuation Cert.KernelIdeal.τ Cert.KernelIdeal.sig (Elt Ideal)) (WR : Valuation Cert.ReferenceIdeal.τ Cert.ReferenceIdeal.sig (Elt Ideal)) (hA : ArgsAgree WK WR)
    (h0 : WR (Proc.devRef .tc Cert.ReferenceIdeal.main_v112) = WK (Proc.devRef .tc Cert.KernelIdeal.main_v112))
    (h1 : WR (Proc.devRef .tc Cert.ReferenceIdeal.main_v240) = WK (Proc.devRef .tc Cert.KernelIdeal.main_v226))
    (h2 : WR (Proc.devRef .tc Cert.ReferenceIdeal.main_v109) = WK (Proc.devRef .tc Cert.KernelIdeal.main_v109))
    (h3 : WR (Proc.devRef .tc Cert.ReferenceIdeal.main_v133) = WK (Proc.devRef .tc Cert.KernelIdeal.main_v133)) :
    StableHlo.after (Cert.ReferenceIdeal.Hand.P2 (F := Ideal)) WR (Proc.devRef .tc Cert.ReferenceIdeal.main_v255) = StableHlo.after (Cert.KernelIdeal.Gen.hostOps2 (F := Ideal)) WK (Proc.devRef .tc Cert.KernelIdeal.main_v241) := by
  obtain ⟨a0, a1, a2, a3, a4, a5, a6, a7, a8, a9, a10, a11, a12, a13, a14, a15, a16, a17, a18, a19, a20, a21, a22, a23, a24⟩ := hA
  have eA : StableHlo.after (List.take 18 (Cert.ReferenceIdeal.Hand.P2 (F := Ideal))) WR (Proc.devRef .tc Cert.ReferenceIdeal.main_v247)
      = StableHlo.after (List.take 18 (Cert.KernelIdeal.Gen.hostOps2 (F := Ideal))) WK (Proc.devRef .tc Cert.KernelIdeal.main_v233) := by
    simp only [Cert.KernelIdeal.Gen.hostOps2, Cert.ReferenceIdeal.Hand.P2, Cert.ReferenceIdeal.Hand.run8, Cert.ReferenceIdeal.Hand.run9, List.append_assoc, List.cons_append, List.nil_append, List.take_succ_cons, List.take_zero]
    after_results_simp
    simp only [h0, h1]
    rfl
  have eB : StableHlo.after (List.take 18 (Cert.ReferenceIdeal.Hand.P2 (F := Ideal))) WR (Proc.devRef .tc Cert.ReferenceIdeal.main_v254)
      = StableHlo.after (List.take 18 (Cert.KernelIdeal.Gen.hostOps2 (F := Ideal))) WK (Proc.devRef .tc Cert.KernelIdeal.main_v240) := by
    simp only [Cert.KernelIdeal.Gen.hostOps2, Cert.ReferenceIdeal.Hand.P2, Cert.ReferenceIdeal.Hand.run8, Cert.ReferenceIdeal.Hand.run9, List.append_assoc, List.cons_append, List.nil_append, List.take_succ_cons, List.take_zero]
    after_results_simp
    simp only [h2, h1]
    rfl
  have eC : StableHlo.after (List.take 18 (Cert.ReferenceIdeal.Hand.P2 (F := Ideal))) WR (Proc.devRef .tc Cert.ReferenceIdeal.main_v133)
      = StableHlo.after (List.take 18 (Cert.KernelIdeal.Gen.hostOps2 (F := Ideal))) WK (Proc.devRef .tc Cert.KernelIdeal.main_v133) := by
    simp only [Cert.KernelIdeal.Gen.hostOps2, Cert.ReferenceIdeal.Hand.P2, Cert.ReferenceIdeal.Hand.run8, Cert.ReferenceIdeal.Hand.run9, List.append_assoc, List.cons_append, List.nil_append, List.take_succ_cons, List.take_zero]
    after_results_simp
    exact h3
  rw [after_take_drop 18 (Cert.ReferenceIdeal.Hand.P2 (F := Ideal)), after_take_drop 18 (Cert.KernelIdeal.Gen.hostOps2 (F := Ideal))]
  generalize StableHlo.after (List.take 18 (Cert.ReferenceIdeal.Hand.P2 (F := Ideal))) WR = VR at eA eB eC ⊢
  generalize StableHlo.after (List.take 18 (Cert.KernelIdeal.Gen.hostOps2 (F := Ideal))) WK = VK at eA eB eC ⊢
  simp only [Cert.KernelIdeal.Gen.hostOps2, Cert.ReferenceIdeal.Hand.P2, Cert.ReferenceIdeal.Hand.run8, Cert.ReferenceIdeal.Hand.run9, List.append_assoc, List.cons_append, List.nil_append, List.drop_succ_cons, List.drop_zero]
  simp (disch := decide) only [StableHlo.after_cons, StableHlo.after_nil, nary3_result',
    StableHlo.unary_result_ne', StableHlo.reshape_result_ne']
  rw [eA, eB, eC]
  rfl

set_option maxHeartbeats 4000000 in
theorem stage2_w1 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PE1 (F := Ideal)) WR (Proc.devRef .tc Cert.ReferenceIdeal.main_v257) = StableHlo.after (Cert.KernelIdeal.Gen.hostOps2 (F := Ideal)) WK (Proc.devRef .tc Cert.KernelIdeal.main_v243) := by
  obtain ⟨a0, a1, a2, a3, a4, a5, a6, a7, a8, a9, a10, a11, a12, a13, a14, a15, a16, a17, a18, a19, a20, a21, a22, a23, a24⟩ := hA
  simp only [Cert.KernelIdeal.Gen.hostOps2, Cert.ReferenceIdeal.Hand.PE1, Cert.ReferenceIdeal.Hand.run10]
  after_results_simp
  simp only [a15]
  rfl

set_option maxHeartbeats 4000000 in
theorem stage2_b1 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PE1 (F := Ideal)) WR (Proc.devRef .tc Cert.ReferenceIdeal.main_v261) = StableHlo.after (Cert.KernelIdeal.Gen.hostOps2 (F := Ideal)) WK (Proc.devRef .tc Cert.KernelIdeal.main_v250) := by
  obtain ⟨a0, a1, a2, a3, a4, a5, a6, a7, a8, a9, a10, a11, a12, a13, a14, a15, a16, a17, a18, a19, a20, a21, a22, a23, a24⟩ := hA
  simp only [Cert.KernelIdeal.Gen.hostOps2, Cert.ReferenceIdeal.Hand.PE1, Cert.ReferenceIdeal.Hand.run10]
  after_results_simp
  simp only [a16]
  exact (row_reshape_eq_broadcast _ _ _).symm

set_option maxHeartbeats 4000000 in
theorem stage2_w2 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PE1 (F := Ideal)) WR (Proc.devRef .tc Cert.ReferenceIdeal.main_v266) = StableHlo.after (Cert.KernelIdeal.Gen.hostOps2 (F := Ideal)) WK (Proc.devRef .tc Cert.KernelIdeal.main_v247) := by
  obtain ⟨a0, a1, a2, a3, a4, a5, a6, a7, a8, a9, a10, a11, a12, a13, a14, a15, a16, a17, a18, a19, a20, a21, a22, a23, a24⟩ := hA
  simp only [Cert.KernelIdeal.Gen.hostOps2, Cert.ReferenceIdeal.Hand.PE1, Cert.ReferenceIdeal.Hand.run10]
  after_results_simp
  simp only [a17]
  rfl

set_option maxHeartbeats 4000000 in
theorem stage2_b2 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PE1 (F := Ideal)) WR (Proc.devRef .tc Cert.ReferenceIdeal.main_v270) = StableHlo.after (Cert.KernelIdeal.Gen.hostOps2 (F := Ideal)) WK (Proc.devRef .tc Cert.KernelIdeal.main_v251) := by
  obtain ⟨a0, a1, a2, a3, a4, a5, a6, a7, a8, a9, a10, a11, a12, a13, a14, a15, a16, a17, a18, a19, a20, a21, a22, a23, a24⟩ := hA
  simp only [Cert.KernelIdeal.Gen.hostOps2, Cert.ReferenceIdeal.Hand.PE1, Cert.ReferenceIdeal.Hand.run10]
  after_results_simp
  simp only [a18]
  exact (row_reshape_eq_broadcast _ _ _).symm

end Cert.Proof.Stages

end
-- ==== Proof.Stage3.lean ====
import proofs.«430199_j90752658965038_1_alg».proof.Proof.Gen.KernelIdeal.Launch
import proofs.«430199_j90752658965038_1_alg».proof.Proof.RefOps
import proofs.«430199_j90752658965038_1_alg».proof.Proof.StagesDefs
import proofs.«430199_j90752658965038_1_alg».proof.Proof.RowBias
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.Frame

/-! The stretch between the second edge block and the second node block: the same operations on equal inputs. -/

set_option maxRecDepth 16384

noncomputable section

namespace Cert.Proof.Stages

open Idealize.ShloMosaic Idealize.ShloMosaic.TcCoe Idealize.SL.Sem

set_option maxHeartbeats 4000000 in
theorem stage3_h (WK : Valuation Cert.KernelIdeal.τ Cert.KernelIdeal.sig (Elt Ideal)) (WR : Valuation Cert.ReferenceIdeal.τ Cert.ReferenceIdeal.sig (Elt Ideal)) (hA : ArgsAgree WK WR)
    (h0 : WR (Proc.devRef .tc Cert.ReferenceIdeal.main_v112) = WK (Proc.devRef .tc Cert.KernelIdeal.main_v112))
    (h1 : WR (Proc.devRef .tc Cert.ReferenceIdeal.main_v273) = WK (Proc.devRef .tc Cert.KernelIdeal.main_v252))
    (h2 : WR (Proc.devRef .tc Cert.ReferenceIdeal.main_v240) = WK (Proc.devRef .tc Cert.KernelIdeal.main_v226))
    (h3 : WR (Proc.devRef .tc Cert.ReferenceIdeal.main_v141) = WK (Proc.devRef .tc Cert.KernelIdeal.main_v141)) :
    StableHlo.after (Cert.ReferenceIdeal.Hand.P3 (F := Ideal)) WR (Proc.devRef .tc Cert.ReferenceIdeal.main_v321) = StableHlo.after (Cert.KernelIdeal.Gen.hostOps3 (F := Ideal)) WK (Proc.devRef .tc Cert.KernelIdeal.main_v300) := by
  obtain ⟨a0, a1, a2, a3, a4, a5, a6, a7, a8, a9, a10, a11, a12, a13, a14, a15, a16, a17, a18, a19, a20, a21, a22, a23, a24⟩ := hA
  rw [StableHlo.after_append]
  after_results_simp
  refine congrArg₂ (fun a b => concatenate Cert.ReferenceIdeal.S50000x142 1
    [⟨Cert.ReferenceIdeal.S50000x110, a⟩, ⟨Cert.ReferenceIdeal.S50000x32, b⟩]
    Cert.ReferenceIdeal.Gen.concatenates_S50000x110_S50000x32_S50000x142_d1) ?_ ?_
  ·
    after_results_simp
    simp only [a4, a23, a24, h2, h3]
    rfl
  ·
    after_results_simp
    simp only [h0, h1]
    rfl

theorem stage3_w1 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PN1 (F := Ideal)) WR (Proc.devRef .tc Cert.ReferenceIdeal.main_v323) = StableHlo.after (Cert.KernelIdeal.Gen.hostOps3 (F := Ideal)) WK (Proc.devRef .tc Cert.KernelIdeal.main_v302) := by
  obtain ⟨a0, a1, a2, a3, a4, a5, a6, a7, a8, a9, a10, a11, a12, a13, a14, a15, a16, a17, a18, a19, a20, a21, a22, a23, a24⟩ := hA
  after_results_simp
  simp only [a19]
  rfl

theorem stage3_b1 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PN1 (F := Ideal)) WR (Proc.devRef .tc Cert.ReferenceIdeal.main_v327) = StableHlo.after (Cert.KernelIdeal.Gen.hostOps3 (F := Ideal)) WK (Proc.devRef .tc Cert.KernelIdeal.main_v309) := by
  obtain ⟨a0, a1, a2, a3, a4, a5, a6, a7, a8, a9, a10, a11, a12, a13, a14, a15, a16, a17, a18, a19, a20, a21, a22, a23, a24⟩ := hA
  after_results_simp
  simp only [a20]
  exact (row_reshape_eq_broadcast _ _ _).symm

theorem stage3_w2 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PN1 (F := Ideal)) WR (Proc.devRef .tc Cert.ReferenceIdeal.main_v332) = StableHlo.after (Cert.KernelIdeal.Gen.hostOps3 (F := Ideal)) WK (Proc.devRef .tc Cert.KernelIdeal.main_v306) := by
  obtain ⟨a0, a1, a2, a3, a4, a5, a6, a7, a8, a9, a10, a11, a12, a13, a14, a15, a16, a17, a18, a19, a20, a21, a22, a23, a24⟩ := hA
  after_results_simp
  simp only [a21]
  rfl

theorem stage3_b2 (WK : Valuation Cert.KernelIdeal.τ Cert.KernelIdeal.sig (Elt Ideal)) (WR : Valuation Cert.ReferenceIdeal.τ Cert.ReferenceIdeal.sig (Elt Ideal)) (hA : ArgsAgree WK WR) :
    StableHlo.after (Cert.ReferenceIdeal.Hand.PN1 (F := Ideal)) WR (Proc.devRef .tc Cert.ReferenceIdeal.main_v336) = StableHlo.after (Cert.KernelIdeal.Gen.hostOps3 (F := Ideal)) WK (Proc.devRef .tc Cert.KernelIdeal.main_v310) := by
  obtain ⟨a0, a1, a2, a3, a4, a5, a6, a7, a8, a9, a10, a11, a12, a13, a14, a15, a16, a17, a18, a19, a20, a21, a22, a23, a24⟩ := hA
  after_results_simp
  simp only [a22]
  exact (row_reshape_eq_broadcast _ _ _).symm

end Cert.Proof.Stages

end
-- ==== Proof.Stage4.lean ====
import proofs.«430199_j90752658965038_1_alg».proof.Proof.Gen.KernelIdeal.Launch
import proofs.«430199_j90752658965038_1_alg».proof.Proof.RefOps
import proofs.«430199_j90752658965038_1_alg».proof.Proof.StagesDefs
import Idealize.ShloMosaic.Lib.StableHlo.Run
import Idealize.ShloMosaic.Lib.ValueIdx
import Idealize.ShloMosaic.Lib.ValueLayout
import Idealize.ShloMosaic.Lib.Pipeline.Value

/-! The last stretch: the result buffer. -/

set_option maxRecDepth 16384

noncomputable section

namespace Cert.Proof.Stages

open Idealize.ShloMosaic Idealize.ShloMosaic.TcCoe Idealize.SL.Sem

theorem stage4_out (WK : Valuation Cert.KernelIdeal.τ Cert.KernelIdeal.sig (Elt Ideal)) (WR : Valuation Cert.ReferenceIdeal.τ Cert.ReferenceIdeal.sig (Elt Ideal)) (hA : ArgsAgree WK WR)
    (h0 : WR (Proc.devRef .tc Cert.ReferenceIdeal.main_v339) = WK (Proc.devRef .tc Cert.KernelIdeal.main_v311))
    (h1 : WR (Proc.devRef .tc Cert.ReferenceIdeal.main_v139) = WK (Proc.devRef .tc Cert.KernelIdeal.main_v139)) :
    StableHlo.after (Cert.ReferenceIdeal.Hand.P4 (F := Ideal)) WR (Proc.devRef .tc Cert.ReferenceIdeal.main_v345) = StableHlo.after (Cert.KernelIdeal.Gen.hostOps4 (F := Ideal)) WK (Proc.devRef .tc Cert.KernelIdeal.main_v317) := by
  obtain ⟨a0, a1, a2, a3, a4, a5, a6, a7, a8, a9, a10, a11, a12, a13, a14, a15, a16, a17, a18, a19, a20, a21, a22, a23, a24⟩ := hA
  simp only [Cert.KernelIdeal.Gen.hostOps4, Cert.ReferenceIdeal.Hand.P4, Cert.ReferenceIdeal.Hand.run14]
  after_results_simp
  simp only [a4, h0, h1]
  rfl

end Cert.Proof.Stages

end
-- ==== Proof.Algebraic.lean ====
import proofs.«430199_j90752658965038_1_alg».proof.Proof.KIRun
import proofs.«430199_j90752658965038_1_alg».proof.Proof.RefRun
import proofs.«430199_j90752658965038_1_alg».proof.Proof.KIEdgeVal0
import proofs.«430199_j90752658965038_1_alg».proof.Proof.KIEdgeVal2
import proofs.«430199_j90752658965038_1_alg».proof.Proof.KINodeVal1
import proofs.«430199_j90752658965038_1_alg».proof.Proof.KINodeVal3
import proofs.«430199_j90752658965038_1_alg».proof.Proof.RefBlocks
import proofs.«430199_j90752658965038_1_alg».proof.Proof.StagesDefs
import proofs.«430199_j90752658965038_1_alg».proof.Proof.Stage0a
import proofs.«430199_j90752658965038_1_alg».proof.Proof.Stage0b
import proofs.«430199_j90752658965038_1_alg».proof.Proof.Stage0c
import proofs.«430199_j90752658965038_1_alg».proof.Proof.Stage0d
import proofs.«430199_j90752658965038_1_alg».proof.Proof.Stage1
import proofs.«430199_j90752658965038_1_alg».proof.Proof.Stage2
import proofs.«430199_j90752658965038_1_alg».proof.Proof.Stage3
import proofs.«430199_j90752658965038_1_alg».proof.Proof.Stage4

/-! The two idealised runs side by side: at each of the nine boundaries the live buffers agree, a region's output because both sides are `edgeSpec` / `nodeSpec` of equal operands, a host stretch's results because the operations are the same. -/

set_option maxRecDepth 16384

noncomputable section

namespace Cert.Proof.Alg

open Idealize.ShloMosaic Idealize.ShloMosaic.TcCoe Idealize.SL.Sem
open Cert.Proof.Stages

abbrev kd (r : Ref Cert.KernelIdeal.sig .tc) : DevRef Cert.KernelIdeal.τ Cert.KernelIdeal.sig := Proc.devRef .tc r

abbrev rd (r : Ref Cert.ReferenceIdeal.sig .tc) : DevRef Cert.ReferenceIdeal.τ Cert.ReferenceIdeal.sig := Proc.devRef .tc r

/-- Agreement on the arguments carries over to contents that still hold the arguments' values on either side. -/
theorem _root_.Cert.Proof.Stages.ArgsAgree.transfer {WK WK' : Valuation Cert.KernelIdeal.τ Cert.KernelIdeal.sig (Elt Ideal)}
    {WR WR' : Valuation Cert.ReferenceIdeal.τ Cert.ReferenceIdeal.sig (Elt Ideal)} (h : ArgsAgree WK WR)
    (hK : ∀ a ∈ Cert.KernelIdeal.Fr.args, WK' (kd a) = WK (kd a)) (hR : ∀ a ∈ Cert.ReferenceIdeal.Hand.args, WR' (rd a) = WR (rd a)) :
    ArgsAgree WK' WR' := by
  obtain ⟨a0, a1, a2, a3, a4, a5, a6, a7, a8, a9, a10, a11, a12, a13, a14, a15, a16, a17, a18, a19, a20, a21, a22, a23, a24⟩ := h
  exact ⟨(hR _ (by decide)).trans (a0.trans (hK _ (by decide)).symm), (hR _ (by decide)).trans (a1.trans (hK _ (by decide)).symm),
    (hR _ (by decide)).trans (a2.trans (hK _ (by decide)).symm), (hR _ (by decide)).trans (a3.trans (hK _ (by decide)).symm),
    (hR _ (by decide)).trans (a4.trans (hK _ (by decide)).symm), (hR _ (by decide)).trans (a5.trans (hK _ (by decide)).symm),
    (hR _ (by decide)).trans (a6.trans (hK _ (by decide)).symm), (hR _ (by decide)).trans (a7.trans (hK _ (by decide)).symm),
    (hR _ (by decide)).trans (a8.trans (hK _ (by decide)).symm), (hR _ (by decide)).trans (a9.trans (hK _ (by decide)).symm),
    (hR _ (by decide)).trans (a10.trans (hK _ (by decide)).symm), (hR _ (by decide)).trans (a11.trans (hK _ (by decide)).symm),
    (hR _ (by decide)).trans (a12.trans (hK _ (by decide)).symm), (hR _ (by decide)).trans (a13.trans (hK _ (by decide)).symm),
    (hR _ (by decide)).trans (a14.trans (hK _ (by decide)).symm), (hR _ (by decide)).trans (a15.trans (hK _ (by decide)).symm),
    (hR _ (by decide)).trans (a16.trans (hK _ (by decide)).symm), (hR _ (by decide)).trans (a17.trans (hK _ (by decide)).symm),
    (hR _ (by decide)).trans (a18.trans (hK _ (by decide)).symm), (hR _ (by decide)).trans (a19.trans (hK _ (by decide)).symm),
    (hR _ (by decide)).trans (a20.trans (hK _ (by decide)).symm), (hR _ (by decide)).trans (a21.trans (hK _ (by decide)).symm),
    (hR _ (by decide)).trans (a22.trans (hK _ (by decide)).symm), (hR _ (by decide)).trans (a23.trans (hK _ (by decide)).symm),
    (hR _ (by decide)).trans (a24.trans (hK _ (by decide)).symm)⟩

section Walk

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

local notation "K0" => Cert.KernelIdeal.Fr.W0 (F := Ideal) m ρ c
local notation "K1" => Cert.KernelIdeal.Fr.W1 (F := Ideal) m ρ c
local notation "K2" => Cert.KernelIdeal.Fr.W2 (F := Ideal) m ρ c
local notation "K3" => Cert.KernelIdeal.Fr.W3 (F := Ideal) m ρ c
local notation "K4" => Cert.KernelIdeal.Fr.W4 (F := Ideal) m ρ c
local notation "K5" => Cert.KernelIdeal.Fr.W5 (F := Ideal) m ρ c
local notation "K6" => Cert.KernelIdeal.Fr.W6 (F := Ideal) m ρ c
local notation "K7" => Cert.KernelIdeal.Fr.W7 (F := Ideal) m ρ c
local notation "K8" => Cert.KernelIdeal.Fr.W8 (F := Ideal) m ρ c
local notation "K9" => Cert.KernelIdeal.Fr.W9 (F := Ideal) m ρ c

abbrev R0 : Valuation Cert.ReferenceIdeal.τ Cert.ReferenceIdeal.sig (Elt Ideal) := StableHlo.launchContents m' c
abbrev R1 : Valuation Cert.ReferenceIdeal.τ Cert.ReferenceIdeal.sig (Elt Ideal) := StableHlo.after (Cert.ReferenceIdeal.Hand.P0 (F := Ideal)) (R0 m' c)
abbrev R2 : Valuation Cert.ReferenceIdeal.τ Cert.ReferenceIdeal.sig (Elt Ideal) := StableHlo.after (Cert.ReferenceIdeal.Hand.PE0 (F := Ideal)) (R1 m' c)
abbrev R3 : Valuation Cert.ReferenceIdeal.τ Cert.ReferenceIdeal.sig (Elt Ideal) := StableHlo.after (Cert.ReferenceIdeal.Hand.P1 (F := Ideal)) (R2 m' c)
abbrev R4 : Valuation Cert.ReferenceIdeal.τ Cert.ReferenceIdeal.sig (Elt Ideal) := StableHlo.after (Cert.ReferenceIdeal.Hand.PN0 (F := Ideal)) (R3 m' c)
abbrev R5 : Valuation Cert.ReferenceIdeal.τ Cert.ReferenceIdeal.sig (Elt Ideal) := StableHlo.after (Cert.ReferenceIdeal.Hand.P2 (F := Ideal)) (R4 m' c)
abbrev R6 : Valuation Cert.ReferenceIdeal.τ Cert.ReferenceIdeal.sig (Elt Ideal) := StableHlo.after (Cert.ReferenceIdeal.Hand.PE1 (F := Ideal)) (R5 m' c)
abbrev R7 : Valuation Cert.ReferenceIdeal.τ Cert.ReferenceIdeal.sig (Elt Ideal) := StableHlo.after (Cert.ReferenceIdeal.Hand.P3 (F := Ideal)) (R6 m' c)
abbrev R8 : Valuation Cert.ReferenceIdeal.τ Cert.ReferenceIdeal.sig (Elt Ideal) := StableHlo.after (Cert.ReferenceIdeal.Hand.PN1 (F := Ideal)) (R7 m' c)
abbrev R9 : Valuation Cert.ReferenceIdeal.τ Cert.ReferenceIdeal.sig (Elt Ideal) := StableHlo.after (Cert.ReferenceIdeal.Hand.P4 (F := Ideal)) (R8 m' c)

theorem R9_eq : StableHlo.after (Cert.ReferenceIdeal.Hand.ops (F := Ideal)) (R0 m' c) = R9 m' c := Cert.ReferenceIdeal.Hand.after_ops (F := Ideal) (R0 m' c)

variable (hA : ArgsAgree (Cert.KernelIdeal.Fr.W0 (F := Ideal) m ρ c) (R0 m' c))
include hA

theorem A01 : ArgsAgree K0 (R1 m' c) := hA.transfer (fun _ _ => rfl) (fun a ha => (Cert.ReferenceIdeal.Hand.P0_tame (F := Ideal)).keeps (R0 m' c) a (Cert.ReferenceIdeal.Hand.args_P0 a ha))
theorem A22 : ArgsAgree K2 (R2 m' c) := (A01 m ρ m' c hA).transfer (fun a ha => (Cert.KernelIdeal.Fr.W2_of_ne (F := Ideal) m ρ c a (Cert.KernelIdeal.Fr.args_reg0 a ha)).trans (Cert.KernelIdeal.Fr.W1_of (F := Ideal) m ρ c a (Cert.KernelIdeal.Fr.args_host0 a ha))) (fun a ha => (Cert.ReferenceIdeal.Hand.PE0_tame (F := Ideal)).keeps (R1 m' c) a (Cert.ReferenceIdeal.Hand.args_PE0 a ha))
theorem A23 : ArgsAgree K2 (R3 m' c) := (A22 m ρ m' c hA).transfer (fun _ _ => rfl) (fun a ha => (Cert.ReferenceIdeal.Hand.P1_tame (F := Ideal)).keeps (R2 m' c) a (Cert.ReferenceIdeal.Hand.args_P1 a ha))
theorem A44 : ArgsAgree K4 (R4 m' c) := (A23 m ρ m' c hA).transfer (fun a ha => (Cert.KernelIdeal.Fr.W4_of_ne (F := Ideal) m ρ c a (Cert.KernelIdeal.Fr.args_reg1 a ha)).trans (Cert.KernelIdeal.Fr.W3_of (F := Ideal) m ρ c a (Cert.KernelIdeal.Fr.args_host1 a ha))) (fun a ha => (Cert.ReferenceIdeal.Hand.PN0_tame (F := Ideal)).keeps (R3 m' c) a (Cert.ReferenceIdeal.Hand.args_PN0 a ha))
theorem A45 : ArgsAgree K4 (R5 m' c) := (A44 m ρ m' c hA).transfer (fun _ _ => rfl) (fun a ha => (Cert.ReferenceIdeal.Hand.P2_tame (F := Ideal)).keeps (R4 m' c) a (Cert.ReferenceIdeal.Hand.args_P2 a ha))
theorem A66 : ArgsAgree K6 (R6 m' c) := (A45 m ρ m' c hA).transfer (fun a ha => (Cert.KernelIdeal.Fr.W6_of_ne (F := Ideal) m ρ c a (Cert.KernelIdeal.Fr.args_reg2 a ha)).trans (Cert.KernelIdeal.Fr.W5_of (F := Ideal) m ρ c a (Cert.KernelIdeal.Fr.args_host2 a ha))) (fun a ha => (Cert.ReferenceIdeal.Hand.PE1_tame (F := Ideal)).keeps (R5 m' c) a (Cert.ReferenceIdeal.Hand.args_PE1 a ha))
theorem A67 : ArgsAgree K6 (R7 m' c) := (A66 m ρ m' c hA).transfer (fun _ _ => rfl) (fun a ha => (Cert.ReferenceIdeal.Hand.P3_tame (F := Ideal)).keeps (R6 m' c) a (Cert.ReferenceIdeal.Hand.args_P3 a ha))
theorem A88 : ArgsAgree K8 (R8 m' c) := (A67 m ρ m' c hA).transfer (fun a ha => (Cert.KernelIdeal.Fr.W8_of_ne (F := Ideal) m ρ c a (Cert.KernelIdeal.Fr.args_reg3 a ha)).trans (Cert.KernelIdeal.Fr.W7_of (F := Ideal) m ρ c a (Cert.KernelIdeal.Fr.args_host3 a ha))) (fun a ha => (Cert.ReferenceIdeal.Hand.PN1_tame (F := Ideal)).keeps (R7 m' c) a (Cert.ReferenceIdeal.Hand.args_PN1 a ha))

theorem b1_v105 : R1 m' c (rd Cert.ReferenceIdeal.main_v105) = K1 (kd Cert.KernelIdeal.main_v105) := stage0_v105 K0 (R0 m' c) hA
theorem b1_v109 : R1 m' c (rd Cert.ReferenceIdeal.main_v109) = K1 (kd Cert.KernelIdeal.main_v109) := stage0_v109 K0 (R0 m' c) hA
theorem b1_v112 : R1 m' c (rd Cert.ReferenceIdeal.main_v112) = K1 (kd Cert.KernelIdeal.main_v112) := stage0_v112 K0 (R0 m' c) hA
theorem b1_v133 : R1 m' c (rd Cert.ReferenceIdeal.main_v133) = K1 (kd Cert.KernelIdeal.main_v133) := stage0_v133 K0 (R0 m' c) hA
theorem b1_v139 : R1 m' c (rd Cert.ReferenceIdeal.main_v139) = K1 (kd Cert.KernelIdeal.main_v139) := stage0_v139 K0 (R0 m' c) hA
theorem b1_v141 : R1 m' c (rd Cert.ReferenceIdeal.main_v141) = K1 (kd Cert.KernelIdeal.main_v141) := stage0_v141 K0 (R0 m' c) hA
theorem b1_v156 : R1 m' c (rd Cert.ReferenceIdeal.main_v156) = K1 (kd Cert.KernelIdeal.main_v156) := stage0_v156 K0 (R0 m' c) hA

theorem b2_edge : R2 m' c (rd Cert.ReferenceIdeal.main_v174) = K2 (kd Cert.KernelIdeal.main_v167) := by
  have hR := Cert.ReferenceIdeal.Hand.ref_edge0 (R1 m' c)
  have hK := (Cert.KernelIdeal.Fr.W2_arr (F := Ideal) m ρ c 5).trans (Cert.KernelIdeal.Fr.edge0_final (Cert.KernelIdeal.Fr.V1 (F := Ideal) m ρ) c)
  have e0 := b1_v156 m ρ m' c hA
  have e1 := stage0_w1 K0 (R1 m' c) (A01 m ρ m' c hA)
  have e2 := stage0_b1 K0 (R1 m' c) (A01 m ρ m' c hA)
  have e3 := stage0_w2 K0 (R1 m' c) (A01 m ρ m' c hA)
  have e4 := stage0_b2 K0 (R1 m' c) (A01 m ρ m' c hA)
  refine hR.trans (Eq.trans ?_ hK.symm)
  exact congr (congr (congr (congr (congrArg Cert.Spec.edgeSpec e0) e1) e2) e3) e4

theorem b2_v105 : R2 m' c (rd Cert.ReferenceIdeal.main_v105) = K2 (kd Cert.KernelIdeal.main_v105) :=
  (((Cert.ReferenceIdeal.Hand.PE0_tame (F := Ideal)).keeps (R1 m' c) Cert.ReferenceIdeal.main_v105 (by decide)).trans (b1_v105 m ρ m' c hA)).trans
    (Cert.KernelIdeal.Fr.W2_of_ne (F := Ideal) m ρ c Cert.KernelIdeal.main_v105 (by decide)).symm
theorem b2_v112 : R2 m' c (rd Cert.ReferenceIdeal.main_v112) = K2 (kd Cert.KernelIdeal.main_v112) :=
  (((Cert.ReferenceIdeal.Hand.PE0_tame (F := Ideal)).keeps (R1 m' c) Cert.ReferenceIdeal.main_v112 (by decide)).trans (b1_v112 m ρ m' c hA)).trans
    (Cert.KernelIdeal.Fr.W2_of_ne (F := Ideal) m ρ c Cert.KernelIdeal.main_v112 (by decide)).symm
theorem b2_v141 : R2 m' c (rd Cert.ReferenceIdeal.main_v141) = K2 (kd Cert.KernelIdeal.main_v141) :=
  (((Cert.ReferenceIdeal.Hand.PE0_tame (F := Ideal)).keeps (R1 m' c) Cert.ReferenceIdeal.main_v141 (by decide)).trans (b1_v141 m ρ m' c hA)).trans
    (Cert.KernelIdeal.Fr.W2_of_ne (F := Ideal) m ρ c Cert.KernelIdeal.main_v141 (by decide)).symm
theorem b2_v109 : R2 m' c (rd Cert.ReferenceIdeal.main_v109) = K2 (kd Cert.KernelIdeal.main_v109) :=
  (((Cert.ReferenceIdeal.Hand.PE0_tame (F := Ideal)).keeps (R1 m' c) Cert.ReferenceIdeal.main_v109 (by decide)).trans (b1_v109 m ρ m' c hA)).trans
    (Cert.KernelIdeal.Fr.W2_of_ne (F := Ideal) m ρ c Cert.KernelIdeal.main_v109 (by decide)).symm
theorem b2_v133 : R2 m' c (rd Cert.ReferenceIdeal.main_v133) = K2 (kd Cert.KernelIdeal.main_v133) :=
  (((Cert.ReferenceIdeal.Hand.PE0_tame (F := Ideal)).keeps (R1 m' c) Cert.ReferenceIdeal.main_v133 (by decide)).trans (b1_v133 m ρ m' c hA)).trans
    (Cert.KernelIdeal.Fr.W2_of_ne (F := Ideal) m ρ c Cert.KernelIdeal.main_v133 (by decide)).symm
theorem b2_v139 : R2 m' c (rd Cert.ReferenceIdeal.main_v139) = K2 (kd Cert.KernelIdeal.main_v139) :=
  (((Cert.ReferenceIdeal.Hand.PE0_tame (F := Ideal)).keeps (R1 m' c) Cert.ReferenceIdeal.main_v139 (by decide)).trans (b1_v139 m ρ m' c hA)).trans
    (Cert.KernelIdeal.Fr.W2_of_ne (F := Ideal) m ρ c Cert.KernelIdeal.main_v139 (by decide)).symm

theorem b3_h : R3 m' c (rd Cert.ReferenceIdeal.main_v222) = K3 (kd Cert.KernelIdeal.main_v215) :=
  stage1_h K2 (R2 m' c) (A22 m ρ m' c hA) (b2_v112 m ρ m' c hA) (b2_edge m ρ m' c hA) (b2_v105 m ρ m' c hA) (b2_v141 m ρ m' c hA)

theorem b3_v105 : R3 m' c (rd Cert.ReferenceIdeal.main_v105) = K3 (kd Cert.KernelIdeal.main_v105) :=
  (((Cert.ReferenceIdeal.Hand.P1_tame (F := Ideal)).keeps (R2 m' c) Cert.ReferenceIdeal.main_v105 (by decide)).trans (b2_v105 m ρ m' c hA)).trans
    (Cert.KernelIdeal.Fr.W3_of (F := Ideal) m ρ c Cert.KernelIdeal.main_v105 (by decide)).symm
theorem b3_v112 : R3 m' c (rd Cert.ReferenceIdeal.main_v112) = K3 (kd Cert.KernelIdeal.main_v112) :=
  (((Cert.ReferenceIdeal.Hand.P1_tame (F := Ideal)).keeps (R2 m' c) Cert.ReferenceIdeal.main_v112 (by decide)).trans (b2_v112 m ρ m' c hA)).trans
    (Cert.KernelIdeal.Fr.W3_of (F := Ideal) m ρ c Cert.KernelIdeal.main_v112 (by decide)).symm
theorem b3_v109 : R3 m' c (rd Cert.ReferenceIdeal.main_v109) = K3 (kd Cert.KernelIdeal.main_v109) :=
  (((Cert.ReferenceIdeal.Hand.P1_tame (F := Ideal)).keeps (R2 m' c) Cert.ReferenceIdeal.main_v109 (by decide)).trans (b2_v109 m ρ m' c hA)).trans
    (Cert.KernelIdeal.Fr.W3_of (F := Ideal) m ρ c Cert.KernelIdeal.main_v109 (by decide)).symm
theorem b3_v133 : R3 m' c (rd Cert.ReferenceIdeal.main_v133) = K3 (kd Cert.KernelIdeal.main_v133) :=
  (((Cert.ReferenceIdeal.Hand.P1_tame (F := Ideal)).keeps (R2 m' c) Cert.ReferenceIdeal.main_v133 (by decide)).trans (b2_v133 m ρ m' c hA)).trans
    (Cert.KernelIdeal.Fr.W3_of (F := Ideal) m ρ c Cert.KernelIdeal.main_v133 (by decide)).symm
theorem b3_v141 : R3 m' c (rd Cert.ReferenceIdeal.main_v141) = K3 (kd Cert.KernelIdeal.main_v141) :=
  (((Cert.ReferenceIdeal.Hand.P1_tame (F := Ideal)).keeps (R2 m' c) Cert.ReferenceIdeal.main_v141 (by decide)).trans (b2_v141 m ρ m' c hA)).trans
    (Cert.KernelIdeal.Fr.W3_of (F := Ideal) m ρ c Cert.KernelIdeal.main_v141 (by decide)).symm
theorem b3_v139 : R3 m' c (rd Cert.ReferenceIdeal.main_v139) = K3 (kd Cert.KernelIdeal.main_v139) :=
  (((Cert.ReferenceIdeal.Hand.P1_tame (F := Ideal)).keeps (R2 m' c) Cert.ReferenceIdeal.main_v139 (by decide)).trans (b2_v139 m ρ m' c hA)).trans
    (Cert.KernelIdeal.Fr.W3_of (F := Ideal) m ρ c Cert.KernelIdeal.main_v139 (by decide)).symm

theorem b4_node : R4 m' c (rd Cert.ReferenceIdeal.main_v240) = K4 (kd Cert.KernelIdeal.main_v226) := by
  have hR := Cert.ReferenceIdeal.Hand.ref_node0 (R3 m' c)
  have hK := (Cert.KernelIdeal.Fr.W4_arr (F := Ideal) m ρ c 6).trans (Cert.KernelIdeal.Fr.node1_final (Cert.KernelIdeal.Fr.V3 (F := Ideal) m ρ) c)
  have e0 := b3_h m ρ m' c hA
  have e1 := b3_v105 m ρ m' c hA
  have e2 := stage1_w1 K2 (R3 m' c) (A23 m ρ m' c hA)
  have e3 := stage1_b1 K2 (R3 m' c) (A23 m ρ m' c hA)
  have e4 := stage1_w2 K2 (R3 m' c) (A23 m ρ m' c hA)
  have e5 := stage1_b2 K2 (R3 m' c) (A23 m ρ m' c hA)
  refine hR.trans (Eq.trans ?_ hK.symm)
  exact congr (congr (congr (congr (congr (congrArg Cert.Spec.nodeSpec e0) e1) e2) e3) e4) e5

theorem b4_v112 : R4 m' c (rd Cert.ReferenceIdeal.main_v112) = K4 (kd Cert.KernelIdeal.main_v112) :=
  (((Cert.ReferenceIdeal.Hand.PN0_tame (F := Ideal)).keeps (R3 m' c) Cert.ReferenceIdeal.main_v112 (by decide)).trans (b3_v112 m ρ m' c hA)).trans
    (Cert.KernelIdeal.Fr.W4_of_ne (F := Ideal) m ρ c Cert.KernelIdeal.main_v112 (by decide)).symm
theorem b4_v109 : R4 m' c (rd Cert.ReferenceIdeal.main_v109) = K4 (kd Cert.KernelIdeal.main_v109) :=
  (((Cert.ReferenceIdeal.Hand.PN0_tame (F := Ideal)).keeps (R3 m' c) Cert.ReferenceIdeal.main_v109 (by decide)).trans (b3_v109 m ρ m' c hA)).trans
    (Cert.KernelIdeal.Fr.W4_of_ne (F := Ideal) m ρ c Cert.KernelIdeal.main_v109 (by decide)).symm
theorem b4_v133 : R4 m' c (rd Cert.ReferenceIdeal.main_v133) = K4 (kd Cert.KernelIdeal.main_v133) :=
  (((Cert.ReferenceIdeal.Hand.PN0_tame (F := Ideal)).keeps (R3 m' c) Cert.ReferenceIdeal.main_v133 (by decide)).trans (b3_v133 m ρ m' c hA)).trans
    (Cert.KernelIdeal.Fr.W4_of_ne (F := Ideal) m ρ c Cert.KernelIdeal.main_v133 (by decide)).symm
theorem b4_v141 : R4 m' c (rd Cert.ReferenceIdeal.main_v141) = K4 (kd Cert.KernelIdeal.main_v141) :=
  (((Cert.ReferenceIdeal.Hand.PN0_tame (F := Ideal)).keeps (R3 m' c) Cert.ReferenceIdeal.main_v141 (by decide)).trans (b3_v141 m ρ m' c hA)).trans
    (Cert.KernelIdeal.Fr.W4_of_ne (F := Ideal) m ρ c Cert.KernelIdeal.main_v141 (by decide)).symm
theorem b4_v139 : R4 m' c (rd Cert.ReferenceIdeal.main_v139) = K4 (kd Cert.KernelIdeal.main_v139) :=
  (((Cert.ReferenceIdeal.Hand.PN0_tame (F := Ideal)).keeps (R3 m' c) Cert.ReferenceIdeal.main_v139 (by decide)).trans (b3_v139 m ρ m' c hA)).trans
    (Cert.KernelIdeal.Fr.W4_of_ne (F := Ideal) m ρ c Cert.KernelIdeal.main_v139 (by decide)).symm

theorem b5_m : R5 m' c (rd Cert.ReferenceIdeal.main_v255) = K5 (kd Cert.KernelIdeal.main_v241) :=
  stage2_m K4 (R4 m' c) (A44 m ρ m' c hA) (b4_v112 m ρ m' c hA) (b4_node m ρ m' c hA) (b4_v109 m ρ m' c hA) (b4_v133 m ρ m' c hA)

theorem b6_edge : R6 m' c (rd Cert.ReferenceIdeal.main_v273) = K6 (kd Cert.KernelIdeal.main_v252) := by
  have hR := Cert.ReferenceIdeal.Hand.ref_edge1 (R5 m' c)
  have hK := (Cert.KernelIdeal.Fr.W6_arr (F := Ideal) m ρ c 5).trans (Cert.KernelIdeal.Fr.P2.edge2_final (Cert.KernelIdeal.Fr.V5 (F := Ideal) m ρ) c)
  have e0 := b5_m m ρ m' c hA
  have e1 := stage2_w1 K4 (R5 m' c) (A45 m ρ m' c hA)
  have e2 := stage2_b1 K4 (R5 m' c) (A45 m ρ m' c hA)
  have e3 := stage2_w2 K4 (R5 m' c) (A45 m ρ m' c hA)
  have e4 := stage2_b2 K4 (R5 m' c) (A45 m ρ m' c hA)
  refine hR.trans (Eq.trans ?_ hK.symm)
  exact congr (congr (congr (congr (congrArg Cert.Spec.edgeSpec e0) e1) e2) e3) e4

theorem b5_v112 : R5 m' c (rd Cert.ReferenceIdeal.main_v112) = K5 (kd Cert.KernelIdeal.main_v112) :=
  (((Cert.ReferenceIdeal.Hand.P2_tame (F := Ideal)).keeps (R4 m' c) Cert.ReferenceIdeal.main_v112 (by decide)).trans (b4_v112 m ρ m' c hA)).trans
    (Cert.KernelIdeal.Fr.W5_of (F := Ideal) m ρ c Cert.KernelIdeal.main_v112 (by decide)).symm
theorem b6_v112 : R6 m' c (rd Cert.ReferenceIdeal.main_v112) = K6 (kd Cert.KernelIdeal.main_v112) :=
  (((Cert.ReferenceIdeal.Hand.PE1_tame (F := Ideal)).keeps (R5 m' c) Cert.ReferenceIdeal.main_v112 (by decide)).trans (b5_v112 m ρ m' c hA)).trans
    (Cert.KernelIdeal.Fr.W6_of_ne (F := Ideal) m ρ c Cert.KernelIdeal.main_v112 (by decide)).symm
theorem b5_v141 : R5 m' c (rd Cert.ReferenceIdeal.main_v141) = K5 (kd Cert.KernelIdeal.main_v141) :=
  (((Cert.ReferenceIdeal.Hand.P2_tame (F := Ideal)).keeps (R4 m' c) Cert.ReferenceIdeal.main_v141 (by decide)).trans (b4_v141 m ρ m' c hA)).trans
    (Cert.KernelIdeal.Fr.W5_of (F := Ideal) m ρ c Cert.KernelIdeal.main_v141 (by decide)).symm
theorem b6_v141 : R6 m' c (rd Cert.ReferenceIdeal.main_v141) = K6 (kd Cert.KernelIdeal.main_v141) :=
  (((Cert.ReferenceIdeal.Hand.PE1_tame (F := Ideal)).keeps (R5 m' c) Cert.ReferenceIdeal.main_v141 (by decide)).trans (b5_v141 m ρ m' c hA)).trans
    (Cert.KernelIdeal.Fr.W6_of_ne (F := Ideal) m ρ c Cert.KernelIdeal.main_v141 (by decide)).symm
theorem b5_v139 : R5 m' c (rd Cert.ReferenceIdeal.main_v139) = K5 (kd Cert.KernelIdeal.main_v139) :=
  (((Cert.ReferenceIdeal.Hand.P2_tame (F := Ideal)).keeps (R4 m' c) Cert.ReferenceIdeal.main_v139 (by decide)).trans (b4_v139 m ρ m' c hA)).trans
    (Cert.KernelIdeal.Fr.W5_of (F := Ideal) m ρ c Cert.KernelIdeal.main_v139 (by decide)).symm
theorem b6_v139 : R6 m' c (rd Cert.ReferenceIdeal.main_v139) = K6 (kd Cert.KernelIdeal.main_v139) :=
  (((Cert.ReferenceIdeal.Hand.PE1_tame (F := Ideal)).keeps (R5 m' c) Cert.ReferenceIdeal.main_v139 (by decide)).trans (b5_v139 m ρ m' c hA)).trans
    (Cert.KernelIdeal.Fr.W6_of_ne (F := Ideal) m ρ c Cert.KernelIdeal.main_v139 (by decide)).symm
theorem b5_feats : R5 m' c (rd Cert.ReferenceIdeal.main_v240) = K5 (kd Cert.KernelIdeal.main_v226) :=
  (((Cert.ReferenceIdeal.Hand.P2_tame (F := Ideal)).keeps (R4 m' c) Cert.ReferenceIdeal.main_v240 (by decide)).trans (b4_node m ρ m' c hA)).trans
    (Cert.KernelIdeal.Fr.W5_of (F := Ideal) m ρ c Cert.KernelIdeal.main_v226 (by decide)).symm
theorem b6_feats : R6 m' c (rd Cert.ReferenceIdeal.main_v240) = K6 (kd Cert.KernelIdeal.main_v226) :=
  (((Cert.ReferenceIdeal.Hand.PE1_tame (F := Ideal)).keeps (R5 m' c) Cert.ReferenceIdeal.main_v240 (by decide)).trans (b5_feats m ρ m' c hA)).trans
    (Cert.KernelIdeal.Fr.W6_of_ne (F := Ideal) m ρ c Cert.KernelIdeal.main_v226 (by decide)).symm

theorem b7_h : R7 m' c (rd Cert.ReferenceIdeal.main_v321) = K7 (kd Cert.KernelIdeal.main_v300) :=
  stage3_h K6 (R6 m' c) (A66 m ρ m' c hA) (b6_v112 m ρ m' c hA) (b6_edge m ρ m' c hA) (b6_feats m ρ m' c hA) (b6_v141 m ρ m' c hA)

theorem b7_v139 : R7 m' c (rd Cert.ReferenceIdeal.main_v139) = K7 (kd Cert.KernelIdeal.main_v139) :=
  (((Cert.ReferenceIdeal.Hand.P3_tame (F := Ideal)).keeps (R6 m' c) Cert.ReferenceIdeal.main_v139 (by decide)).trans (b6_v139 m ρ m' c hA)).trans
    (Cert.KernelIdeal.Fr.W7_of (F := Ideal) m ρ c Cert.KernelIdeal.main_v139 (by decide)).symm
theorem b7_feats : R7 m' c (rd Cert.ReferenceIdeal.main_v240) = K7 (kd Cert.KernelIdeal.main_v226) :=
  (((Cert.ReferenceIdeal.Hand.P3_tame (F := Ideal)).keeps (R6 m' c) Cert.ReferenceIdeal.main_v240 (by decide)).trans (b6_feats m ρ m' c hA)).trans
    (Cert.KernelIdeal.Fr.W7_of (F := Ideal) m ρ c Cert.KernelIdeal.main_v226 (by decide)).symm
theorem b8_v139 : R8 m' c (rd Cert.ReferenceIdeal.main_v139) = K8 (kd Cert.KernelIdeal.main_v139) :=
  (((Cert.ReferenceIdeal.Hand.PN1_tame (F := Ideal)).keeps (R7 m' c) Cert.ReferenceIdeal.main_v139 (by decide)).trans (b7_v139 m ρ m' c hA)).trans
    (Cert.KernelIdeal.Fr.W8_of_ne (F := Ideal) m ρ c Cert.KernelIdeal.main_v139 (by decide)).symm

theorem b8_node : R8 m' c (rd Cert.ReferenceIdeal.main_v339) = K8 (kd Cert.KernelIdeal.main_v311) := by
  have hR := Cert.ReferenceIdeal.Hand.ref_node1 (R7 m' c)
  have hK := (Cert.KernelIdeal.Fr.W8_arr (F := Ideal) m ρ c 6).trans (Cert.KernelIdeal.Fr.P3.node3_final (Cert.KernelIdeal.Fr.V7 (F := Ideal) m ρ) c)
  have e0 := b7_h m ρ m' c hA
  have e1 := b7_feats m ρ m' c hA
  have e2 := stage3_w1 K6 (R7 m' c) (A67 m ρ m' c hA)
  have e3 := stage3_b1 K6 (R7 m' c) (A67 m ρ m' c hA)
  have e4 := stage3_w2 K6 (R7 m' c) (A67 m ρ m' c hA)
  have e5 := stage3_b2 K6 (R7 m' c) (A67 m ρ m' c hA)
  refine hR.trans (Eq.trans ?_ hK.symm)
  exact congr (congr (congr (congr (congr (congrArg Cert.Spec.nodeSpec e0) e1) e2) e3) e4) e5

theorem result_eq : StableHlo.after (Cert.ReferenceIdeal.Hand.ops (F := Ideal)) (R0 m' c) (rd Cert.ReferenceIdeal.main_v345) = K9 (kd Cert.KernelIdeal.main_v317) := by
  rw [R9_eq m' c]
  exact stage4_out K8 (R8 m' c) (A88 m ρ m' c hA) (b8_node m ρ m' c hA) (b8_v139 m ρ m' c hA)

end Walk

end Cert.Proof.Alg

end
-- ==== Proof.lean ====
/-
  A two-layer message-passing network: per layer an edge block and a node block (two dense layers each, run as kernel
  regions over row blocks) between host operations, against the same network over whole matrices.

  Frames: no host operation and no region writes an argument. Values: at the exact reals each region's output array is
  one whole-array function of its operands (`Cert.Spec.edgeSpec`, `Cert.Spec.nodeSpec`: an output row depends on the same
  row of the inputs, and the points' row blocks tile the array), which is also what the reference's stage computes; the host
  stretches between are the same operations on equal inputs.
-/
import proofs.«430199_j90752658965038_1_alg».proof.Defs
import proofs.«430199_j90752658965038_1_alg».proof.Proof.Gen.Kernel
import proofs.«430199_j90752658965038_1_alg».proof.Proof.Gen.KernelIdeal
import proofs.«430199_j90752658965038_1_alg».proof.Proof.Gen.ReferenceIdeal
import proofs.«430199_j90752658965038_1_alg».proof.Proof.Gen.Pre_finite_inputs
import proofs.«430199_j90752658965038_1_alg».proof.Proof.KRun
import proofs.«430199_j90752658965038_1_alg».proof.Proof.KIRun
import proofs.«430199_j90752658965038_1_alg».proof.Proof.RefRun
import proofs.«430199_j90752658965038_1_alg».proof.Proof.Algebraic
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ =>
  (θ_run Cert.Kernel.defs _ _).mono (fun r h c => by and_intros <;> exact (h c).2 _ (by decide))
    (Cert.Kernel.Fr.run_args (F := Bits) m ρ)

theorem frame_pi : Cert.frame_KernelIdeal := fun m ρ _ =>
  (θ_run Cert.KernelIdeal.defs _ _).mono (fun r h c => by and_intros <;> exact (h c).2 _ (by decide))
    (Cert.KernelIdeal.Fr.run_args (F := Ideal) m ρ)

/-- The reference's run with the result dropped; no operation writes an argument. -/
theorem frame_ri : Cert.frame_ReferenceIdeal := fun m ρ _ =>
  (θ_run Cert.ReferenceIdeal.defs _ _).mono
    (fun r h c => by and_intros <;> exact (h c _).trans (Cert.ReferenceIdeal.Hand.ops_arg (F := Ideal) _ (by decide)))
    (Cert.ReferenceIdeal.Hand.run_main (F := Ideal) m ρ)

theorem preserves : Cert.preserves_Kernel_KernelIdeal := trivial

/-- Both idealised programs end, the reference's result being the kernel program's (`Alg.result_eq`). -/
theorem algebraic : Cert.algebraic_KernelIdeal_ReferenceIdeal := by
  intro m ρ m' ρ' _ hagree
  refine ⟨fun c => Cert.KernelIdeal.Fr.W9 (F := Ideal) m ρ c (Proc.devRef .tc Cert.KernelIdeal.main_v317), ?_, ?_⟩
  · refine (θ_run Cert.KernelIdeal.defs _ _).mono (fun r h c => ?_) (Cert.KernelIdeal.Fr.run_args (F := Ideal) m ρ)
    refine ⟨(h c).1 _ (Cert.KernelIdeal.Fr.mem_uc Cert.KernelIdeal.main_v317 (by decide)), ?_⟩
    and_intros <;> exact (h c).2 _ (by decide)
  · refine (θ_run Cert.ReferenceIdeal.defs _ _).mono (fun r h c => ?_) (Cert.ReferenceIdeal.Hand.run_main (F := Ideal) m' ρ')
    refine ⟨(h c Cert.ReferenceIdeal.main_v345).trans (Cert.Proof.Alg.result_eq m ρ m' c (hagree c)), ?_⟩
    and_intros <;> exact (h c _).trans (Cert.ReferenceIdeal.Hand.ops_arg (F := Ideal) _ (by decide))

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
